-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S192x10 : Shape := ⟨2, ![192, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x10 : S_.BroadcastsInDim S192x10 (![] : Fin 0 → Fin S192x10.rank)
  reducesTo_S192x10_S_d0_1 : S192x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S192x10 .f32) (main_arg10 : FVec F S10 .f32) (main_v33 : IVec S_ 1) : IVec S_ 1 :=
  let main_v34 : FVec F S192x10 .f32 := Host.absf main_arg9
  let main_cst_12 : FVec F S_ .f32 := constant S_ .f32 0x7F800000#32
  let main_v35 : FVec F S192x10 .f32 := broadcastInDim S192x10 ![] bcast_S_S192x10 main_cst_12
  let main_v36 : IVec S192x10 1 := cmpf .olt main_v34 main_v35
  let main_c_13 : IVec S_ 1 := constantI S_ 1 1#1
  let main_v37 : IVec S_ 1 := (fun x v => Host.reduce IntOp.andi x v reducesTo_S192x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S192x10 .f32) (main_arg10 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S192x10 .f32) (main_arg10 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S192x10 : Shape := ⟨2, ![192, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S10000x64 : Shape := ⟨2, ![10000, 64]⟩
abbrev S10000x1 : Shape := ⟨2, ![10000, 1]⟩
abbrev S1700000x64 : Shape := ⟨2, ![1700000, 64]⟩
abbrev S1x64 : Shape := ⟨2, ![1, 64]⟩
abbrev S64x10 : Shape := ⟨2, ![64, 10]⟩
abbrev S1x10 : Shape := ⟨2, ![1, 10]⟩
abbrev S128x10 : Shape := ⟨2, ![128, 10]⟩
abbrev S5000x64 : Shape := ⟨2, ![5000, 64]⟩
abbrev S5000x1 : Shape := ⟨2, ![5000, 1]⟩
abbrev S128x64 : Shape := ⟨2, ![128, 64]⟩
abbrev S128x1 : Shape := ⟨2, ![128, 1]⟩
abbrev S5000x128 : Shape := ⟨2, ![5000, 128]⟩
abbrev S128 : Shape := ⟨1, ![128]⟩

abbrev nBuf : Space → Nat
  | .hbm => 90
  | .vmem => 59
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S192x10, .f32⟩
  | .hbm, ⟨10, _⟩ => ⟨S10, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .bf16⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000x64, .bf16⟩
  | .hbm, ⟨43, _⟩ => ⟨S1700000x64, .f32⟩
  | .hbm, ⟨44, _⟩ => ⟨S_, .f32⟩
  | .hbm, ⟨45, _⟩ => ⟨S100000x64, .f32⟩
  | .hbm, ⟨46, _⟩ => ⟨S1700000x1, .i32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .bf16⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .bf16⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .bf16⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .bf16⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x1, .i32⟩
  | .hbm, ⟨85, _⟩ => ⟨S64x10, .f32⟩
  | .hbm, ⟨86, _⟩ => ⟨S64x10, .f32⟩
  | .hbm, ⟨87, _⟩ => ⟨S64x10, .f32⟩
  | .hbm, ⟨88, _⟩ => ⟨S1x10, .f32⟩
  | .hbm, ⟨89, _⟩ => ⟨S128x10, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x1, .f32⟩
  | .local _ .vmem, ⟨4, _⟩ => ⟨S10000x1, .f32⟩
  | .local _ .vmem, ⟨5, _⟩ => ⟨S10000x64, .bf16⟩
  | .local _ .vmem, ⟨6, _⟩ => ⟨S10000x64, .bf16⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x1, .f32⟩
  | .local _ .vmem, ⟨18, _⟩ => ⟨S10000x1, .f32⟩
  | .local _ .vmem, ⟨19, _⟩ => ⟨S10000x64, .bf16⟩
  | .local _ .vmem, ⟨20, _⟩ => ⟨S10000x64, .bf16⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S64x64, .f32⟩
  | .local _ .vmem, ⟨31, _⟩ => ⟨S10000x1, .f32⟩
  | .local _ .vmem, ⟨32, _⟩ => ⟨S10000x1, .f32⟩
  | .local _ .vmem, ⟨33, _⟩ => ⟨S10000x64, .bf16⟩
  | .local _ .vmem, ⟨34, _⟩ => ⟨S10000x64, .bf16⟩
  | .local _ .vmem, ⟨35, _⟩ => ⟨S10000x64, .f32⟩
  | .local _ .vmem, ⟨36, _⟩ => ⟨S10000x64, .f32⟩
  | .local _ .vmem, ⟨37, _⟩ => ⟨S10000x1, .f32⟩
  | .local _ .vmem, ⟨38, _⟩ => ⟨S10000x1, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x1, .i32⟩
  | .local _ .vmem, ⟨49, _⟩ => ⟨S5000x1, .i32⟩
  | .local _ .vmem, ⟨50, _⟩ => ⟨S64x10, .f32⟩
  | .local _ .vmem, ⟨51, _⟩ => ⟨S64x10, .f32⟩
  | .local _ .vmem, ⟨52, _⟩ => ⟨S64x10, .f32⟩
  | .local _ .vmem, ⟨53, _⟩ => ⟨S1x10, .f32⟩
  | .local _ .vmem, ⟨54, _⟩ => ⟨S128x10, .f32⟩
  | .local _ .vmem, ⟨55, _⟩ => ⟨S128x64, .f32⟩
  | .local _ .vmem, ⟨56, _⟩ => ⟨S128x64, .f32⟩
  | .local _ .vmem, ⟨57, _⟩ => ⟨S128x64, .f32⟩
  | .local _ .vmem, ⟨58, _⟩ => ⟨S128x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg3_1 : Ref sig .tc := ⟨.vmem, 49, rfl⟩
abbrev cc6_stg4_0 : Ref sig .tc := ⟨.vmem, 50, rfl⟩
abbrev cc6_stg5_0 : Ref sig .tc := ⟨.vmem, 51, rfl⟩
abbrev cc6_stg6_0 : Ref sig .tc := ⟨.vmem, 52, rfl⟩
abbrev cc6_stg7_0 : Ref sig .tc := ⟨.vmem, 53, rfl⟩
abbrev cc6_stg8_0 : Ref sig .tc := ⟨.vmem, 54, rfl⟩
abbrev cc6_scratch0 : Ref sig .tc := ⟨.vmem, 55, rfl⟩
abbrev cc6_scratch1 : Ref sig .tc := ⟨.vmem, 56, rfl⟩
abbrev cc6_scratch2 : Ref sig .tc := ⟨.vmem, 57, rfl⟩
abbrev cc6_scratch3 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc6_sem3_0 : DmaSem sig := 48
abbrev cc6_sem3_1 : DmaSem sig := 49
abbrev cc6_sem4_0 : DmaSem sig := 50
abbrev cc6_sem5_0 : DmaSem sig := 51
abbrev cc6_sem6_0 : DmaSem sig := 52
abbrev cc6_sem7_0 : DmaSem sig := 53
abbrev cc6_sem8_0 : DmaSem sig := 54

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S10000x64 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def k6_cond2 (i : grid6.Coords) : BitVec 1 :=
  let arg0 : BitVec 32 := BitVec.ofNat 32 (i 0).val
  let c19_i32 : BitVec 32 := 19#32
  let v45 : BitVec 1 := Scalar.cmpi .eq arg0 c19_i32
  let v46 : BitVec 32 := Scalar.extui v45
  let c0_i32_28 : BitVec 32 := 0#32
  let v47 : BitVec 1 := Scalar.cmpi .ne v46 c0_i32_28
  v47

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x1 .i32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S64x10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S64x10 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S64x10 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x10 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S128x10 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  packedbf16_S10000x64_S10000x64_0_0 : (Rect.unit (s := S10000x64) ![0, 0] S10000x64.size inb_S10000x64_S10000x64_0_0).PackedRows (EltTy.packing .bf16)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S192x10_S64x10_0_0 : S192x10.Slices ![0, 0] S64x10
  slices_S192x10_S64x10_64_0 : S192x10.Slices ![64, 0] S64x10
  slices_S192x10_S64x10_128_0 : S192x10.Slices ![128, 0] S64x10
  shapeCasts_S10_S1x10 : S10.ShapeCasts S1x10
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  broadcasts_S128x1_S128x64 : S128x1.Broadcasts S128x64
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  reduces_S128x10_S128 : S128x10.Reduces [1] S128
  shapeCasts_S128_S128x1 : S128.ShapeCasts S128x1
  broadcasts_S128x1_S128x10 : S128x1.Broadcasts S128x10
  inb_S128x10_S128x10_0_0 : ∀ a, (![0, 0] : Fin 2 → Nat) a + S128x10.size a ≤ S128x10.size a
  h_S128x10 : 0 < S128x10.numel
  scatter_S100000_S1700000x1_S1700000_n_0_0_1_wf : ScatterDims.WF S100000 S1700000x1 S1700000 [] [0] [0] 1
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x128_S5000x64_S128x64_0_0_1_1_n_n_wf : DotDims.WF S5000x128 S5000x64 S128x64 [0] [0] [1] [1] [] []
  dot_S5000x128_S5000x1_S128x1_0_0_1_1_n_n_wf : DotDims.WF S5000x128 S5000x1 S128x1 [0] [0] [1] [1] [] []
  dot_S128x64_S64x10_S128x10_1_0_0_1_n_n_wf : DotDims.WF S128x64 S64x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .bf16 = 32 ∨ (Rect.block (s := S100000x64) S10000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .bf16 = 32 ∨ (Rect.block (s := S100000x64) S10000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .bf16 = 32 ∨ (Rect.block (s := S100000x64) S10000x64.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S100000x1.size a
  hwx5_1 : ∀ i : grid5.Coords, EltTy.bits .f32 = 32 ∨ (Rect.block (s := S100000x1) S10000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S100000x1.size a
  hwx6_3 : ∀ i : grid6.Coords, EltTy.bits .i32 = 32 ∨ (Rect.block (s := S100000x1) S5000x1.size (cc6_transform_3 i) (hinb6_3 i)).WholeWords (EltTy.packing .i32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x10.size a ≤ S64x10.size a
  hwx6_4 : ∀ i : grid6.Coords, EltTy.bits .f32 = 32 ∨ (Rect.block (s := S64x10) S64x10.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S64x10.size a ≤ S64x10.size a
  hwx6_5 : ∀ i : grid6.Coords, EltTy.bits .f32 = 32 ∨ (Rect.block (s := S64x10) S64x10.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S64x10.size a ≤ S64x10.size a
  hwx6_6 : ∀ i : grid6.Coords, EltTy.bits .f32 = 32 ∨ (Rect.block (s := S64x10) S64x10.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x10.size a ≤ S1x10.size a
  hwx6_7 : ∀ i : grid6.Coords, EltTy.bits .f32 = 32 ∨ (Rect.block (s := S1x10) S1x10.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S128x10.size a ≤ S128x10.size a
  hwx6_8 : ∀ i : grid6.Coords, EltTy.bits .f32 = 32 ∨ (Rect.block (s := S128x10) S128x10.size (cc6_transform_8 i) (hinb6_8 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf
def dot_S5000x128_S5000x1_S128x1_0_0_1_1_n_n : DotDims S5000x128 S5000x1 S128x1 where
  lhsContracting := [0]
  rhsContracting := [0]
  lhsNonContracting := [1]
  rhsNonContracting := [1]
  lhsBatch := []
  rhsBatch := []
  wf := dot_S5000x128_S5000x1_S128x1_0_0_1_1_n_n_wf
def dot_S128x64_S64x10_S128x10_1_0_0_1_n_n : DotDims S128x64 S64x10 S128x10 where
  lhsContracting := [1]
  rhsContracting := [0]
  lhsNonContracting := [0]
  rhsNonContracting := [1]
  lhsBatch := []
  rhsBatch := []
  wf := dot_S128x64_S64x10_S128x10_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v43) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v15) S10000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v44) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v55) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v15) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v29) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v43) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v57) S5000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v58) S5000x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v59) S64x10.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v60) S64x10.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v61) S64x10.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v62) S1x10.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v63) S128x10.size cc6_transform_8 reads6_8 true true 1 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev idle6 : Fin 9 → grid6.Coords → Bool := fun | 0 => fun _ => false | 1 => fun _ => false | 2 => fun _ => false | 3 => fun _ => false | 4 => fun _ => false | 5 => fun _ => false | 6 => fun _ => false | 7 => fun _ => false | 8 => fun i => !(k6_cond2 i == 1#1) | ⟨_ + 9, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S192x10 : Shape := ⟨2, ![192, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x192 : Shape := ⟨2, ![100000, 192]⟩
abbrev S128x192 : Shape := ⟨2, ![128, 192]⟩
abbrev S100000x1 : Shape := ⟨2, ![100000, 1]⟩
abbrev S128 : Shape := ⟨1, ![128]⟩
abbrev S128x1 : Shape := ⟨2, ![128, 1]⟩
abbrev S128x10 : Shape := ⟨2, ![128, 10]⟩
abbrev S1x10 : Shape := ⟨2, ![1, 10]⟩

abbrev nBuf : Space → Nat
  | .hbm => 155
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S192x10, .f32⟩
  | 10 => ⟨S10, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x64, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x64, .f32⟩
  | 84 => ⟨S1700000x1, .f32⟩
  | 85 => ⟨S1700000x64, .f32⟩
  | 86 => ⟨S1700000x64, .f32⟩
  | 87 => ⟨S_, .f32⟩
  | 88 => ⟨S100000x64, .f32⟩
  | 89 => ⟨S1700000x1, .i32⟩
  | 90 => ⟨S100000x64, .f32⟩
  | 91 => ⟨S1x64, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S100000x64, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x64, .f32⟩
  | 107 => ⟨S1700000x1, .f32⟩
  | 108 => ⟨S1700000x64, .f32⟩
  | 109 => ⟨S1700000x64, .f32⟩
  | 110 => ⟨S_, .f32⟩
  | 111 => ⟨S100000x64, .f32⟩
  | 112 => ⟨S1700000x1, .i32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S100000x192, .f32⟩
  | 121 => ⟨S_, .f32⟩
  | 122 => ⟨S128x192, .f32⟩
  | 123 => ⟨S100000x1, .i32⟩
  | 124 => ⟨S128x192, .f32⟩
  | 125 => ⟨S_, .f32⟩
  | 126 => ⟨S100000, .f32⟩
  | 127 => ⟨S_, .f32⟩
  | _ => ⟨S100000x64, .f32⟩

abbrev hbmTy0_1 (i : Nat) : BufTy := match i % 128 with
  | 0 => ⟨S128, .f32⟩
  | 1 => ⟨S100000x1, .i32⟩
  | 2 => ⟨S128, .f32⟩
  | 3 => ⟨S_, .f32⟩
  | 4 => ⟨S128, .f32⟩
  | 5 => ⟨S128, .f32⟩
  | 6 => ⟨S128x1, .f32⟩
  | 7 => ⟨S128x192, .f32⟩
  | 8 => ⟨S128x192, .f32⟩
  | 9 => ⟨S128x10, .f32⟩
  | 10 => ⟨S1x10, .f32⟩
  | 11 => ⟨S128x10, .f32⟩
  | 12 => ⟨S128x10, .f32⟩
  | 13 => ⟨S_, .f32⟩
  | 14 => ⟨S128, .f32⟩
  | 15 => ⟨S_, .f32⟩
  | 16 => ⟨S128, .f32⟩
  | 17 => ⟨S128, .f32⟩
  | 18 => ⟨S128x1, .f32⟩
  | 19 => ⟨S128x10, .f32⟩
  | 20 => ⟨S128x10, .f32⟩
  | 21 => ⟨S128x10, .f32⟩
  | 22 => ⟨S_, .f32⟩
  | 23 => ⟨S128, .f32⟩
  | 24 => ⟨S128x1, .f32⟩
  | 25 => ⟨S128x10, .f32⟩
  | 26 => ⟨S128x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call3_cst : Ref sig .tc := ⟨.hbm, 117, rfl⟩
abbrev main_call3_v0 : Ref sig .tc := ⟨.hbm, 118, rfl⟩
abbrev main_v83 : Ref sig .tc := ⟨.hbm, 119, rfl⟩
abbrev main_v84 : Ref sig .tc := ⟨.hbm, 120, rfl⟩
abbrev main_cst_15 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_16 : Ref sig .tc := ⟨.hbm, 125, rfl⟩
abbrev main_v88 : Ref sig .tc := ⟨.hbm, 126, rfl⟩
abbrev main_cst_17 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_18 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_19 : Ref sig .tc := ⟨.hbm, 141, rfl⟩
abbrev main_v101 : Ref sig .tc := ⟨.hbm, 142, rfl⟩
abbrev main_cst_20 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_21 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x64_S100000x192_d1 : Shape.Concatenates [S100000x64, S100000x64, S100000x64] S100000x192 1
  bcast_S_S128x192 : S_.BroadcastsInDim S128x192 (![] : Fin 0 → Fin S128x192.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x192_0_1 : S128x1.BroadcastsInDim S128x192 (![0, 1] : Fin 2 → Fin S128x192.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S128x192_S100000x1_S100000x192_1_0_0_1_wf : ScatterDims.WF S128x192 S100000x1 S100000x192 [1] [0] [0] 1
  scatter_S128_S100000x1_S100000_n_0_0_1_wf : ScatterDims.WF S128 S100000x1 S100000 [] [0] [0] 1
  dot_S128x192_S192x10_S128x10_1_0_0_1_n_n_wf : DotDims.WF S128x192 S192x10 S128x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S128x192_S100000x1_S100000x192_1_0_0_1 : ScatterDims S128x192 S100000x1 S100000x192 where
  updateWindowDims := [1]
  insertedWindowDims := [0]
  scatterDimsToOperandDims := [0]
  indexVectorDim := 1
  wf := scatter_S128x192_S100000x1_S100000x192_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x192_S192x10_S128x10_1_0_0_1_n_n : DotDims S128x192 S192x10 S128x10 where
  lhsContracting := [1]
  rhsContracting := [0]
  lhsNonContracting := [0]
  rhsNonContracting := [1]
  lhsBatch := []
  rhsBatch := []
  wf := dot_S128x192_S192x10_S128x10_1_0_0_1_n_n_wf

class Facts : Prop extends Facts₀ where

variable [Facts]
-- ==== Proof.K.R0.lean ====
import proofs.«416900_j23630910063028_3_alg».proof.Proof.Gen.Kernel.Launch
import proofs.«416900_j23630910063028_3_alg».proof.Proof.Gen.Kernel.Skeleton
import proofs.«416900_j23630910063028_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x64 := Rect.unit (s := S10000x64) ![0, 0] S10000x64.size inb_S10000x64_S10000x64_0_0
abbrev r0_1 : Rect S64x64 := Rect.unit (s := S64x64) ![0, 0] S64x64.size inb_S64x64_S64x64_0_0
abbrev r0_2 : Rect S10000x1 := Rect.unit (s := S10000x1) ![0, 0] S10000x1.size inb_S10000x1_S10000x1_0_0

def out0_3 (xa : Vec F S10000x64 .f32) (xb : Vec F S64x64 .f32) (xc : Vec F S10000x1 .f32) : Vec F S10000x64 .bf16 :=
  View.canon [⟨r0_0, k0_pay1 (View.ld xa r0_0) (View.ld xb r0_1) (View.ld xc r0_2)⟩]

set_option maxHeartbeats 1000000 in
-- The body only loads its four buffers whole and stores the payload over the whole output buffer; whatever else is held passes through.
theorem sound_kernel0 {k} (hk : k = @cc0__matmul_scaled_kernel F _) {i : grid0.Coords}
    {ma : Memref sig .tc .vmem S10000x64 .f32} {hma : ma.IsWhole} {mb : Memref sig .tc .vmem S64x64 .f32} {hmb : mb.IsWhole}
    {mc : Memref sig .tc .vmem S10000x1 .f32} {hmc : mc.IsWhole} {mo : Memref sig .tc .vmem S10000x64 .bf16} {hmo : mo.IsWhole}
    {prog} (hp : prog = k i ma hma mb hmb mc hmc mo hmo) (c : Dev nD) (E : Set ℕ)
    {Da Db Dc Do : Type} {fa : Da → Vec F S10000x64 .f32} {fb : Db → Vec F S64x64 .f32} {fc : Dc → Vec F S10000x1 .f32}
    {fo : Do → Vec F S10000x64 .bf16} {xa ya : Vec F S10000x64 .f32} {xb yb : Vec F S64x64 .f32} {xc yc : Vec F S10000x1 .f32}
    {yo : Vec F S10000x64 .bf16} {P Q P' Q' : sProp 𝕄} (ha : ∀ d, fa d = xa) (hb : ∀ d, fb d = xb) (hc : ∀ d, fc d = xc)
    (ha' : ya = xa) (hb' : yb = xb) (hc' : yc = xc) (ho' : yo = out0_3 xa xb xc) (hP : P' = P) (hQ : Q' = Q) :
    iprop(P ∗ Q ∗ (∃ d, owns (c : Thread nD τ) ma fullShare (fa d)) ∗ (∃ d, owns (c : Thread nD τ) mb fullShare (fb d))
        ∗ (∃ d, owns (c : Thread nD τ) mc fullShare (fc d)) ∗ (∃ d, owns (c : Thread nD τ) mo fullShare (fo d)))
      ⊢ wp frame (wpE (defs₀ (F := F)) Variants.none c none) E prog fun _ =>
        iprop(P' ∗ Q' ∗ owns (c : Thread nD τ) ma fullShare ya ∗ owns (c : Thread nD τ) mb fullShare yb
          ∗ owns (c : Thread nD τ) mc fullShare yc ∗ owns (c : Thread nD τ) mo fullShare yo) := by
  subst hp hk ha' hb' hc' ho' hP hQ
  simp only [ha, hb, hc, cc0__matmul_scaled_kernel_eq_skeleton]; unfold cc0__matmul_scaled_kernel_skel owns
  iintro ⟨HP, HQ, ⟨%_, %ga, %hga, Ha⟩, ⟨%_, %gb, %hgb, Hb⟩, ⟨%_, %gc, %hgc, Hc⟩, ⟨%_, %go, -, Ho⟩⟩
  subst hga; subst hgb; subst hgc
  sl_exec
  sl_step
  isplitl [HP]; · iexact HP
  isplitl [HQ]; · iexact HQ
  isplitl [Ha]
  · iexists ga; isplitr; · ipureintro; rfl
    iexact Ha
  isplitl [Hb]
  · iexists gb; isplitr; · ipureintro; rfl
    iexact Hb
  isplitl [Hc]
  · iexists gc; isplitr; · ipureintro; rfl
    iexact Hc
  iexists _; isplitr
  swap; · iexact Ho
  ipureintro
  exact View.read_writes_eq_canon _ _ _ (View.cover_of_tiled _ S10000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0 (c : Dev nD) (t : Fin cfg0.N) : (dat0 V c).after 0 t = iblk0 V c 0 t ∧ (dat0 V c).after 1 t = iblk0 V c 1 t
    ∧ (dat0 V c).after 2 t = iblk0 V c 2 t ∧ (dat0 V c).after 3 t = out0_3 (iblk0 V c 0 t) (iblk0 V c 1 t) (iblk0 V c 2 t) := by
  dsimp only [dat0]; exact ⟨rfl, rfl, rfl, rfl⟩

theorem before0 (c : Dev nD) (t : Fin cfg0.N) : (∀ d, (dat0 V c).before 0 t d = iblk0 V c 0 t)
    ∧ (∀ d, (dat0 V c).before 1 t d = iblk0 V c 1 t) ∧ (∀ d, (dat0 V c).before 2 t d = iblk0 V c 2 t) := by
  refine ⟨fun d => ?_, fun d => ?_, fun d => ?_⟩ <;>
    exact Dat.before_in_eq_fetched (dat0 V c) _ rfl (fun _ => rfl) (fun _ _ _ => rfl) (fun _ => by dsimp only [dat0]; rfl) t d

theorem body_obligation0 (c : Dev nD) : BodyObligation (dat0 (F := F) V c) (defs₀ (F := F)) Variants.none () Set.univ := fun t => by
  rw [bigSep_W0, bigSep_W0]
  exact sound_kernel0 rfl (rfl : bodyAt0 t = _) c Set.univ (before0 V c t).1 (before0 V c t).2.1 (before0 V c t).2.2
    (after0 V c t).1 (after0 V c t).2.1 (after0 V c t).2.2.1 (after0 V c t).2.2.2 rfl rfl

end Cert.Kernel.Frame

end
-- ==== Proof.K.R1.lean ====
import proofs.«416900_j23630910063028_3_alg».proof.Proof.Gen.Kernel.Launch
import proofs.«416900_j23630910063028_3_alg».proof.Proof.Gen.Kernel.Skeleton
import proofs.«416900_j23630910063028_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zero1 : (![0, 0] : Fin 2 → Nat) = fun _ => 0 := funext fun a => by fin_cases a <;> rfl

-- the block of window w at point t, read off the array V holds
def iblk1 (cfg : Cfg sig Λ₀) (c : Dev nD) (w : Fin cfg.W) (t : Fin cfg.N) : ((cfg.win w).xblock (cfg.grid.coords t)).Idx → Elt F (cfg.win w).elt :=
  ((cfg.win w).blk t).view.read (Elt F) (V c (cfg.win w).arr.view.ref)

-- the body writes max (x0 * x1 + x2) 0, with x1 and x2 broadcast, and leaves its inputs and everything else as they were
theorem sound_kernel1 {k} (hk : k = cc1__bias_relu_scaled_kernel (F := F)) (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S10000x1 .f32) (x2 : Vec F S1x64 .f32) {D0 D1 D2 D3 : Type} (b : D3 → Vec F S10000x64 .f32) (Φ O : sProp 𝕄) :
    iprop(Φ ∗ O ∗ (∃ _d : D0, owns (c : Thread nD τ) arg1 fullShare x0) ∗ (∃ _d : D1, owns (c : Thread nD τ) arg2 fullShare x1)
        ∗ (∃ _d : D2, owns (c : Thread nD τ) arg3 fullShare x2) ∗ (∃ d, owns (c : Thread nD τ) arg4 fullShare (b d)))
      ⊢ wp frame (wpE (defs₀ (F := F)) Variants.none c none) Set.univ (k i arg1 harg1 arg2 harg2 arg3 harg3 arg4 harg4) fun _ =>
        iprop(Φ ∗ O ∗ owns (c : Thread nD τ) arg1 fullShare x0 ∗ owns (c : Thread nD τ) arg2 fullShare x1 ∗ owns (c : Thread nD τ) arg3 fullShare x2
          ∗ owns (c : Thread nD τ) arg4 fullShare (k1_pay1 x0 x1 x2)) := by
  subst hk
  simp only [cc1__bias_relu_scaled_kernel_eq_skeleton]; unfold cc1__bias_relu_scaled_kernel_skel
  unfold owns
  iintro ⟨HΦ, Ho, ⟨%_, %f0, %hf0, H0⟩, ⟨%_, %f1, %hf1, H1⟩, ⟨%_, %f2, %hf2, H2⟩, ⟨%d3, %f3, -, H3⟩⟩
  subst hf0 hf1 hf2
  sl_exec
  sl_step
  iframe
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon, View.canon_unit_zero zero1]
  · simp only [View.readAt_eq_ld, View.ld_unit_zero (S := S10000x64) zero1, View.ld_unit_zero (S := S10000x1) zero1, View.ld_unit_zero (S := S1x64) zero1]
  · exact fun y => ⟨_, List.mem_singleton_self _, View.mem_set_unit_zero zero1 inb_S10000x64_S10000x64_0_0 y⟩

def dat1 (c : Dev nD) : Dat τ (Elt F) Unit ℕ (UR sig nD τ) ℕ cfg1 c where
  A w := V c (Pipeline.arrRef spec1 w)
  after w t := match w with
    | ⟨0, _⟩ => iblk1 V cfg1 c 0 t
    | ⟨1, _⟩ => iblk1 V cfg1 c 1 t
    | ⟨2, _⟩ => iblk1 V cfg1 c 2 t
    | ⟨3, _⟩ => k1_pay1 (iblk1 V cfg1 c 0 t) (iblk1 V cfg1 c 1 t) (iblk1 V cfg1 c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

-- at every point each input block is the array's block there
theorem before1 (c : Dev nD) (t : Fin cfg1.N) : (∀ d, (dat1 V c).before 0 t d = iblk1 V cfg1 c 0 t)
    ∧ (∀ d, (dat1 V c).before 1 t d = iblk1 V cfg1 c 1 t) ∧ ∀ d, (dat1 V c).before 2 t d = iblk1 V cfg1 c 2 t := by
  refine ⟨fun d => ?_, fun d => ?_, fun d => ?_⟩ <;>
    exact ((dat1 V c).before_in_eq_fetched _ rfl (fun _ => rfl) (fun _ _ _ => rfl) (fun _ => by dsimp only [dat1, Dat.blockOf, iblk1] <;> rfl) t d).trans
      (by dsimp only [dat1, Dat.fetched, Dat.blockOf, iblk1] <;> rfl)

theorem body_obligation1 (c : Dev nD) : BodyObligation (dat1 (F := F) V c) (defs₀ (F := F)) Variants.none () Set.univ := fun t => by
  obtain ⟨b0, b1, b2⟩ := before1 V c t
  rw [bigSep_W1, bigSep_W1]
  simp only [b0, b1, b2]
  dsimp only [dat1]
  show _ ⊢ wp _ _ _ (bodyAt1 t) _
  exact sound_kernel1 rfl c (grid1.coords t) _ _ _ _ _ _ _ _ _ _ _ _ _ _

end Cert.Kernel.Frame

end
-- ==== Proof.K.R2.lean ====
import proofs.«416900_j23630910063028_3_alg».proof.Proof.K.R0
import Idealize.ShloMosaic.Lib.Pipeline.Value

noncomputable section

namespace Cert.Kernel.Frame

open Cert.Kernel Cert.Kernel.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

theorem pay2_eq : @k2_pay1 F _ = k0_pay1 := by
  funext v0 v3 v6; unfold k2_pay1 k0_pay1; rw [shapeCast_self (s := S10000x64)]

-- This call's kernel is call 0's: its one extra shape cast is to the shape the value already has.
theorem kernel2_eq : @cc2__matmul_scaled_kernel F _ = @cc0__matmul_scaled_kernel F _ := by
  funext _ i ma hma mb hmb mc hmc mo hmo
  rw [cc2__matmul_scaled_kernel_eq_skeleton, cc0__matmul_scaled_kernel_eq_skeleton]
  unfold cc2__matmul_scaled_kernel_skel cc0__matmul_scaled_kernel_skel; rw [pay2_eq]

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out0_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2 (c : Dev nD) (t : Fin cfg2.N) : (dat2 V c).after 0 t = iblk2 V c 0 t ∧ (dat2 V c).after 1 t = iblk2 V c 1 t
    ∧ (dat2 V c).after 2 t = iblk2 V c 2 t ∧ (dat2 V c).after 3 t = out0_3 (iblk2 V c 0 t) (iblk2 V c 1 t) (iblk2 V c 2 t) := by
  dsimp only [dat2]; exact ⟨rfl, rfl, rfl, rfl⟩

theorem before2 (c : Dev nD) (t : Fin cfg2.N) : (∀ d, (dat2 V c).before 0 t d = iblk2 V c 0 t)
    ∧ (∀ d, (dat2 V c).before 1 t d = iblk2 V c 1 t) ∧ (∀ d, (dat2 V c).before 2 t d = iblk2 V c 2 t) := by
  refine ⟨fun d => ?_, fun d => ?_, fun d => ?_⟩ <;>
    exact Dat.before_in_eq_fetched (dat2 V c) _ rfl (fun _ => rfl) (fun _ _ _ => rfl) (fun _ => by dsimp only [dat2]; rfl) t d

theorem body_obligation2 (c : Dev nD) : BodyObligation (dat2 (F := F) V c) (defs₀ (F := F)) Variants.none () Set.univ := fun t => by
  rw [bigSep_W2, bigSep_W2]
  exact sound_kernel0 kernel2_eq (rfl : bodyAt2 t = _) c Set.univ (before2 V c t).1 (before2 V c t).2.1 (before2 V c t).2.2
    (after2 V c t).1 (after2 V c t).2.1 (after2 V c t).2.2.1 (after2 V c t).2.2.2 rfl rfl

end Cert.Kernel.Frame

end
-- ==== Proof.K.R3.lean ====
import proofs.«416900_j23630910063028_3_alg».proof.Proof.K.R1

noncomputable section

namespace Cert.Kernel.Frame

open Cert.Kernel Cert.Kernel.Gen
open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def dat3 (c : Dev nD) : Dat τ (Elt F) Unit ℕ (UR sig nD τ) ℕ cfg3 c where
  A w := V c (Pipeline.arrRef spec3 w)
  after w t := match w with
    | ⟨0, _⟩ => iblk1 V cfg3 c 0 t
    | ⟨1, _⟩ => iblk1 V cfg3 c 1 t
    | ⟨2, _⟩ => iblk1 V cfg3 c 2 t
    | ⟨3, _⟩ => k1_pay1 (iblk1 V cfg3 c 0 t) (iblk1 V cfg3 c 1 t) (iblk1 V cfg3 c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem before3 (c : Dev nD) (t : Fin cfg3.N) : (∀ d, (dat3 V c).before 0 t d = iblk1 V cfg3 c 0 t)
    ∧ (∀ d, (dat3 V c).before 1 t d = iblk1 V cfg3 c 1 t) ∧ ∀ d, (dat3 V c).before 2 t d = iblk1 V cfg3 c 2 t := by
  refine ⟨fun d => ?_, fun d => ?_, fun d => ?_⟩ <;>
    exact ((dat3 V c).before_in_eq_fetched _ rfl (fun _ => rfl) (fun _ _ _ => rfl) (fun _ => by dsimp only [dat3, Dat.blockOf, iblk1] <;> rfl) t d).trans
      (by dsimp only [dat3, Dat.fetched, Dat.blockOf, iblk1] <;> rfl)

theorem body_obligation3 (c : Dev nD) : BodyObligation (dat3 (F := F) V c) (defs₀ (F := F)) Variants.none () Set.univ := fun t => by
  obtain ⟨b0, b1, b2⟩ := before3 V c t
  rw [bigSep_W3, bigSep_W3]
  simp only [b0, b1, b2]
  dsimp only [dat3]
  show _ ⊢ wp _ _ _ (bodyAt3 t) _
  exact sound_kernel1 (k := cc3__bias_relu_scaled_kernel) rfl c (grid3.coords t) _ _ _ _ _ _ _ _ _ _ _ _ _ _

end Cert.Kernel.Frame

end
-- ==== Proof.K.R4.lean ====
import proofs.«416900_j23630910063028_3_alg».proof.Proof.K.R0
import Idealize.ShloMosaic.Lib.Pipeline.Value

noncomputable section

namespace Cert.Kernel.Frame

open Cert.Kernel Cert.Kernel.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

theorem pay4_eq : @k4_pay1 F _ = k0_pay1 := by
  funext v0 v3 v6; unfold k4_pay1 k0_pay1; rw [shapeCast_self (s := S10000x64)]

-- This call's kernel is call 0's: its one extra shape cast is to the shape the value already has.
theorem kernel4_eq : @cc4__matmul_scaled_kernel F _ = @cc0__matmul_scaled_kernel F _ := by
  funext _ i ma hma mb hmb mc hmc mo hmo
  rw [cc4__matmul_scaled_kernel_eq_skeleton, cc0__matmul_scaled_kernel_eq_skeleton]
  unfold cc4__matmul_scaled_kernel_skel cc0__matmul_scaled_kernel_skel; rw [pay4_eq]

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out0_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4 (c : Dev nD) (t : Fin cfg4.N) : (dat4 V c).after 0 t = iblk4 V c 0 t ∧ (dat4 V c).after 1 t = iblk4 V c 1 t
    ∧ (dat4 V c).after 2 t = iblk4 V c 2 t ∧ (dat4 V c).after 3 t = out0_3 (iblk4 V c 0 t) (iblk4 V c 1 t) (iblk4 V c 2 t) := by
  dsimp only [dat4]; exact ⟨rfl, rfl, rfl, rfl⟩

theorem before4 (c : Dev nD) (t : Fin cfg4.N) : (∀ d, (dat4 V c).before 0 t d = iblk4 V c 0 t)
    ∧ (∀ d, (dat4 V c).before 1 t d = iblk4 V c 1 t) ∧ (∀ d, (dat4 V c).before 2 t d = iblk4 V c 2 t) := by
  refine ⟨fun d => ?_, fun d => ?_, fun d => ?_⟩ <;>
    exact Dat.before_in_eq_fetched (dat4 V c) _ rfl (fun _ => rfl) (fun _ _ _ => rfl) (fun _ => by dsimp only [dat4]; rfl) t d

theorem body_obligation4 (c : Dev nD) : BodyObligation (dat4 (F := F) V c) (defs₀ (F := F)) Variants.none () Set.univ := fun t => by
  rw [bigSep_W4, bigSep_W4]
  exact sound_kernel0 kernel4_eq (rfl : bodyAt4 t = _) c Set.univ (before4 V c t).1 (before4 V c t).2.1 (before4 V c t).2.2
    (after4 V c t).1 (after4 V c t).2.1 (after4 V c t).2.2.1 (after4 V c t).2.2.2 rfl rfl

end Cert.Kernel.Frame

end
-- ==== Proof.K.R5.lean ====
import proofs.«416900_j23630910063028_3_alg».proof.Proof.K.R1

noncomputable section

namespace Cert.Kernel.Frame

open Cert.Kernel Cert.Kernel.Gen
open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def dat5 (c : Dev nD) : Dat τ (Elt F) Unit ℕ (UR sig nD τ) ℕ cfg5 c where
  A w := V c (Pipeline.arrRef spec5 w)
  after w t := match w with
    | ⟨0, _⟩ => iblk1 V cfg5 c 0 t
    | ⟨1, _⟩ => iblk1 V cfg5 c 1 t
    | ⟨2, _⟩ => iblk1 V cfg5 c 2 t
    | ⟨3, _⟩ => k1_pay1 (iblk1 V cfg5 c 0 t) (iblk1 V cfg5 c 1 t) (iblk1 V cfg5 c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem before5 (c : Dev nD) (t : Fin cfg5.N) : (∀ d, (dat5 V c).before 0 t d = iblk1 V cfg5 c 0 t)
    ∧ (∀ d, (dat5 V c).before 1 t d = iblk1 V cfg5 c 1 t) ∧ ∀ d, (dat5 V c).before 2 t d = iblk1 V cfg5 c 2 t := by
  refine ⟨fun d => ?_, fun d => ?_, fun d => ?_⟩ <;>
    exact ((dat5 V c).before_in_eq_fetched _ rfl (fun _ => rfl) (fun _ _ _ => rfl) (fun _ => by dsimp only [dat5, Dat.blockOf, iblk1] <;> rfl) t d).trans
      (by dsimp only [dat5, Dat.fetched, Dat.blockOf, iblk1] <;> rfl)

theorem body_obligation5 (c : Dev nD) : BodyObligation (dat5 (F := F) V c) (defs₀ (F := F)) Variants.none () Set.univ := fun t => by
  obtain ⟨b0, b1, b2⟩ := before5 V c t
  rw [bigSep_W5, bigSep_W5]
  simp only [b0, b1, b2]
  dsimp only [dat5]
  show _ ⊢ wp _ _ _ (bodyAt5 t) _
  exact sound_kernel1 (k := cc5__bias_relu_scaled_kernel) rfl c (grid5.coords t) _ _ _ _ _ _ _ _ _ _ _ _ _ _

end Cert.Kernel.Frame

end
-- ==== Proof.K.R6Runs.lean ====
import proofs.«416900_j23630910063028_3_alg».proof.Proof.Gen.Kernel.Launch
import proofs.«416900_j23630910063028_3_alg».proof.Proof.Gen.Kernel.Skeleton
import proofs.«416900_j23630910063028_3_alg».proof.Proof.Gen.Kernel.Points
import Idealize.ShloMosaic.Lib.Pipeline.FrameBody
import Idealize.ShloMosaic.Lib.Ring
import Idealize.ShloMosaic.Lib.Tactic
import Idealize.ShloMosaic.Lib.Pipeline.Value
import Idealize.ShloMosaic.Lib.Pipeline.TableIdle

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val = 0 :=
  (by decide +kernel : ∀ t : Fin grid6.N, cond6_0 (grid6.coords t) ↔ t.val = 0)

abbrev cond6_1 (i : grid6.Coords) : Prop := k6_cond2 i = 1#1

theorem hcond6_1 : ∀ t : Fin cfg6.N, cond6_1 (grid6.coords t) ↔ t.val = 19 :=
  (by decide +kernel : ∀ t : Fin grid6.N, cond6_1 (grid6.coords t) ↔ t.val = 19)

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cfg6.idle 4 (grid6.coords t) = false := by decide +kernel
theorem liveAt6_5 : ∀ t : Fin cfg6.N, cfg6.idle 5 (grid6.coords t) = false := by decide +kernel
theorem liveAt6_6 : ∀ t : Fin cfg6.N, cfg6.idle 6 (grid6.coords t) = false := by decide +kernel
theorem liveAt6_7 : ∀ t : Fin cfg6.N, cfg6.idle 7 (grid6.coords t) = false := by decide +kernel

theorem idleAt6_8 : ∀ t : Fin cfg6.N, ¬cond6_1 (grid6.coords t) → cfg6.idle 8 (grid6.coords t) = true := by decide +kernel
theorem noFlush6_8 : ∀ t : Fin cfg6.N, ¬cond6_1 (grid6.coords t) → (cfg6.win 8).flush t = false := by decide +kernel
theorem liveAt6_8 : ∀ t : Fin cfg6.N, cond6_1 (grid6.coords t) → cfg6.idle 8 (grid6.coords t) = false := by decide +kernel

abbrev VO6_8 : View sig .tc .vmem S128x10 .f32 := (Memref.whole cc6_stg8_0 : Memref sig .tc .vmem S128x10 .f32).view

abbrev ms6_0 (t : Fin cfg6.N) : Memref sig .tc .vmem S5000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S5000x64 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S5000x1 .i32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S64x10 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S64x10 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S64x10 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x10 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S128x10 .f32 := win6_8.stage (cfg6.slots t 8)
abbrev hs6_8 (t : Fin cfg6.N) : (ms6_8 t).IsWhole := hstage6_8 ((cfg6.slots t 8).cast nbuf6_8)

abbrev scM6_0 : Memref sig .tc .vmem S128x64 .f32 := Memref.whole cc6_scratch0
abbrev scM6_1 : Memref sig .tc .vmem S128x64 .f32 := Memref.whole cc6_scratch1
abbrev scM6_2 : Memref sig .tc .vmem S128x64 .f32 := Memref.whole cc6_scratch2
abbrev scM6_3 : Memref sig .tc .vmem S128x1 .f32 := Memref.whole cc6_scratch3

abbrev Acc6 (F : FTy → Type) : Type := Vec F S128x64 .f32 × Vec F S128x64 .f32 × Vec F S128x64 .f32 × Vec F S128x1 .f32

def zero6 : Acc6 F := (k6_pay6, k6_pay7, k6_pay8, k6_pay9)

def acc6 (x0 : Vec F S5000x64 .f32) (x1 : Vec F S5000x64 .f32) (x2 : Vec F S5000x64 .f32) (x3 : Vec F S5000x1 .i32) (s : Acc6 F) : Acc6 F :=
  (k6_pay12 x0 x3 s.1,
   k6_pay13 x1 x3 s.2.1,
   k6_pay1 (k6_pay10 x2) (k6_pay11 x3) s.2.2.1 (constant S128x64 .f32 0x00000000#32),
   k6_pay2 (k6_pay11 x3) s.2.2.2)

def cls6 (x4 : Vec F S64x10 .f32) (x5 : Vec F S64x10 .f32) (x6 : Vec F S64x10 .f32) (x7 : Vec F S1x10 .f32) (s : Acc6 F) : Vec F S128x10 .f32 :=
  k6_pay3 (k6_pay4 s.2.2.2 s.1 s.2.1 s.2.2.1 x4 x5 x6 x7) (k6_pay5 s.2.2.2 s.1 s.2.1 s.2.2.1 x4 x5 x6 x7)

-- a rectangle of the full sizes that fits sits at offset zero
theorem off_zero_of_inb {S : Shape} {off : Fin S.rank → ℕ} (inb : ∀ a, off a + S.size a ≤ S.size a) : off = fun _ => 0 :=
  funext fun a => by have := inb a; omega

-- a load through the whole shape of a buffer held at contents `x` reads `x`
theorem readAt_whole_rep {κ : Kind} {sp : Space} {S : Shape} {e : EltTy} (v : View sig κ sp S e) {off : Fin S.rank → ℕ}
    (inb : ∀ a, off a + S.size a ≤ S.size a) (x : S.Idx → Elt F e) :
    v.readAt (Elt F) (Rect.unit off S.size inb).toLoadRect (v.rep x) = x :=
  (View.readAt_eq_ld v _ _).trans ((congrArg (View.ld · _) (View.read_rep v x)).trans (View.ld_unit_zero (off_zero_of_inb inb) inb x))

-- a load through the whole shape after one store through it reads that store's payload
theorem readCov_store_whole {κ : Kind} {sp : Space} {S : Shape} {e : EltTy} (v : View sig κ sp S e) {off : Fin S.rank → ℕ}
    (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero v (off_zero_of_inb inb) inb w

-- a store through the whole shape, made last, leaves its payload
theorem read_store_whole {κ : Kind} {sp : Space} {S : Shape} {e : EltTy} (v : View sig κ sp S e) (g : v.ty.Contents (Elt F)) {off : Fin S.rank → ℕ}
    (inb : ∀ a, off a + S.size a ≤ S.size a) (w : S.Idx → Elt F e) (L : List (View.Piece (Elt F) S e)) :
    v.read (Elt F) (v.writes (Elt F) g (⟨Rect.unit off S.size inb, w⟩ :: L)) = w :=
  (View.read_writes_eq_canon _ _ _ fun y => ⟨_, List.mem_cons_self, View.mem_set_unit_zero (off_zero_of_inb inb) inb y⟩).trans (View.canon_cons_unit_zero (off_zero_of_inb inb) inb w L)

theorem rest6_eq (c : Dev nD) :
    (iprop((∃ r, prngReg c r) ∗ Pipeline.scopedRest spec6 c) : sProp 𝕄)
      = iprop((∃ r, prngReg c r) ∗ iprop((∃ d, owns (c : Thread nD τ) scM6_0 fullShare d) ∗ (∃ d, owns (c : Thread nD τ) scM6_1 fullShare d) ∗ (∃ d, owns (c : Thread nD τ) scM6_2 fullShare d) ∗ (∃ d, owns (c : Thread nD τ) scM6_3 fullShare d))
          ∗ Pipeline.scopedRestBut spec6 c [cc6_scratch0, cc6_scratch1, cc6_scratch2, cc6_scratch3]) := by
  rw [scopedRest6_split]; simp only [scM6_0, scM6_1, scM6_2, scM6_3, owns_whole]; try rfl

end Cert.Kernel.Frame

end
-- ==== Proof.K.R6RunA.lean ====
import proofs.«416900_j23630910063028_3_alg».proof.Proof.K.R6Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Runs

variable (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x1 .i32) (harg4 : arg4.IsWhole) (arg5 : Memref sig .tc .vmem S64x10 .f32) (harg5 : arg5.IsWhole) (arg6 : Memref sig .tc .vmem S64x10 .f32) (harg6 : arg6.IsWhole) (arg7 : Memref sig .tc .vmem S64x10 .f32) (harg7 : arg7.IsWhole) (arg8 : Memref sig .tc .vmem S1x10 .f32) (harg8 : arg8.IsWhole) (arg9 : Memref sig .tc .vmem S128x10 .f32) (harg9 : arg9.IsWhole) (arg10 : Memref sig .tc .vmem S128x64 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole)
  (x0 : Vec F S5000x64 .f32) (x1 : Vec F S5000x64 .f32) (x2 : Vec F S5000x64 .f32) (x3 : Vec F S5000x1 .i32) (x4 : Vec F S64x10 .f32) (x5 : Vec F S64x10 .f32) (x6 : Vec F S64x10 .f32) (x7 : Vec F S1x10 .f32)

def ins6 : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7)

def accs6 (s : Acc6 F) : sProp 𝕄 :=
  iprop(owns (c : Thread nD τ) arg10 fullShare s.1 ∗ owns (c : Thread nD τ) arg11 fullShare s.2.1 ∗ owns (c : Thread nD τ) arg12 fullShare s.2.2.1 ∗ owns (c : Thread nD τ) arg13 fullShare s.2.2.2)

set_option maxHeartbeats 4000000 in
-- the first point: the carried buffers, at anything, are zeroed and the point's products added
theorem kernelRun6_A (hc0 : cond6_0 i) (hc1 : ¬cond6_1 i) (E : Set ℕ) (K : PUnit → sProp 𝕄) :
    iprop(ins6 c arg1 arg2 arg3 arg4 arg5 arg6 arg7 arg8 x0 x1 x2 x3 x4 x5 x6 x7 ∗ iprop((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))
        ∗ (iprop(ins6 c arg1 arg2 arg3 arg4 arg5 arg6 arg7 arg8 x0 x1 x2 x3 x4 x5 x6 x7 ∗ accs6 c arg10 arg11 arg12 arg13 (acc6 x0 x1 x2 x3 zero6)) -∗ K ⟨⟩))
      ⊢ wp frame (wpE (defs₀ (F := F)) Variants.none c none) E (cc6__pool_classify_kernel i arg1 harg1 arg2 harg2 arg3 harg3 arg4 harg4 arg5 harg5 arg6 harg6 arg7 harg7 arg8 harg8 arg9 harg9 arg10 harg10 arg11 harg11 arg12 harg12 arg13 harg13) K := by
  unfold ins6 accs6 acc6
  simp only [cc6__pool_classify_kernel_eq_skeleton]; unfold cc6__pool_classify_kernel_skel
  simp only [k6_part2_eq_skeleton, k6_part1_eq_skeleton]
  unfold zero6
  rw [owns_eq_rep (c : Thread nD τ) arg1, owns_eq_rep (c : Thread nD τ) arg2, owns_eq_rep (c : Thread nD τ) arg3, owns_eq_rep (c : Thread nD τ) arg4, owns_eq_rep (c : Thread nD τ) arg5, owns_eq_rep (c : Thread nD τ) arg6, owns_eq_rep (c : Thread nD τ) arg7, owns_eq_rep (c : Thread nD τ) arg8]
  iintro ⟨⟨H0, H1, H2, H3, H4, H5, H6, H7⟩, ⟨⟨%d0, HS0⟩, ⟨%d1, HS1⟩, ⟨%d2, HS2⟩, ⟨%d3, HS3⟩⟩, Hk⟩
  ihave HS0 := (rep_of_owns (c : Thread nD τ) arg10 fullShare d0) $$ HS0
  ihave HS1 := (rep_of_owns (c : Thread nD τ) arg11 fullShare d1) $$ HS1
  ihave HS2 := (rep_of_owns (c : Thread nD τ) arg12 fullShare d2) $$ HS2
  ihave HS3 := (rep_of_owns (c : Thread nD τ) arg13 fullShare d3) $$ HS3
  sl_exec (disch := first | exact hc0 | exact hc1)
  sl_step
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HS0]
  · unfold owns; iexists _; isplitr; swap; · iexact HS0
    ipureintro; sl_unfold_run_names; rw [read_store_whole]; simp only [readAt_whole_rep arg1.view, readAt_whole_rep arg4.view, readAt_whole_rep arg10.view, readCov_store_whole arg10.view]
  isplitl [HS1]
  · unfold owns; iexists _; isplitr; swap; · iexact HS1
    ipureintro; sl_unfold_run_names; rw [read_store_whole]; simp only [readAt_whole_rep arg2.view, readAt_whole_rep arg4.view, readAt_whole_rep arg11.view, readCov_store_whole arg11.view]
  isplitl [HS2]
  · unfold owns; iexists _; isplitr; swap; · iexact HS2
    ipureintro; sl_unfold_run_names; rw [read_store_whole]; simp only [readAt_whole_rep arg3.view, readAt_whole_rep arg4.view, readAt_whole_rep arg12.view, readCov_store_whole arg12.view]
  unfold owns; iexists _; isplitr; swap; · iexact HS3
  ipureintro; sl_unfold_run_names; rw [read_store_whole]; simp only [readAt_whole_rep arg4.view, readAt_whole_rep arg13.view, readCov_store_whole arg13.view]

set_option maxHeartbeats 4000000 in
-- a middle point: the point's products are added to what the carried buffers hold
theorem kernelRun6_B (hc0 : ¬cond6_0 i) (hc1 : ¬cond6_1 i) (s : Acc6 F) (E : Set ℕ) (K : PUnit → sProp 𝕄) :
    iprop(ins6 c arg1 arg2 arg3 arg4 arg5 arg6 arg7 arg8 x0 x1 x2 x3 x4 x5 x6 x7 ∗ accs6 c arg10 arg11 arg12 arg13 s ∗ (iprop(ins6 c arg1 arg2 arg3 arg4 arg5 arg6 arg7 arg8 x0 x1 x2 x3 x4 x5 x6 x7 ∗ accs6 c arg10 arg11 arg12 arg13 (acc6 x0 x1 x2 x3 s)) -∗ K ⟨⟩))
      ⊢ wp frame (wpE (defs₀ (F := F)) Variants.none c none) E (cc6__pool_classify_kernel i arg1 harg1 arg2 harg2 arg3 harg3 arg4 harg4 arg5 harg5 arg6 harg6 arg7 harg7 arg8 harg8 arg9 harg9 arg10 harg10 arg11 harg11 arg12 harg12 arg13 harg13) K := by
  unfold ins6 accs6 acc6
  simp only [cc6__pool_classify_kernel_eq_skeleton]; unfold cc6__pool_classify_kernel_skel
  simp only [k6_part2_eq_skeleton, k6_part1_eq_skeleton]
  rw [owns_eq_rep (c : Thread nD τ) arg1, owns_eq_rep (c : Thread nD τ) arg2, owns_eq_rep (c : Thread nD τ) arg3, owns_eq_rep (c : Thread nD τ) arg4, owns_eq_rep (c : Thread nD τ) arg5, owns_eq_rep (c : Thread nD τ) arg6, owns_eq_rep (c : Thread nD τ) arg7, owns_eq_rep (c : Thread nD τ) arg8, owns_eq_rep (c : Thread nD τ) arg10, owns_eq_rep (c : Thread nD τ) arg11, owns_eq_rep (c : Thread nD τ) arg12, owns_eq_rep (c : Thread nD τ) arg13]
  iintro ⟨⟨H0, H1, H2, H3, H4, H5, H6, H7⟩, ⟨HS0, HS1, HS2, HS3⟩, Hk⟩
  sl_exec (disch := first | exact hc0 | exact hc1)
  sl_step
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HS0]
  · unfold owns; iexists _; isplitr; swap; · iexact HS0
    ipureintro; sl_unfold_run_names; rw [read_store_whole]; simp only [readAt_whole_rep arg1.view, readAt_whole_rep arg4.view, readAt_whole_rep arg10.view, readCov_store_whole arg10.view]
  isplitl [HS1]
  · unfold owns; iexists _; isplitr; swap; · iexact HS1
    ipureintro; sl_unfold_run_names; rw [read_store_whole]; simp only [readAt_whole_rep arg2.view, readAt_whole_rep arg4.view, readAt_whole_rep arg11.view, readCov_store_whole arg11.view]
  isplitl [HS2]
  · unfold owns; iexists _; isplitr; swap; · iexact HS2
    ipureintro; sl_unfold_run_names; rw [read_store_whole]; simp only [readAt_whole_rep arg3.view, readAt_whole_rep arg4.view, readAt_whole_rep arg12.view, readCov_store_whole arg12.view]
  unfold owns; iexists _; isplitr; swap; · iexact HS3
  ipureintro; sl_unfold_run_names; rw [read_store_whole]; simp only [readAt_whole_rep arg4.view, readAt_whole_rep arg13.view, readCov_store_whole arg13.view]

set_option maxHeartbeats 4000000 in
-- the last point: as a middle point, then the classifier of the sums is stored over the whole output block
theorem kernelRun6_C (hc0 : ¬cond6_0 i) (hc1 : cond6_1 i) (s : Acc6 F) (E : Set ℕ) (K : PUnit → sProp 𝕄) :
    iprop(ins6 c arg1 arg2 arg3 arg4 arg5 arg6 arg7 arg8 x0 x1 x2 x3 x4 x5 x6 x7 ∗ (∃ d, owns (c : Thread nD τ) arg9 fullShare d) ∗ accs6 c arg10 arg11 arg12 arg13 s
        ∗ (iprop(ins6 c arg1 arg2 arg3 arg4 arg5 arg6 arg7 arg8 x0 x1 x2 x3 x4 x5 x6 x7 ∗ owns (c : Thread nD τ) arg9 fullShare (cls6 x4 x5 x6 x7 (acc6 x0 x1 x2 x3 s)) ∗ accs6 c arg10 arg11 arg12 arg13 (acc6 x0 x1 x2 x3 s)) -∗ K ⟨⟩))
      ⊢ wp frame (wpE (defs₀ (F := F)) Variants.none c none) E (cc6__pool_classify_kernel i arg1 harg1 arg2 harg2 arg3 harg3 arg4 harg4 arg5 harg5 arg6 harg6 arg7 harg7 arg8 harg8 arg9 harg9 arg10 harg10 arg11 harg11 arg12 harg12 arg13 harg13) K := by
  unfold ins6 accs6 acc6
  simp only [cc6__pool_classify_kernel_eq_skeleton]; unfold cc6__pool_classify_kernel_skel
  simp only [k6_part2_eq_skeleton, k6_part1_eq_skeleton]
  unfold cls6
  rw [owns_eq_rep (c : Thread nD τ) arg1, owns_eq_rep (c : Thread nD τ) arg2, owns_eq_rep (c : Thread nD τ) arg3, owns_eq_rep (c : Thread nD τ) arg4, owns_eq_rep (c : Thread nD τ) arg5, owns_eq_rep (c : Thread nD τ) arg6, owns_eq_rep (c : Thread nD τ) arg7, owns_eq_rep (c : Thread nD τ) arg8, owns_eq_rep (c : Thread nD τ) arg10, owns_eq_rep (c : Thread nD τ) arg11, owns_eq_rep (c : Thread nD τ) arg12, owns_eq_rep (c : Thread nD τ) arg13]
  iintro ⟨⟨H0, H1, H2, H3, H4, H5, H6, H7⟩, ⟨%d8, H8⟩, ⟨HS0, HS1, HS2, HS3⟩, Hk⟩
  ihave H8 := (rep_of_owns (c : Thread nD τ) arg9 fullShare d8) $$ H8
  sl_exec (disch := first | exact hc0 | exact hc1)
  sl_step
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]
  · unfold owns; iexists _; isplitr; swap; · iexact H8
    ipureintro; sl_unfold_run_names; rw [read_store_whole]; simp only [readAt_whole_rep arg1.view, readAt_whole_rep arg2.view, readAt_whole_rep arg3.view, readAt_whole_rep arg4.view, readAt_whole_rep arg5.view, readAt_whole_rep arg6.view, readAt_whole_rep arg7.view, readAt_whole_rep arg8.view, readAt_whole_rep arg10.view, readAt_whole_rep arg11.view, readAt_whole_rep arg12.view, readAt_whole_rep arg13.view, readCov_store_whole arg10.view, readCov_store_whole arg11.view, readCov_store_whole arg12.view, readCov_store_whole arg13.view]
  isplitl [HS0]
  · unfold owns; iexists _; isplitr; swap; · iexact HS0
    ipureintro; sl_unfold_run_names; rw [read_store_whole]; simp only [readAt_whole_rep arg1.view, readAt_whole_rep arg4.view, readAt_whole_rep arg10.view, readCov_store_whole arg10.view]
  isplitl [HS1]
  · unfold owns; iexists _; isplitr; swap; · iexact HS1
    ipureintro; sl_unfold_run_names; rw [read_store_whole]; simp only [readAt_whole_rep arg2.view, readAt_whole_rep arg4.view, readAt_whole_rep arg11.view, readCov_store_whole arg11.view]
  isplitl [HS2]
  · unfold owns; iexists _; isplitr; swap; · iexact HS2
    ipureintro; sl_unfold_run_names; rw [read_store_whole]; simp only [readAt_whole_rep arg3.view, readAt_whole_rep arg4.view, readAt_whole_rep arg12.view, readCov_store_whole arg12.view]
  unfold owns; iexists _; isplitr; swap; · iexact HS3
  ipureintro; sl_unfold_run_names; rw [read_store_whole]; simp only [readAt_whole_rep arg4.view, readAt_whole_rep arg13.view, readCov_store_whole arg13.view]

end Runs

end Cert.Kernel.Frame

end
-- ==== Proof.K.R6.lean ====
import proofs.«416900_j23630910063028_3_alg».proof.Proof.K.R6RunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the carried quadruple after the body at position n: every point adds its blocks' products, the first one over zero
def sAt6 (c : Dev nD) : (n : ℕ) → n < cfg6.N → Acc6 F
  | 0, hn => acc6 (iblk6 V c 0 ⟨0, hn⟩) (iblk6 V c 1 ⟨0, hn⟩) (iblk6 V c 2 ⟨0, hn⟩) (iblk6 V c 3 ⟨0, hn⟩) zero6
  | n + 1, hn => acc6 (iblk6 V c 0 ⟨n + 1, hn⟩) (iblk6 V c 1 ⟨n + 1, hn⟩) (iblk6 V c 2 ⟨n + 1, hn⟩) (iblk6 V c 3 ⟨n + 1, hn⟩) (sAt6 c n (Nat.lt_of_succ_lt hn))

theorem sAt6_first (c : Dev nD) (t : Fin cfg6.N) (h0 : t.val = 0) :
    sAt6 V c t.val t.isLt = acc6 (iblk6 V c 0 t) (iblk6 V c 1 t) (iblk6 V c 2 t) (iblk6 V c 3 t) zero6 := by
  obtain ⟨n, hn⟩ := t
  cases n with
  | zero => rfl
  | succ n => exact absurd h0 (Nat.succ_ne_zero n)

theorem sAt6_pos (c : Dev nD) (t : Fin cfg6.N) (h0 : t.val ≠ 0) :
    sAt6 V c t.val t.isLt = acc6 (iblk6 V c 0 t) (iblk6 V c 1 t) (iblk6 V c 2 t) (iblk6 V c 3 t) (sAt6 V c (t.val - 1) (Nat.lt_of_le_of_lt (Nat.sub_le _ _) t.isLt)) := by
  obtain ⟨n, hn⟩ := t
  cases n with
  | zero => exact absurd rfl h0
  | succ n => rfl

-- before position 0 nothing is known of the carried four; before position n + 1 they hold what point n left
def PhiS6 (c : Dev nD) : (n : ℕ) → n ≤ cfg6.N → sProp 𝕄
  | 0, _ => iprop((∃ r, prngReg c r) ∗ Pipeline.scopedRest spec6 c)
  | n + 1, hn => iprop((∃ r, prngReg c r) ∗ accs6 c scM6_0 scM6_1 scM6_2 scM6_3 (sAt6 V c n hn) ∗ Pipeline.scopedRestBut spec6 c [cc6_scratch0, cc6_scratch1, cc6_scratch2, cc6_scratch3])

theorem PhiS6_zero (c : Dev nD) (n : ℕ) (h : n ≤ cfg6.N) (hz : n = 0) :
    PhiS6 V c n h = iprop((∃ r, prngReg c r) ∗ Pipeline.scopedRest spec6 c) := by
  subst hz; rfl

theorem PhiS6_pos (c : Dev nD) (n : ℕ) (h : n ≤ cfg6.N) (hz : n ≠ 0) :
    PhiS6 V c n h = iprop((∃ r, prngReg c r) ∗ accs6 c scM6_0 scM6_1 scM6_2 scM6_3 (sAt6 V c (n - 1) (by omega)) ∗ Pipeline.scopedRestBut spec6 c [cc6_scratch0, cc6_scratch1, cc6_scratch2, cc6_scratch3]) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => if t.val = 19 then cls6 (iblk6 V c 4 t) (iblk6 V c 5 t) (iblk6 V c 6 t) (iblk6 V c 7 t) (sAt6 V c t.val t.isLt) else VO6_8.read (Elt F) VO6_8.junk
  Φ t := PhiS6 V c t.val (Nat.le_of_lt_succ t.isLt)
  q _ := fullShare
  owed _ := 0

theorem A_eq6 (c : Dev nD) (w : Fin cfg6.W) : (dat6 V c).A w = V c (Pipeline.arrRef spec6 w) := rfl

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]

theorem after6_8_last_eq (c : Dev nD) (t : Fin cfg6.N) (h1 : t.val = 19) :
    (dat6 V c).after 8 t = cls6 (iblk6 V c 4 t) (iblk6 V c 5 t) (iblk6 V c 6 t) (iblk6 V c 7 t) (sAt6 V c t.val t.isLt) :=
  if_pos h1

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d

theorem leaves6_0 (c : Dev nD) (t : Fin cfg6.N) :
    (dat6 V c).leavesExact 0 t = owns (c : Thread nD τ) (ms6_0 t) fullShare (iblk6 V c 0 t) := by
  unfold Dat.leavesExact; rw [liveAt6_0 t, after6_0]
theorem leaves6_1 (c : Dev nD) (t : Fin cfg6.N) :
    (dat6 V c).leavesExact 1 t = owns (c : Thread nD τ) (ms6_1 t) fullShare (iblk6 V c 1 t) := by
  unfold Dat.leavesExact; rw [liveAt6_1 t, after6_1]
theorem leaves6_2 (c : Dev nD) (t : Fin cfg6.N) :
    (dat6 V c).leavesExact 2 t = owns (c : Thread nD τ) (ms6_2 t) fullShare (iblk6 V c 2 t) := by
  unfold Dat.leavesExact; rw [liveAt6_2 t, after6_2]
theorem leaves6_3 (c : Dev nD) (t : Fin cfg6.N) :
    (dat6 V c).leavesExact 3 t = owns (c : Thread nD τ) (ms6_3 t) fullShare (iblk6 V c 3 t) := by
  unfold Dat.leavesExact; rw [liveAt6_3 t, after6_3]
theorem leaves6_4 (c : Dev nD) (t : Fin cfg6.N) :
    (dat6 V c).leavesExact 4 t = owns (c : Thread nD τ) (ms6_4 t) fullShare (iblk6 V c 4 t) := by
  unfold Dat.leavesExact; rw [liveAt6_4 t, after6_4]
theorem leaves6_5 (c : Dev nD) (t : Fin cfg6.N) :
    (dat6 V c).leavesExact 5 t = owns (c : Thread nD τ) (ms6_5 t) fullShare (iblk6 V c 5 t) := by
  unfold Dat.leavesExact; rw [liveAt6_5 t, after6_5]
theorem leaves6_6 (c : Dev nD) (t : Fin cfg6.N) :
    (dat6 V c).leavesExact 6 t = owns (c : Thread nD τ) (ms6_6 t) fullShare (iblk6 V c 6 t) := by
  unfold Dat.leavesExact; rw [liveAt6_6 t, after6_6]
theorem leaves6_7 (c : Dev nD) (t : Fin cfg6.N) :
    (dat6 V c).leavesExact 7 t = owns (c : Thread nD τ) (ms6_7 t) fullShare (iblk6 V c 7 t) := by
  unfold Dat.leavesExact; rw [liveAt6_7 t, after6_7]

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d)))

def bodyPost6 (c : Dev nD) (t : Fin cfg6.N) : sProp 𝕄 :=
  iprop((dat6 V c).Φ t.succ ∗ (dat6 V c).owesAt () t.succ
    ∗ (dat6 V c).leavesExact 0 t ∗ (dat6 V c).leavesExact 1 t ∗ (dat6 V c).leavesExact 2 t ∗ (dat6 V c).leavesExact 3 t
    ∗ (dat6 V c).leavesExact 4 t ∗ (dat6 V c).leavesExact 5 t ∗ (dat6 V c).leavesExact 6 t ∗ (dat6 V c).leavesExact 7 t
    ∗ (dat6 V c).leavesExact 8 t)

set_option maxHeartbeats 4800000 in
-- the point is the first, a middle or the last one; the matching run takes the carried buffers from the invariant and gives them back at this point's contents
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7]
  rw [show (dat6 V c).owesAt () t.succ = (dat6 V c).owesAt () t.castSucc from rfl,
    show (dat6 V c).Φ t.succ = iprop((∃ r, prngReg c r) ∗ accs6 c scM6_0 scM6_1 scM6_2 scM6_3 (sAt6 V c t.val t.isLt) ∗ Pipeline.scopedRestBut spec6 c [cc6_scratch0, cc6_scratch1, cc6_scratch2, cc6_scratch3]) from rfl,
    show (dat6 V c).Φ t.castSucc = PhiS6 V c t.val (Nat.le_of_lt t.isLt) from rfl]
  rw [leaves6_0, leaves6_1, leaves6_2, leaves6_3, leaves6_4, leaves6_5, leaves6_6, leaves6_7]
  have hN : t.val < 20 := lt_of_lt_of_eq t.isLt (show cfg6.N = 20 from N_6)
  by_cases h0 : t.val = 0
  · have hc0 := (hcond6_0 t).mpr h0
    have hc1 : ¬cond6_1 (grid6.coords t) := fun h => by have := (hcond6_1 t).mp h; omega
    have run := fun K => kernelRun6_A c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) scM6_2 (Memref.isWhole_whole _) scM6_3 (Memref.isWhole_whole _) (iblk6 V c 0 t) (iblk6 V c 1 t) (iblk6 V c 2 t) (iblk6 V c 3 t) (iblk6 V c 4 t) (iblk6 V c 5 t) (iblk6 V c 6 t) (iblk6 V c 7 t) hc0 hc1 Set.univ K
    unfold ins6 at run
    rw [Dat.leavesExact_idle (dat6 V c) 8 t (idleAt6_8 t hc1) (noFlush6_8 t hc1), sAt6_first V c t h0, PhiS6_zero V c _ _ h0, rest6_eq]
    iintro ⟨⟨Hg, HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    iapply (run _)
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [HS]; · iexact HS
    iintro ⟨⟨H0, H1, H2, H3, H4, H5, H6, H7⟩, HS⟩
    isplitl [Hg HS Hr]
    · isplitl [Hg]; · iexact Hg
      isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc0 : ¬cond6_0 (grid6.coords t) := fun h => h0 ((hcond6_0 t).mp h)
    rw [sAt6_pos V c t h0, PhiS6_pos V c _ _ h0]
    by_cases h1 : t.val = 19
    · have hc1 := (hcond6_1 t).mpr h1
      have run := fun K => kernelRun6_C c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) scM6_2 (Memref.isWhole_whole _) scM6_3 (Memref.isWhole_whole _) (iblk6 V c 0 t) (iblk6 V c 1 t) (iblk6 V c 2 t) (iblk6 V c 3 t) (iblk6 V c 4 t) (iblk6 V c 5 t) (iblk6 V c 6 t) (iblk6 V c 7 t) hc0 hc1 (sAt6 V c (t.val - 1) (Nat.lt_of_le_of_lt (Nat.sub_le _ _) t.isLt)) Set.univ K
      unfold ins6 at run
      rw [show (dat6 V c).leavesExact 8 t = owns (c : Thread nD τ) (ms6_8 t) fullShare ((dat6 V c).after 8 t) from by
        unfold Dat.leavesExact; rw [liveAt6_8 t hc1]]
      rw [after6_8_last_eq V c t h1, sAt6_pos V c t h0]
      iintro ⟨⟨Hg, HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run _)
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexists _; iexact H8
      isplitl [HS]; · iexact HS
      iintro ⟨⟨H0, H1, H2, H3, H4, H5, H6, H7⟩, H8, HS⟩
      isplitl [Hg HS Hr]
      · isplitl [Hg]; · iexact Hg
        isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond6_1 (grid6.coords t) := fun h => h1 ((hcond6_1 t).mp h)
      have run := fun K => kernelRun6_B c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) scM6_2 (Memref.isWhole_whole _) scM6_3 (Memref.isWhole_whole _) (iblk6 V c 0 t) (iblk6 V c 1 t) (iblk6 V c 2 t) (iblk6 V c 3 t) (iblk6 V c 4 t) (iblk6 V c 5 t) (iblk6 V c 6 t) (iblk6 V c 7 t) hc0 hc1 (sAt6 V c (t.val - 1) (Nat.lt_of_le_of_lt (Nat.sub_le _ _) t.isLt)) Set.univ K
      unfold ins6 at run
      rw [Dat.leavesExact_idle (dat6 V c) 8 t (idleAt6_8 t hc1) (noFlush6_8 t hc1)]
      iintro ⟨⟨Hg, HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run _)
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [HS]; · iexact HS
      iintro ⟨⟨H0, H1, H2, H3, H4, H5, H6, H7⟩, HS⟩
      isplitl [Hg HS Hr]
      · isplitl [Hg]; · iexact Hg
        isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem body_obligation6 (c : Dev nD) : BodyObligation (dat6 (F := F) V c) (defs₀ (F := F)) Variants.none () Set.univ := fun t => by
  rw [bigSep_W6, bigSep_W6]
  exact sound_body6 V c t

theorem Φ6_in (c : Dev nD) : iprop((∃ r, prngReg c r) ∗ Pipeline.scopedRest spec6 c) ⊢ (dat6 V c).Φ 0 := .rfl

-- after any point the invariant returns what it took at entry, whatever the carried four hold
theorem Φ6_out (c : Dev nD) : (dat6 V c).Φ (Fin.last cfg6.N) ⊢ iprop((∃ r, prngReg c r) ∗ Pipeline.scopedRest spec6 c) := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 20 := N_6; omega), rest6_eq]
  unfold accs6
  iintro ⟨Hg, ⟨HS0, HS1, HS2, HS3⟩, Hr⟩
  isplitl [Hg]; · iexact Hg
  isplitl [HS0 HS1 HS2 HS3]
  · isplitl [HS0]; · iexists _; iexact HS0
    isplitl [HS1]; · iexists _; iexact HS1
    isplitl [HS2]; · iexists _; iexact HS2
    iexists _; iexact HS3
  iexact Hr

end Cert.Kernel.Frame

end
-- ==== Proof.K.Chain.lean ====
import proofs.«416900_j23630910063028_3_alg».proof.Proof.Gen.Kernel.Regions
import proofs.«416900_j23630910063028_3_alg».proof.Proof.K.R0
import proofs.«416900_j23630910063028_3_alg».proof.Proof.K.R1
import proofs.«416900_j23630910063028_3_alg».proof.Proof.K.R2
import proofs.«416900_j23630910063028_3_alg».proof.Proof.K.R3
import proofs.«416900_j23630910063028_3_alg».proof.Proof.K.R4
import proofs.«416900_j23630910063028_3_alg».proof.Proof.K.R5
import proofs.«416900_j23630910063028_3_alg».proof.Proof.K.R6

set_option maxRecDepth 16384

noncomputable section

namespace Cert.Kernel.Frame

open Cert.Kernel Cert.Kernel.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev U3 (c : Dev nD) : Valuation τ sig (Elt F) := V3 m c
def o4 (c : Dev nD) : Buf (Elt F) ((c : Thread nD τ).loc main_v16) := (dat0 (atTc (U3 m)) c).arrAt 3 cfg0.N
abbrev U4 (c : Dev nD) : Valuation τ sig (Elt F) := Function.update (U3 m c) main_v16 (o4 m c)
abbrev U5 (c : Dev nD) : Valuation τ sig (Elt F) := StableHlo.after hostOps1 (U4 m c)
def o6 (c : Dev nD) : Buf (Elt F) ((c : Thread nD τ).loc main_v29) := (dat1 (atTc (U5 m)) c).arrAt 3 cfg1.N
abbrev U6 (c : Dev nD) : Valuation τ sig (Elt F) := Function.update (U5 m c) main_v29 (o6 m c)
def o7 (c : Dev nD) : Buf (Elt F) ((c : Thread nD τ).loc main_v30) := (dat2 (atTc (U6 m)) c).arrAt 3 cfg2.N
abbrev U7 (c : Dev nD) : Valuation τ sig (Elt F) := Function.update (U6 m c) main_v30 (o7 m c)
abbrev U8 (c : Dev nD) : Valuation τ sig (Elt F) := StableHlo.after hostOps3 (U7 m c)
def o9 (c : Dev nD) : Buf (Elt F) ((c : Thread nD τ).loc main_v43) := (dat3 (atTc (U8 m)) c).arrAt 3 cfg3.N
abbrev U9 (c : Dev nD) : Valuation τ sig (Elt F) := Function.update (U8 m c) main_v43 (o9 m c)
def o10 (c : Dev nD) : Buf (Elt F) ((c : Thread nD τ).loc main_v44) := (dat4 (atTc (U9 m)) c).arrAt 3 cfg4.N
abbrev U10 (c : Dev nD) : Valuation τ sig (Elt F) := Function.update (U9 m c) main_v44 (o10 m c)
abbrev U11 (c : Dev nD) : Valuation τ sig (Elt F) := StableHlo.after hostOps5 (U10 m c)
def o12 (c : Dev nD) : Buf (Elt F) ((c : Thread nD τ).loc main_v57) := (dat5 (atTc (U11 m)) c).arrAt 3 cfg5.N
abbrev U12 (c : Dev nD) : Valuation τ sig (Elt F) := Function.update (U11 m c) main_v57 (o12 m c)
abbrev U13 (c : Dev nD) : Valuation τ sig (Elt F) := StableHlo.after hostOps6 (U12 m c)
def o14 (c : Dev nD) : Buf (Elt F) ((c : Thread nD τ).loc main_v63) := (dat6 (atTc (U13 m)) c).arrAt 8 cfg6.N
abbrev U14 (c : Dev nD) : Valuation τ sig (Elt F) := Function.update (U13 m c) main_v63 (o14 m c)

def outs : Outs (F := F) := fun J r c =>
  match J with
  | 4 => U4 m c r
  | 6 => U6 m c r
  | 7 => U7 m c r
  | 9 => U9 m c r
  | 10 => U10 m c r
  | 12 => U12 m c r
  | 14 => U14 m c r
  | _ => V0 m c r

-- Updating at `b` with the value an update at `b` already holds there adds nothing to that update.
theorem upd_eq {V U : Valuation τ sig (Elt F)} (h : V = U) (b : DevRef τ sig) (x : b.ty.Contents (Elt F)) :
    Function.update V b (Function.update U b x b) = Function.update U b x := by rw [Function.update_self, h]

theorem V4_eq (c : Dev nD) : V4 m (outs m) c = U4 m c := upd_eq rfl _ _
theorem V5_eq (c : Dev nD) : V5 m (outs m) c = U5 m c := congrArg (StableHlo.after hostOps1) (V4_eq m c)
theorem V6_eq (c : Dev nD) : V6 m (outs m) c = U6 m c := upd_eq (V5_eq m c) _ _
theorem V7_eq (c : Dev nD) : V7 m (outs m) c = U7 m c := upd_eq (V6_eq m c) _ _
theorem V8_eq (c : Dev nD) : V8 m (outs m) c = U8 m c := congrArg (StableHlo.after hostOps3) (V7_eq m c)
theorem V9_eq (c : Dev nD) : V9 m (outs m) c = U9 m c := upd_eq (V8_eq m c) _ _
theorem V10_eq (c : Dev nD) : V10 m (outs m) c = U10 m c := upd_eq (V9_eq m c) _ _
theorem V11_eq (c : Dev nD) : V11 m (outs m) c = U11 m c := congrArg (StableHlo.after hostOps5) (V10_eq m c)
theorem V12_eq (c : Dev nD) : V12 m (outs m) c = U12 m c := upd_eq (V11_eq m c) _ _
theorem V13_eq (c : Dev nD) : V13 m (outs m) c = U13 m c := congrArg (StableHlo.after hostOps6) (V12_eq m c)
theorem V14_eq (c : Dev nD) : V14 m (outs m) c = U14 m c := upd_eq (V13_eq m c) _ _

end Cert.Kernel.Frame

end
-- ==== Proof.K.Regs.lean ====
import proofs.«416900_j23630910063028_3_alg».proof.Proof.K.Chain
import Idealize.ShloMosaic.Lib.Pipeline.RegionsLoop

set_option maxRecDepth 16384

noncomputable section

namespace Cert.Kernel.Frame

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

def pdats : (p : Fin 7) → (c : Dev nD) → Dat τ (Elt F) Unit ℕ (UR sig nD τ) ℕ (Pipeline.pin (pcfgs (F := F)) adm p) c
  | ⟨0, _⟩ => fun c => dat0 (atTc (U3 m)) c
  | ⟨1, _⟩ => fun c => dat1 (atTc (U5 m)) c
  | ⟨2, _⟩ => fun c => dat2 (atTc (U6 m)) c
  | ⟨3, _⟩ => fun c => dat3 (atTc (U8 m)) c
  | ⟨4, _⟩ => fun c => dat4 (atTc (U9 m)) c
  | ⟨5, _⟩ => fun c => dat5 (atTc (U11 m)) c
  | ⟨6, _⟩ => fun c => dat6 (atTc (U13 m)) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- Off the output window an array keeps its entry contents; the updated valuation reads the output array's last contents at its own reference.
theorem hF_of {cfg : Pipeline.Cfg sig Λ₀} {c : Dev nD} (dat : Dat τ (Elt F) Unit ℕ (UR sig nD τ) ℕ cfg c) (W : Dev nD → Valuation τ sig (Elt F))
    (hA : ∀ w, dat.A w = atTc W c (Pipeline.arrRef cfg.spec w)) (o : Fin cfg.W)
    (ho : ∀ w, w ≠ o → (cfg.win w).isOut = false ∧ Pipeline.arrRef cfg.spec w ≠ Pipeline.arrRef cfg.spec o) (w : Fin cfg.W) :
    dat.arrAt w cfg.N = atTc (fun c => Function.update (W c) (Pipeline.arrRef cfg.spec o) (dat.arrAt o cfg.N)) c (Pipeline.arrRef cfg.spec w) := by
  by_cases hw : w = o
  · subst hw
    exact (Function.update_self (β := fun b : DevRef τ sig => Buf (Elt F) ((c : Thread nD τ).1, b)) _ _ _).symm
  · exact ((dat.arrAt_in w (ho w hw).1 _).trans (hA w)).trans (Function.update_of_ne (StableHlo.devRef_ne_of_ne (ho w hw).2) _ _).symm

theorem hrest_of {c : Dev nD} (W : Valuation τ sig (Elt F)) {n : ℕ} (f : Fin n → Ref sig .tc) (o : Fin n) (x : Buf (Elt F) ((c : Thread nD τ).loc (f o)))
    (b : Ref sig .tc) (hb : b ∉ Finset.univ.image f) : atTc (fun _ => Function.update W (f o) x) c b = atTc (fun _ => W) c b :=
  Function.update_of_ne (StableHlo.devRef_ne_of_ne fun e => hb (Finset.mem_image.mpr ⟨o, Finset.mem_univ _, e.symm⟩)) _ _

-- The segment record of a region whose exit valuation is its entry valuation updated at its one output array.
set_option backward.isDefEq.respectTransparency.types false in
def mkReg (pd : (p : Fin 7) → (c : Dev nD) → Dat τ (Elt F) Unit ℕ (UR sig nD τ) ℕ (Pipeline.pin (pcfgs (F := F)) adm p) c)
    (p : Fin 7) (lf : Pipeline.LaunchFacts (nD := nD) (τ := τ) cfgs p) (W : Dev nD → Valuation τ sig (Elt F))
    (hb : ∀ c, Pipeline.BodyObligation (pd p c) (defs₀ (F := F)) Variants.none () Set.univ)
    (hd : ∀ c, (∀ w, (pd p c).q w = fullShare) ∧ (∀ t, (pd p c).owed t = 0) ∧ (pd p c).recorded 0 = Set.univ)
    (hA : ∀ c w, (pd p c).A w = atTc W c (Pipeline.arrRef (cfgs p).spec w)) (o : Fin (cfgs p).W)
    (ho : ∀ w, w ≠ o → ((cfgs p).win w).isOut = false ∧ Pipeline.arrRef (cfgs p).spec w ≠ Pipeline.arrRef (cfgs p).spec o)
    (hin : ∀ c, iprop((∃ r, prngReg c r) ∗ Pipeline.scopedRest (cfgs p).spec c) ⊢ (pd p c).Φ 0)
    (hout : ∀ c, (pd p c).Φ (Fin.last (cfgs p).N) ⊢ iprop((∃ r, prngReg c r) ∗ Pipeline.scopedRest (cfgs p).spec c)) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (hd c).2.1
  pre c := iprop(StableHlo.held (c : Thread nD τ) (Pipeline.ucRefs τ sig) (W c) ∗ R c)
  post c := iprop(StableHlo.held (c : Thread nD τ) (Pipeline.ucRefs τ sig)
    (Function.update (W c) (Pipeline.arrRef (cfgs p).spec o) ((pd p c).arrAt o (cfgs p).N)) ∗ R c)
  X c := iprop(∃ r, prngReg c r)
  Y c := iprop(∃ r, prngReg c r)
  Z c := Pipeline.unscopedRest (Ix := Unit) (Name := ℕ) (U := UR sig nD τ) (Lvl := ℕ) (cfgs p).spec c (atTc W c)
  hentry c := by
    rw [Pipeline.ownSems0_none]
    have hsplit := Pipeline.arrays_of_unscopedBufs (p := p) (pcfgs (F := F)) adm pd lf.win lf.arr_whole c
      ((pd p c).share_full (hd c).1) (atTc W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [(hd c).2.1]
      icases HO with ⟨%W, HO⟩; iexists W; isplitr; · ipureintro; exact fun _ _ => Or.inl ((hd c).2.2 ▸ trivial)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    have hΦ := hout c
    iintro H
    ihave H' := hΦ $$ H
    icases H' with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hd c).1) (atTc W c)
      (atTc (fun c => Function.update (W c) (Pipeline.arrRef (cfgs p).spec o) ((pd p c).arrAt o (cfgs p).N)) c)
      ((pd p c).arrAt · (cfgs p).N) (hF_of (pd p c) W (hA c) o ho) (hrest_of (W c) _ o _)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [(hd c).2.1]
    icases HO with ⟨%W, -, HO⟩; iexists W; iexact HO

def reg0 := mkReg (pdats m) 0 launch0 (U3 m) (body_obligation0 _) (fun _ => ⟨fun _ => rfl, fun _ => rfl, rfl⟩) (A_eq0 _) 3 (by decide)
  (fun _ => sep_symm) fun _ => sep_symm
def reg1 := mkReg (pdats m) 1 launch1 (U5 m) (body_obligation1 _) (fun _ => ⟨fun _ => rfl, fun _ => rfl, rfl⟩) (A_eq1 _) 3 (by decide)
  (fun _ => sep_symm) fun _ => sep_symm
def reg2 := mkReg (pdats m) 2 launch2 (U6 m) (body_obligation2 _) (fun _ => ⟨fun _ => rfl, fun _ => rfl, rfl⟩) (A_eq2 _) 3 (by decide)
  (fun _ => sep_symm) fun _ => sep_symm
def reg3 := mkReg (pdats m) 3 launch3 (U8 m) (body_obligation3 _) (fun _ => ⟨fun _ => rfl, fun _ => rfl, rfl⟩) (A_eq3 _) 3 (by decide)
  (fun _ => sep_symm) fun _ => sep_symm
def reg4 := mkReg (pdats m) 4 launch4 (U9 m) (body_obligation4 _) (fun _ => ⟨fun _ => rfl, fun _ => rfl, rfl⟩) (A_eq4 _) 3 (by decide)
  (fun _ => sep_symm) fun _ => sep_symm
def reg5 := mkReg (pdats m) 5 launch5 (U11 m) (body_obligation5 _) (fun _ => ⟨fun _ => rfl, fun _ => rfl, rfl⟩) (A_eq5 _) 3 (by decide)
  (fun _ => sep_symm) fun _ => sep_symm
def reg6 := mkReg (pdats m) 6 launch6 (U13 m) (body_obligation6 _) (fun _ => ⟨fun _ => rfl, fun _ => rfl, rfl⟩) (A_eq6 _) 8 (by decide)
  (Φ6_in _) (Φ6_out _)

theorem held_eq (c : Dev nD) {V V' : Valuation τ sig (Elt F)} (h : V = V') :
    iprop(StableHlo.held (c : Thread nD τ) (Pipeline.ucRefs τ sig) V ∗ R c)
      ⊢ iprop(StableHlo.held (c : Thread nD τ) (Pipeline.ucRefs τ sig) V' ∗ R (F := F) c) := h ▸ .rfl

theorem R_owes (c : Dev nD) : R (F := F) c ⊢ (iprop(∃ W, owes (c : Thread nD τ) (0 : CellTallies nD τ sig Unit) W) : sProp 𝕄) := by
  iintro ⟨-, HO⟩; iexact HO

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = U14 m c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m) (reg3 m) (reg4 m) (reg5 m) (reg6 m))
    (fun c Q => by rewrite [main_chain c, Seg.run_eq_chain]; exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (V0 m c) ∗ R c))
    (Tₙ := fun c => StableHlo.held (c : Thread nD τ) (Pipeline.ucRefs τ sig) (U14 m c))
    (hch := fun c => ⟨.rfl, .rfl, .rfl, .rfl, held_eq c (V4_eq m c).symm, held_eq c (V5_eq m c), .rfl, held_eq c (V7_eq m c).symm,
      held_eq c (V8_eq m c), .rfl, held_eq c (V10_eq m c).symm, held_eq c (V11_eq m c), held_eq c (V12_eq m c).symm,
      held_eq c (V13_eq m c), sep_mono .rfl (R_owes c)⟩)
    (hinit := ?_) (QY := fun c s => ∀ b ∈ Pipeline.ucRefs τ sig, s.mem ((c : Thread nD τ).1, b) = U14 m c b)
    (hfin := fun c s' => ?_) (hQ := fun s h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (U14 m c) s')
    isplitl [Hh] <;> iassumption

-- The frame claim is the run's claim read at the argument references, where the last valuation is the launch contents.
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run _ _ _).mono (fun r h c => by
    have e : ∀ (b : Ref sig .tc) (hb : ¬ (Proc.devRef .tc b : DevRef τ sig).isScoped) {x}, V14 m (outs m) c b = x →
        r.2.mem ((c.tc : Thread nD τ).loc b) = x :=
      fun b hb _ hx => (h c _ (mem_uc b hb)).trans ((congrFun (V14_eq m c) _).symm.trans hx)
    exact ⟨e _ (by decide) (V14_main_arg0 m _ c), e _ (by decide) (V14_main_arg1 m _ c), e _ (by decide) (V14_main_arg2 m _ c),
      e _ (by decide) (V14_main_arg3 m _ c), e _ (by decide) (V14_main_arg4 m _ c), e _ (by decide) (V14_main_arg5 m _ c),
      e _ (by decide) (V14_main_arg6 m _ c), e _ (by decide) (V14_main_arg7 m _ c), e _ (by decide) (V14_main_arg8 m _ c),
      e _ (by decide) (V14_main_arg9 m _ c), e _ (by decide) (V14_main_arg10 m _ c)⟩) (run_all m ρ)

end Cert.Kernel.Frame

end
-- ==== Proof.KI.R0.lean ====
import proofs.«416900_j23630910063028_3_alg».proof.Proof.Gen.KernelIdeal.Launch
import proofs.«416900_j23630910063028_3_alg».proof.Proof.Gen.KernelIdeal.Skeleton
import proofs.«416900_j23630910063028_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x64 := Rect.unit (s := S10000x64) ![0, 0] S10000x64.size inb_S10000x64_S10000x64_0_0
abbrev r0_1 : Rect S64x64 := Rect.unit (s := S64x64) ![0, 0] S64x64.size inb_S64x64_S64x64_0_0
abbrev r0_2 : Rect S10000x1 := Rect.unit (s := S10000x1) ![0, 0] S10000x1.size inb_S10000x1_S10000x1_0_0

def out0_3 (xa : Vec F S10000x64 .f32) (xb : Vec F S64x64 .f32) (xc : Vec F S10000x1 .f32) : Vec F S10000x64 .bf16 :=
  View.canon [⟨r0_0, k0_pay1 (View.ld xa r0_0) (View.ld xb r0_1) (View.ld xc r0_2)⟩]

set_option maxHeartbeats 1000000 in
-- The body only loads its four buffers whole and stores the payload over the whole output buffer; whatever else is held passes through.
theorem sound_kernel0 {k} (hk : k = @cc0__matmul_scaled_kernel F _) {i : grid0.Coords}
    {ma : Memref sig .tc .vmem S10000x64 .f32} {hma : ma.IsWhole} {mb : Memref sig .tc .vmem S64x64 .f32} {hmb : mb.IsWhole}
    {mc : Memref sig .tc .vmem S10000x1 .f32} {hmc : mc.IsWhole} {mo : Memref sig .tc .vmem S10000x64 .bf16} {hmo : mo.IsWhole}
    {prog} (hp : prog = k i ma hma mb hmb mc hmc mo hmo) (c : Dev nD) (E : Set ℕ)
    {Da Db Dc Do : Type} {fa : Da → Vec F S10000x64 .f32} {fb : Db → Vec F S64x64 .f32} {fc : Dc → Vec F S10000x1 .f32}
    {fo : Do → Vec F S10000x64 .bf16} {xa ya : Vec F S10000x64 .f32} {xb yb : Vec F S64x64 .f32} {xc yc : Vec F S10000x1 .f32}
    {yo : Vec F S10000x64 .bf16} {P Q P' Q' : sProp 𝕄} (ha : ∀ d, fa d = xa) (hb : ∀ d, fb d = xb) (hc : ∀ d, fc d = xc)
    (ha' : ya = xa) (hb' : yb = xb) (hc' : yc = xc) (ho' : yo = out0_3 xa xb xc) (hP : P' = P) (hQ : Q' = Q) :
    iprop(P ∗ Q ∗ (∃ d, owns (c : Thread nD τ) ma fullShare (fa d)) ∗ (∃ d, owns (c : Thread nD τ) mb fullShare (fb d))
        ∗ (∃ d, owns (c : Thread nD τ) mc fullShare (fc d)) ∗ (∃ d, owns (c : Thread nD τ) mo fullShare (fo d)))
      ⊢ wp frame (wpE (defs₀ (F := F)) Variants.none c none) E prog fun _ =>
        iprop(P' ∗ Q' ∗ owns (c : Thread nD τ) ma fullShare ya ∗ owns (c : Thread nD τ) mb fullShare yb
          ∗ owns (c : Thread nD τ) mc fullShare yc ∗ owns (c : Thread nD τ) mo fullShare yo) := by
  subst hp hk ha' hb' hc' ho' hP hQ
  simp only [ha, hb, hc, cc0__matmul_scaled_kernel_eq_skeleton]; unfold cc0__matmul_scaled_kernel_skel owns
  iintro ⟨HP, HQ, ⟨%_, %ga, %hga, Ha⟩, ⟨%_, %gb, %hgb, Hb⟩, ⟨%_, %gc, %hgc, Hc⟩, ⟨%_, %go, -, Ho⟩⟩
  subst hga; subst hgb; subst hgc
  sl_exec
  sl_step
  isplitl [HP]; · iexact HP
  isplitl [HQ]; · iexact HQ
  isplitl [Ha]
  · iexists ga; isplitr; · ipureintro; rfl
    iexact Ha
  isplitl [Hb]
  · iexists gb; isplitr; · ipureintro; rfl
    iexact Hb
  isplitl [Hc]
  · iexists gc; isplitr; · ipureintro; rfl
    iexact Hc
  iexists _; isplitr
  swap; · iexact Ho
  ipureintro
  exact View.read_writes_eq_canon _ _ _ (View.cover_of_tiled _ S10000x64.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0 (c : Dev nD) (t : Fin cfg0.N) : (dat0 V c).after 0 t = iblk0 V c 0 t ∧ (dat0 V c).after 1 t = iblk0 V c 1 t
    ∧ (dat0 V c).after 2 t = iblk0 V c 2 t ∧ (dat0 V c).after 3 t = out0_3 (iblk0 V c 0 t) (iblk0 V c 1 t) (iblk0 V c 2 t) := by
  dsimp only [dat0]; exact ⟨rfl, rfl, rfl, rfl⟩

theorem before0 (c : Dev nD) (t : Fin cfg0.N) : (∀ d, (dat0 V c).before 0 t d = iblk0 V c 0 t)
    ∧ (∀ d, (dat0 V c).before 1 t d = iblk0 V c 1 t) ∧ (∀ d, (dat0 V c).before 2 t d = iblk0 V c 2 t) := by
  refine ⟨fun d => ?_, fun d => ?_, fun d => ?_⟩ <;>
    exact Dat.before_in_eq_fetched (dat0 V c) _ rfl (fun _ => rfl) (fun _ _ _ => rfl) (fun _ => by dsimp only [dat0]; rfl) t d

theorem body_obligation0 (c : Dev nD) : BodyObligation (dat0 (F := F) V c) (defs₀ (F := F)) Variants.none () Set.univ := fun t => by
  rw [bigSep_W0, bigSep_W0]
  exact sound_kernel0 rfl (rfl : bodyAt0 t = _) c Set.univ (before0 V c t).1 (before0 V c t).2.1 (before0 V c t).2.2
    (after0 V c t).1 (after0 V c t).2.1 (after0 V c t).2.2.1 (after0 V c t).2.2.2 rfl rfl

end Cert.KernelIdeal.Frame

end
-- ==== Proof.KI.R1.lean ====
import proofs.«416900_j23630910063028_3_alg».proof.Proof.Gen.KernelIdeal.Launch
import proofs.«416900_j23630910063028_3_alg».proof.Proof.Gen.KernelIdeal.Skeleton
import proofs.«416900_j23630910063028_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat Cfg BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem zero1 : (![0, 0] : Fin 2 → Nat) = fun _ => 0 := funext fun a => by fin_cases a <;> rfl

-- the block of window w at point t, read off the array V holds
def iblk1 (cfg : Cfg sig Λ₀) (c : Dev nD) (w : Fin cfg.W) (t : Fin cfg.N) : ((cfg.win w).xblock (cfg.grid.coords t)).Idx → Elt F (cfg.win w).elt :=
  ((cfg.win w).blk t).view.read (Elt F) (V c (cfg.win w).arr.view.ref)

-- the body writes max (x0 * x1 + x2) 0, with x1 and x2 broadcast, and leaves its inputs and everything else as they were
theorem sound_kernel1 {k} (hk : k = cc1__bias_relu_scaled_kernel (F := F)) (c : Dev nD) (i : grid1.Coords) (arg1 : Memref sig .tc .vmem S10000x64 .f32) (harg1 : arg1.IsWhole) (arg2 : Memref sig .tc .vmem S10000x1 .f32) (harg2 : arg2.IsWhole) (arg3 : Memref sig .tc .vmem S1x64 .f32) (harg3 : arg3.IsWhole) (arg4 : Memref sig .tc .vmem S10000x64 .f32) (harg4 : arg4.IsWhole)
    (x0 : Vec F S10000x64 .f32) (x1 : Vec F S10000x1 .f32) (x2 : Vec F S1x64 .f32) {D0 D1 D2 D3 : Type} (b : D3 → Vec F S10000x64 .f32) (Φ O : sProp 𝕄) :
    iprop(Φ ∗ O ∗ (∃ _d : D0, owns (c : Thread nD τ) arg1 fullShare x0) ∗ (∃ _d : D1, owns (c : Thread nD τ) arg2 fullShare x1)
        ∗ (∃ _d : D2, owns (c : Thread nD τ) arg3 fullShare x2) ∗ (∃ d, owns (c : Thread nD τ) arg4 fullShare (b d)))
      ⊢ wp frame (wpE (defs₀ (F := F)) Variants.none c none) Set.univ (k i arg1 harg1 arg2 harg2 arg3 harg3 arg4 harg4) fun _ =>
        iprop(Φ ∗ O ∗ owns (c : Thread nD τ) arg1 fullShare x0 ∗ owns (c : Thread nD τ) arg2 fullShare x1 ∗ owns (c : Thread nD τ) arg3 fullShare x2
          ∗ owns (c : Thread nD τ) arg4 fullShare (k1_pay1 x0 x1 x2)) := by
  subst hk
  simp only [cc1__bias_relu_scaled_kernel_eq_skeleton]; unfold cc1__bias_relu_scaled_kernel_skel
  unfold owns
  iintro ⟨HΦ, Ho, ⟨%_, %f0, %hf0, H0⟩, ⟨%_, %f1, %hf1, H1⟩, ⟨%_, %f2, %hf2, H2⟩, ⟨%d3, %f3, -, H3⟩⟩
  subst hf0 hf1 hf2
  sl_exec
  sl_step
  iframe
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon, View.canon_unit_zero zero1]
  · simp only [View.readAt_eq_ld, View.ld_unit_zero (S := S10000x64) zero1, View.ld_unit_zero (S := S10000x1) zero1, View.ld_unit_zero (S := S1x64) zero1]
  · exact fun y => ⟨_, List.mem_singleton_self _, View.mem_set_unit_zero zero1 inb_S10000x64_S10000x64_0_0 y⟩

def dat1 (c : Dev nD) : Dat τ (Elt F) Unit ℕ (UR sig nD τ) ℕ cfg1 c where
  A w := V c (Pipeline.arrRef spec1 w)
  after w t := match w with
    | ⟨0, _⟩ => iblk1 V cfg1 c 0 t
    | ⟨1, _⟩ => iblk1 V cfg1 c 1 t
    | ⟨2, _⟩ => iblk1 V cfg1 c 2 t
    | ⟨3, _⟩ => k1_pay1 (iblk1 V cfg1 c 0 t) (iblk1 V cfg1 c 1 t) (iblk1 V cfg1 c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

-- at every point each input block is the array's block there
theorem before1 (c : Dev nD) (t : Fin cfg1.N) : (∀ d, (dat1 V c).before 0 t d = iblk1 V cfg1 c 0 t)
    ∧ (∀ d, (dat1 V c).before 1 t d = iblk1 V cfg1 c 1 t) ∧ ∀ d, (dat1 V c).before 2 t d = iblk1 V cfg1 c 2 t := by
  refine ⟨fun d => ?_, fun d => ?_, fun d => ?_⟩ <;>
    exact ((dat1 V c).before_in_eq_fetched _ rfl (fun _ => rfl) (fun _ _ _ => rfl) (fun _ => by dsimp only [dat1, Dat.blockOf, iblk1] <;> rfl) t d).trans
      (by dsimp only [dat1, Dat.fetched, Dat.blockOf, iblk1] <;> rfl)

theorem body_obligation1 (c : Dev nD) : BodyObligation (dat1 (F := F) V c) (defs₀ (F := F)) Variants.none () Set.univ := fun t => by
  obtain ⟨b0, b1, b2⟩ := before1 V c t
  rw [bigSep_W1, bigSep_W1]
  simp only [b0, b1, b2]
  dsimp only [dat1]
  show _ ⊢ wp _ _ _ (bodyAt1 t) _
  exact sound_kernel1 rfl c (grid1.coords t) _ _ _ _ _ _ _ _ _ _ _ _ _ _

end Cert.KernelIdeal.Frame

end
-- ==== Proof.KI.R2.lean ====
import proofs.«416900_j23630910063028_3_alg».proof.Proof.KI.R0
import Idealize.ShloMosaic.Lib.Pipeline.Value

noncomputable section

namespace Cert.KernelIdeal.Frame

open Cert.KernelIdeal Cert.KernelIdeal.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

theorem pay2_eq : @k2_pay1 F _ = k0_pay1 := by
  funext v0 v3 v6; unfold k2_pay1 k0_pay1; rw [shapeCast_self (s := S10000x64)]

-- This call's kernel is call 0's: its one extra shape cast is to the shape the value already has.
theorem kernel2_eq : @cc2__matmul_scaled_kernel F _ = @cc0__matmul_scaled_kernel F _ := by
  funext _ i ma hma mb hmb mc hmc mo hmo
  rw [cc2__matmul_scaled_kernel_eq_skeleton, cc0__matmul_scaled_kernel_eq_skeleton]
  unfold cc2__matmul_scaled_kernel_skel cc0__matmul_scaled_kernel_skel; rw [pay2_eq]

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out0_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2 (c : Dev nD) (t : Fin cfg2.N) : (dat2 V c).after 0 t = iblk2 V c 0 t ∧ (dat2 V c).after 1 t = iblk2 V c 1 t
    ∧ (dat2 V c).after 2 t = iblk2 V c 2 t ∧ (dat2 V c).after 3 t = out0_3 (iblk2 V c 0 t) (iblk2 V c 1 t) (iblk2 V c 2 t) := by
  dsimp only [dat2]; exact ⟨rfl, rfl, rfl, rfl⟩

theorem before2 (c : Dev nD) (t : Fin cfg2.N) : (∀ d, (dat2 V c).before 0 t d = iblk2 V c 0 t)
    ∧ (∀ d, (dat2 V c).before 1 t d = iblk2 V c 1 t) ∧ (∀ d, (dat2 V c).before 2 t d = iblk2 V c 2 t) := by
  refine ⟨fun d => ?_, fun d => ?_, fun d => ?_⟩ <;>
    exact Dat.before_in_eq_fetched (dat2 V c) _ rfl (fun _ => rfl) (fun _ _ _ => rfl) (fun _ => by dsimp only [dat2]; rfl) t d

theorem body_obligation2 (c : Dev nD) : BodyObligation (dat2 (F := F) V c) (defs₀ (F := F)) Variants.none () Set.univ := fun t => by
  rw [bigSep_W2, bigSep_W2]
  exact sound_kernel0 kernel2_eq (rfl : bodyAt2 t = _) c Set.univ (before2 V c t).1 (before2 V c t).2.1 (before2 V c t).2.2
    (after2 V c t).1 (after2 V c t).2.1 (after2 V c t).2.2.1 (after2 V c t).2.2.2 rfl rfl

end Cert.KernelIdeal.Frame

end
-- ==== Proof.KI.R3.lean ====
import proofs.«416900_j23630910063028_3_alg».proof.Proof.KI.R1

noncomputable section

namespace Cert.KernelIdeal.Frame

open Cert.KernelIdeal Cert.KernelIdeal.Gen
open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def dat3 (c : Dev nD) : Dat τ (Elt F) Unit ℕ (UR sig nD τ) ℕ cfg3 c where
  A w := V c (Pipeline.arrRef spec3 w)
  after w t := match w with
    | ⟨0, _⟩ => iblk1 V cfg3 c 0 t
    | ⟨1, _⟩ => iblk1 V cfg3 c 1 t
    | ⟨2, _⟩ => iblk1 V cfg3 c 2 t
    | ⟨3, _⟩ => k1_pay1 (iblk1 V cfg3 c 0 t) (iblk1 V cfg3 c 1 t) (iblk1 V cfg3 c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem before3 (c : Dev nD) (t : Fin cfg3.N) : (∀ d, (dat3 V c).before 0 t d = iblk1 V cfg3 c 0 t)
    ∧ (∀ d, (dat3 V c).before 1 t d = iblk1 V cfg3 c 1 t) ∧ ∀ d, (dat3 V c).before 2 t d = iblk1 V cfg3 c 2 t := by
  refine ⟨fun d => ?_, fun d => ?_, fun d => ?_⟩ <;>
    exact ((dat3 V c).before_in_eq_fetched _ rfl (fun _ => rfl) (fun _ _ _ => rfl) (fun _ => by dsimp only [dat3, Dat.blockOf, iblk1] <;> rfl) t d).trans
      (by dsimp only [dat3, Dat.fetched, Dat.blockOf, iblk1] <;> rfl)

theorem body_obligation3 (c : Dev nD) : BodyObligation (dat3 (F := F) V c) (defs₀ (F := F)) Variants.none () Set.univ := fun t => by
  obtain ⟨b0, b1, b2⟩ := before3 V c t
  rw [bigSep_W3, bigSep_W3]
  simp only [b0, b1, b2]
  dsimp only [dat3]
  show _ ⊢ wp _ _ _ (bodyAt3 t) _
  exact sound_kernel1 (k := cc3__bias_relu_scaled_kernel) rfl c (grid3.coords t) _ _ _ _ _ _ _ _ _ _ _ _ _ _

end Cert.KernelIdeal.Frame

end
-- ==== Proof.KI.R4.lean ====
import proofs.«416900_j23630910063028_3_alg».proof.Proof.KI.R0
import Idealize.ShloMosaic.Lib.Pipeline.Value

noncomputable section

namespace Cert.KernelIdeal.Frame

open Cert.KernelIdeal Cert.KernelIdeal.Gen
open Idealize.ShloMosaic Idealize.ShloMosaic.TcCoe
open Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

theorem pay4_eq : @k4_pay1 F _ = k0_pay1 := by
  funext v0 v3 v6; unfold k4_pay1 k0_pay1; rw [shapeCast_self (s := S10000x64)]

-- This call's kernel is call 0's: its one extra shape cast is to the shape the value already has.
theorem kernel4_eq : @cc4__matmul_scaled_kernel F _ = @cc0__matmul_scaled_kernel F _ := by
  funext _ i ma hma mb hmb mc hmc mo hmo
  rw [cc4__matmul_scaled_kernel_eq_skeleton, cc0__matmul_scaled_kernel_eq_skeleton]
  unfold cc4__matmul_scaled_kernel_skel cc0__matmul_scaled_kernel_skel; rw [pay4_eq]

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out0_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4 (c : Dev nD) (t : Fin cfg4.N) : (dat4 V c).after 0 t = iblk4 V c 0 t ∧ (dat4 V c).after 1 t = iblk4 V c 1 t
    ∧ (dat4 V c).after 2 t = iblk4 V c 2 t ∧ (dat4 V c).after 3 t = out0_3 (iblk4 V c 0 t) (iblk4 V c 1 t) (iblk4 V c 2 t) := by
  dsimp only [dat4]; exact ⟨rfl, rfl, rfl, rfl⟩

theorem before4 (c : Dev nD) (t : Fin cfg4.N) : (∀ d, (dat4 V c).before 0 t d = iblk4 V c 0 t)
    ∧ (∀ d, (dat4 V c).before 1 t d = iblk4 V c 1 t) ∧ (∀ d, (dat4 V c).before 2 t d = iblk4 V c 2 t) := by
  refine ⟨fun d => ?_, fun d => ?_, fun d => ?_⟩ <;>
    exact Dat.before_in_eq_fetched (dat4 V c) _ rfl (fun _ => rfl) (fun _ _ _ => rfl) (fun _ => by dsimp only [dat4]; rfl) t d

theorem body_obligation4 (c : Dev nD) : BodyObligation (dat4 (F := F) V c) (defs₀ (F := F)) Variants.none () Set.univ := fun t => by
  rw [bigSep_W4, bigSep_W4]
  exact sound_kernel0 kernel4_eq (rfl : bodyAt4 t = _) c Set.univ (before4 V c t).1 (before4 V c t).2.1 (before4 V c t).2.2
    (after4 V c t).1 (after4 V c t).2.1 (after4 V c t).2.2.1 (after4 V c t).2.2.2 rfl rfl

end Cert.KernelIdeal.Frame

end
-- ==== Proof.KI.R5.lean ====
import proofs.«416900_j23630910063028_3_alg».proof.Proof.KI.R1

noncomputable section

namespace Cert.KernelIdeal.Frame

open Cert.KernelIdeal Cert.KernelIdeal.Gen
open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def dat5 (c : Dev nD) : Dat τ (Elt F) Unit ℕ (UR sig nD τ) ℕ cfg5 c where
  A w := V c (Pipeline.arrRef spec5 w)
  after w t := match w with
    | ⟨0, _⟩ => iblk1 V cfg5 c 0 t
    | ⟨1, _⟩ => iblk1 V cfg5 c 1 t
    | ⟨2, _⟩ => iblk1 V cfg5 c 2 t
    | ⟨3, _⟩ => k1_pay1 (iblk1 V cfg5 c 0 t) (iblk1 V cfg5 c 1 t) (iblk1 V cfg5 c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem before5 (c : Dev nD) (t : Fin cfg5.N) : (∀ d, (dat5 V c).before 0 t d = iblk1 V cfg5 c 0 t)
    ∧ (∀ d, (dat5 V c).before 1 t d = iblk1 V cfg5 c 1 t) ∧ ∀ d, (dat5 V c).before 2 t d = iblk1 V cfg5 c 2 t := by
  refine ⟨fun d => ?_, fun d => ?_, fun d => ?_⟩ <;>
    exact ((dat5 V c).before_in_eq_fetched _ rfl (fun _ => rfl) (fun _ _ _ => rfl) (fun _ => by dsimp only [dat5, Dat.blockOf, iblk1] <;> rfl) t d).trans
      (by dsimp only [dat5, Dat.fetched, Dat.blockOf, iblk1] <;> rfl)

theorem body_obligation5 (c : Dev nD) : BodyObligation (dat5 (F := F) V c) (defs₀ (F := F)) Variants.none () Set.univ := fun t => by
  obtain ⟨b0, b1, b2⟩ := before5 V c t
  rw [bigSep_W5, bigSep_W5]
  simp only [b0, b1, b2]
  dsimp only [dat5]
  show _ ⊢ wp _ _ _ (bodyAt5 t) _
  exact sound_kernel1 (k := cc5__bias_relu_scaled_kernel) rfl c (grid5.coords t) _ _ _ _ _ _ _ _ _ _ _ _ _ _

end Cert.KernelIdeal.Frame

end
-- ==== Proof.KI.R6Runs.lean ====
import proofs.«416900_j23630910063028_3_alg».proof.Proof.Gen.KernelIdeal.Launch
import proofs.«416900_j23630910063028_3_alg».proof.Proof.Gen.KernelIdeal.Skeleton
import proofs.«416900_j23630910063028_3_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value
import Idealize.ShloMosaic.Lib.Pipeline.TableIdle

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val = 0 :=
  (by decide +kernel : ∀ t : Fin grid6.N, cond6_0 (grid6.coords t) ↔ t.val = 0)

abbrev cond6_1 (i : grid6.Coords) : Prop := k6_cond2 i = 1#1

theorem hcond6_1 : ∀ t : Fin cfg6.N, cond6_1 (grid6.coords t) ↔ t.val = 19 :=
  (by decide +kernel : ∀ t : Fin grid6.N, cond6_1 (grid6.coords t) ↔ t.val = 19)

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
theorem liveAt6_4 : ∀ t : Fin cfg6.N, cfg6.idle 4 (grid6.coords t) = false := by decide +kernel
theorem liveAt6_5 : ∀ t : Fin cfg6.N, cfg6.idle 5 (grid6.coords t) = false := by decide +kernel
theorem liveAt6_6 : ∀ t : Fin cfg6.N, cfg6.idle 6 (grid6.coords t) = false := by decide +kernel
theorem liveAt6_7 : ∀ t : Fin cfg6.N, cfg6.idle 7 (grid6.coords t) = false := by decide +kernel

theorem idleAt6_8 : ∀ t : Fin cfg6.N, ¬cond6_1 (grid6.coords t) → cfg6.idle 8 (grid6.coords t) = true := by decide +kernel
theorem noFlush6_8 : ∀ t : Fin cfg6.N, ¬cond6_1 (grid6.coords t) → (cfg6.win 8).flush t = false := by decide +kernel
theorem liveAt6_8 : ∀ t : Fin cfg6.N, cond6_1 (grid6.coords t) → cfg6.idle 8 (grid6.coords t) = false := by decide +kernel

abbrev VO6_8 : View sig .tc .vmem S128x10 .f32 := (Memref.whole cc6_stg8_0 : Memref sig .tc .vmem S128x10 .f32).view

abbrev ms6_0 (t : Fin cfg6.N) : Memref sig .tc .vmem S5000x64 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S5000x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S5000x64 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S5000x1 .i32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S64x10 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S64x10 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S64x10 .f32 := win6_6.stage (cfg6.slots t 6)
abbrev hs6_6 (t : Fin cfg6.N) : (ms6_6 t).IsWhole := hstage6_6 ((cfg6.slots t 6).cast nbuf6_6)
abbrev ms6_7 (t : Fin cfg6.N) : Memref sig .tc .vmem S1x10 .f32 := win6_7.stage (cfg6.slots t 7)
abbrev hs6_7 (t : Fin cfg6.N) : (ms6_7 t).IsWhole := hstage6_7 ((cfg6.slots t 7).cast nbuf6_7)
abbrev ms6_8 (t : Fin cfg6.N) : Memref sig .tc .vmem S128x10 .f32 := win6_8.stage (cfg6.slots t 8)
abbrev hs6_8 (t : Fin cfg6.N) : (ms6_8 t).IsWhole := hstage6_8 ((cfg6.slots t 8).cast nbuf6_8)

abbrev scM6_0 : Memref sig .tc .vmem S128x64 .f32 := Memref.whole cc6_scratch0
abbrev scM6_1 : Memref sig .tc .vmem S128x64 .f32 := Memref.whole cc6_scratch1
abbrev scM6_2 : Memref sig .tc .vmem S128x64 .f32 := Memref.whole cc6_scratch2
abbrev scM6_3 : Memref sig .tc .vmem S128x1 .f32 := Memref.whole cc6_scratch3

abbrev Acc6 (F : FTy → Type) : Type := Vec F S128x64 .f32 × Vec F S128x64 .f32 × Vec F S128x64 .f32 × Vec F S128x1 .f32

def zero6 : Acc6 F := (k6_pay6, k6_pay7, k6_pay8, k6_pay9)

def acc6 (x0 : Vec F S5000x64 .f32) (x1 : Vec F S5000x64 .f32) (x2 : Vec F S5000x64 .f32) (x3 : Vec F S5000x1 .i32) (s : Acc6 F) : Acc6 F :=
  (k6_pay12 x0 x3 s.1,
   k6_pay13 x1 x3 s.2.1,
   k6_pay1 (k6_pay10 x2) (k6_pay11 x3) s.2.2.1 (constant S128x64 .f32 0x00000000#32),
   k6_pay2 (k6_pay11 x3) s.2.2.2)

def cls6 (x4 : Vec F S64x10 .f32) (x5 : Vec F S64x10 .f32) (x6 : Vec F S64x10 .f32) (x7 : Vec F S1x10 .f32) (s : Acc6 F) : Vec F S128x10 .f32 :=
  k6_pay3 (k6_pay4 s.2.2.2 s.1 s.2.1 s.2.2.1 x4 x5 x6 x7) (k6_pay5 s.2.2.2 s.1 s.2.1 s.2.2.1 x4 x5 x6 x7)

-- a rectangle of the full sizes that fits sits at offset zero
theorem off_zero_of_inb {S : Shape} {off : Fin S.rank → ℕ} (inb : ∀ a, off a + S.size a ≤ S.size a) : off = fun _ => 0 :=
  funext fun a => by have := inb a; omega

-- a load through the whole shape of a buffer held at contents `x` reads `x`
theorem readAt_whole_rep {κ : Kind} {sp : Space} {S : Shape} {e : EltTy} (v : View sig κ sp S e) {off : Fin S.rank → ℕ}
    (inb : ∀ a, off a + S.size a ≤ S.size a) (x : S.Idx → Elt F e) :
    v.readAt (Elt F) (Rect.unit off S.size inb).toLoadRect (v.rep x) = x :=
  (View.readAt_eq_ld v _ _).trans ((congrArg (View.ld · _) (View.read_rep v x)).trans (View.ld_unit_zero (off_zero_of_inb inb) inb x))

-- a load through the whole shape after one store through it reads that store's payload
theorem readCov_store_whole {κ : Kind} {sp : Space} {S : Shape} {e : EltTy} (v : View sig κ sp S e) {off : Fin S.rank → ℕ}
    (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero v (off_zero_of_inb inb) inb w

-- a store through the whole shape, made last, leaves its payload
theorem read_store_whole {κ : Kind} {sp : Space} {S : Shape} {e : EltTy} (v : View sig κ sp S e) (g : v.ty.Contents (Elt F)) {off : Fin S.rank → ℕ}
    (inb : ∀ a, off a + S.size a ≤ S.size a) (w : S.Idx → Elt F e) (L : List (View.Piece (Elt F) S e)) :
    v.read (Elt F) (v.writes (Elt F) g (⟨Rect.unit off S.size inb, w⟩ :: L)) = w :=
  (View.read_writes_eq_canon _ _ _ fun y => ⟨_, List.mem_cons_self, View.mem_set_unit_zero (off_zero_of_inb inb) inb y⟩).trans (View.canon_cons_unit_zero (off_zero_of_inb inb) inb w L)

theorem rest6_eq (c : Dev nD) :
    (iprop((∃ r, prngReg c r) ∗ Pipeline.scopedRest spec6 c) : sProp 𝕄)
      = iprop((∃ r, prngReg c r) ∗ iprop((∃ d, owns (c : Thread nD τ) scM6_0 fullShare d) ∗ (∃ d, owns (c : Thread nD τ) scM6_1 fullShare d) ∗ (∃ d, owns (c : Thread nD τ) scM6_2 fullShare d) ∗ (∃ d, owns (c : Thread nD τ) scM6_3 fullShare d))
          ∗ Pipeline.scopedRestBut spec6 c [cc6_scratch0, cc6_scratch1, cc6_scratch2, cc6_scratch3]) := by
  rw [scopedRest6_split]; simp only [scM6_0, scM6_1, scM6_2, scM6_3, owns_whole]; try rfl

end Cert.KernelIdeal.Frame

end
-- ==== Proof.KI.R6RunA.lean ====
import proofs.«416900_j23630910063028_3_alg».proof.Proof.KI.R6Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Runs

variable (c : Dev nD) (i : grid6.Coords) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S5000x1 .i32) (harg4 : arg4.IsWhole) (arg5 : Memref sig .tc .vmem S64x10 .f32) (harg5 : arg5.IsWhole) (arg6 : Memref sig .tc .vmem S64x10 .f32) (harg6 : arg6.IsWhole) (arg7 : Memref sig .tc .vmem S64x10 .f32) (harg7 : arg7.IsWhole) (arg8 : Memref sig .tc .vmem S1x10 .f32) (harg8 : arg8.IsWhole) (arg9 : Memref sig .tc .vmem S128x10 .f32) (harg9 : arg9.IsWhole) (arg10 : Memref sig .tc .vmem S128x64 .f32) (harg10 : arg10.IsWhole) (arg11 : Memref sig .tc .vmem S128x64 .f32) (harg11 : arg11.IsWhole) (arg12 : Memref sig .tc .vmem S128x64 .f32) (harg12 : arg12.IsWhole) (arg13 : Memref sig .tc .vmem S128x1 .f32) (harg13 : arg13.IsWhole)
  (x0 : Vec F S5000x64 .f32) (x1 : Vec F S5000x64 .f32) (x2 : Vec F S5000x64 .f32) (x3 : Vec F S5000x1 .i32) (x4 : Vec F S64x10 .f32) (x5 : Vec F S64x10 .f32) (x6 : Vec F S64x10 .f32) (x7 : Vec F S1x10 .f32)

def ins6 : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7)

def accs6 (s : Acc6 F) : sProp 𝕄 :=
  iprop(owns (c : Thread nD τ) arg10 fullShare s.1 ∗ owns (c : Thread nD τ) arg11 fullShare s.2.1 ∗ owns (c : Thread nD τ) arg12 fullShare s.2.2.1 ∗ owns (c : Thread nD τ) arg13 fullShare s.2.2.2)

set_option maxHeartbeats 4000000 in
-- the first point: the carried buffers, at anything, are zeroed and the point's products added
theorem kernelRun6_A (hc0 : cond6_0 i) (hc1 : ¬cond6_1 i) (E : Set ℕ) (K : PUnit → sProp 𝕄) :
    iprop(ins6 c arg1 arg2 arg3 arg4 arg5 arg6 arg7 arg8 x0 x1 x2 x3 x4 x5 x6 x7 ∗ iprop((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))
        ∗ (iprop(ins6 c arg1 arg2 arg3 arg4 arg5 arg6 arg7 arg8 x0 x1 x2 x3 x4 x5 x6 x7 ∗ accs6 c arg10 arg11 arg12 arg13 (acc6 x0 x1 x2 x3 zero6)) -∗ K ⟨⟩))
      ⊢ wp frame (wpE (defs₀ (F := F)) Variants.none c none) E (cc6__pool_classify_kernel i arg1 harg1 arg2 harg2 arg3 harg3 arg4 harg4 arg5 harg5 arg6 harg6 arg7 harg7 arg8 harg8 arg9 harg9 arg10 harg10 arg11 harg11 arg12 harg12 arg13 harg13) K := by
  unfold ins6 accs6 acc6
  simp only [cc6__pool_classify_kernel_eq_skeleton]; unfold cc6__pool_classify_kernel_skel
  simp only [k6_part2_eq_skeleton, k6_part1_eq_skeleton]
  unfold zero6
  rw [owns_eq_rep (c : Thread nD τ) arg1, owns_eq_rep (c : Thread nD τ) arg2, owns_eq_rep (c : Thread nD τ) arg3, owns_eq_rep (c : Thread nD τ) arg4, owns_eq_rep (c : Thread nD τ) arg5, owns_eq_rep (c : Thread nD τ) arg6, owns_eq_rep (c : Thread nD τ) arg7, owns_eq_rep (c : Thread nD τ) arg8]
  iintro ⟨⟨H0, H1, H2, H3, H4, H5, H6, H7⟩, ⟨⟨%d0, HS0⟩, ⟨%d1, HS1⟩, ⟨%d2, HS2⟩, ⟨%d3, HS3⟩⟩, Hk⟩
  ihave HS0 := (rep_of_owns (c : Thread nD τ) arg10 fullShare d0) $$ HS0
  ihave HS1 := (rep_of_owns (c : Thread nD τ) arg11 fullShare d1) $$ HS1
  ihave HS2 := (rep_of_owns (c : Thread nD τ) arg12 fullShare d2) $$ HS2
  ihave HS3 := (rep_of_owns (c : Thread nD τ) arg13 fullShare d3) $$ HS3
  sl_exec (disch := first | exact hc0 | exact hc1)
  sl_step
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HS0]
  · unfold owns; iexists _; isplitr; swap; · iexact HS0
    ipureintro; sl_unfold_run_names; rw [read_store_whole]; simp only [readAt_whole_rep arg1.view, readAt_whole_rep arg4.view, readAt_whole_rep arg10.view, readCov_store_whole arg10.view]
  isplitl [HS1]
  · unfold owns; iexists _; isplitr; swap; · iexact HS1
    ipureintro; sl_unfold_run_names; rw [read_store_whole]; simp only [readAt_whole_rep arg2.view, readAt_whole_rep arg4.view, readAt_whole_rep arg11.view, readCov_store_whole arg11.view]
  isplitl [HS2]
  · unfold owns; iexists _; isplitr; swap; · iexact HS2
    ipureintro; sl_unfold_run_names; rw [read_store_whole]; simp only [readAt_whole_rep arg3.view, readAt_whole_rep arg4.view, readAt_whole_rep arg12.view, readCov_store_whole arg12.view]
  unfold owns; iexists _; isplitr; swap; · iexact HS3
  ipureintro; sl_unfold_run_names; rw [read_store_whole]; simp only [readAt_whole_rep arg4.view, readAt_whole_rep arg13.view, readCov_store_whole arg13.view]

set_option maxHeartbeats 4000000 in
-- a middle point: the point's products are added to what the carried buffers hold
theorem kernelRun6_B (hc0 : ¬cond6_0 i) (hc1 : ¬cond6_1 i) (s : Acc6 F) (E : Set ℕ) (K : PUnit → sProp 𝕄) :
    iprop(ins6 c arg1 arg2 arg3 arg4 arg5 arg6 arg7 arg8 x0 x1 x2 x3 x4 x5 x6 x7 ∗ accs6 c arg10 arg11 arg12 arg13 s ∗ (iprop(ins6 c arg1 arg2 arg3 arg4 arg5 arg6 arg7 arg8 x0 x1 x2 x3 x4 x5 x6 x7 ∗ accs6 c arg10 arg11 arg12 arg13 (acc6 x0 x1 x2 x3 s)) -∗ K ⟨⟩))
      ⊢ wp frame (wpE (defs₀ (F := F)) Variants.none c none) E (cc6__pool_classify_kernel i arg1 harg1 arg2 harg2 arg3 harg3 arg4 harg4 arg5 harg5 arg6 harg6 arg7 harg7 arg8 harg8 arg9 harg9 arg10 harg10 arg11 harg11 arg12 harg12 arg13 harg13) K := by
  unfold ins6 accs6 acc6
  simp only [cc6__pool_classify_kernel_eq_skeleton]; unfold cc6__pool_classify_kernel_skel
  simp only [k6_part2_eq_skeleton, k6_part1_eq_skeleton]
  rw [owns_eq_rep (c : Thread nD τ) arg1, owns_eq_rep (c : Thread nD τ) arg2, owns_eq_rep (c : Thread nD τ) arg3, owns_eq_rep (c : Thread nD τ) arg4, owns_eq_rep (c : Thread nD τ) arg5, owns_eq_rep (c : Thread nD τ) arg6, owns_eq_rep (c : Thread nD τ) arg7, owns_eq_rep (c : Thread nD τ) arg8, owns_eq_rep (c : Thread nD τ) arg10, owns_eq_rep (c : Thread nD τ) arg11, owns_eq_rep (c : Thread nD τ) arg12, owns_eq_rep (c : Thread nD τ) arg13]
  iintro ⟨⟨H0, H1, H2, H3, H4, H5, H6, H7⟩, ⟨HS0, HS1, HS2, HS3⟩, Hk⟩
  sl_exec (disch := first | exact hc0 | exact hc1)
  sl_step
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HS0]
  · unfold owns; iexists _; isplitr; swap; · iexact HS0
    ipureintro; sl_unfold_run_names; rw [read_store_whole]; simp only [readAt_whole_rep arg1.view, readAt_whole_rep arg4.view, readAt_whole_rep arg10.view, readCov_store_whole arg10.view]
  isplitl [HS1]
  · unfold owns; iexists _; isplitr; swap; · iexact HS1
    ipureintro; sl_unfold_run_names; rw [read_store_whole]; simp only [readAt_whole_rep arg2.view, readAt_whole_rep arg4.view, readAt_whole_rep arg11.view, readCov_store_whole arg11.view]
  isplitl [HS2]
  · unfold owns; iexists _; isplitr; swap; · iexact HS2
    ipureintro; sl_unfold_run_names; rw [read_store_whole]; simp only [readAt_whole_rep arg3.view, readAt_whole_rep arg4.view, readAt_whole_rep arg12.view, readCov_store_whole arg12.view]
  unfold owns; iexists _; isplitr; swap; · iexact HS3
  ipureintro; sl_unfold_run_names; rw [read_store_whole]; simp only [readAt_whole_rep arg4.view, readAt_whole_rep arg13.view, readCov_store_whole arg13.view]

set_option maxHeartbeats 4000000 in
-- the last point: as a middle point, then the classifier of the sums is stored over the whole output block
theorem kernelRun6_C (hc0 : ¬cond6_0 i) (hc1 : cond6_1 i) (s : Acc6 F) (E : Set ℕ) (K : PUnit → sProp 𝕄) :
    iprop(ins6 c arg1 arg2 arg3 arg4 arg5 arg6 arg7 arg8 x0 x1 x2 x3 x4 x5 x6 x7 ∗ (∃ d, owns (c : Thread nD τ) arg9 fullShare d) ∗ accs6 c arg10 arg11 arg12 arg13 s
        ∗ (iprop(ins6 c arg1 arg2 arg3 arg4 arg5 arg6 arg7 arg8 x0 x1 x2 x3 x4 x5 x6 x7 ∗ owns (c : Thread nD τ) arg9 fullShare (cls6 x4 x5 x6 x7 (acc6 x0 x1 x2 x3 s)) ∗ accs6 c arg10 arg11 arg12 arg13 (acc6 x0 x1 x2 x3 s)) -∗ K ⟨⟩))
      ⊢ wp frame (wpE (defs₀ (F := F)) Variants.none c none) E (cc6__pool_classify_kernel i arg1 harg1 arg2 harg2 arg3 harg3 arg4 harg4 arg5 harg5 arg6 harg6 arg7 harg7 arg8 harg8 arg9 harg9 arg10 harg10 arg11 harg11 arg12 harg12 arg13 harg13) K := by
  unfold ins6 accs6 acc6
  simp only [cc6__pool_classify_kernel_eq_skeleton]; unfold cc6__pool_classify_kernel_skel
  simp only [k6_part2_eq_skeleton, k6_part1_eq_skeleton]
  unfold cls6
  rw [owns_eq_rep (c : Thread nD τ) arg1, owns_eq_rep (c : Thread nD τ) arg2, owns_eq_rep (c : Thread nD τ) arg3, owns_eq_rep (c : Thread nD τ) arg4, owns_eq_rep (c : Thread nD τ) arg5, owns_eq_rep (c : Thread nD τ) arg6, owns_eq_rep (c : Thread nD τ) arg7, owns_eq_rep (c : Thread nD τ) arg8, owns_eq_rep (c : Thread nD τ) arg10, owns_eq_rep (c : Thread nD τ) arg11, owns_eq_rep (c : Thread nD τ) arg12, owns_eq_rep (c : Thread nD τ) arg13]
  iintro ⟨⟨H0, H1, H2, H3, H4, H5, H6, H7⟩, ⟨%d8, H8⟩, ⟨HS0, HS1, HS2, HS3⟩, Hk⟩
  ihave H8 := (rep_of_owns (c : Thread nD τ) arg9 fullShare d8) $$ H8
  sl_exec (disch := first | exact hc0 | exact hc1)
  sl_step
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]
  · unfold owns; iexists _; isplitr; swap; · iexact H8
    ipureintro; sl_unfold_run_names; rw [read_store_whole]; simp only [readAt_whole_rep arg1.view, readAt_whole_rep arg2.view, readAt_whole_rep arg3.view, readAt_whole_rep arg4.view, readAt_whole_rep arg5.view, readAt_whole_rep arg6.view, readAt_whole_rep arg7.view, readAt_whole_rep arg8.view, readAt_whole_rep arg10.view, readAt_whole_rep arg11.view, readAt_whole_rep arg12.view, readAt_whole_rep arg13.view, readCov_store_whole arg10.view, readCov_store_whole arg11.view, readCov_store_whole arg12.view, readCov_store_whole arg13.view]
  isplitl [HS0]
  · unfold owns; iexists _; isplitr; swap; · iexact HS0
    ipureintro; sl_unfold_run_names; rw [read_store_whole]; simp only [readAt_whole_rep arg1.view, readAt_whole_rep arg4.view, readAt_whole_rep arg10.view, readCov_store_whole arg10.view]
  isplitl [HS1]
  · unfold owns; iexists _; isplitr; swap; · iexact HS1
    ipureintro; sl_unfold_run_names; rw [read_store_whole]; simp only [readAt_whole_rep arg2.view, readAt_whole_rep arg4.view, readAt_whole_rep arg11.view, readCov_store_whole arg11.view]
  isplitl [HS2]
  · unfold owns; iexists _; isplitr; swap; · iexact HS2
    ipureintro; sl_unfold_run_names; rw [read_store_whole]; simp only [readAt_whole_rep arg3.view, readAt_whole_rep arg4.view, readAt_whole_rep arg12.view, readCov_store_whole arg12.view]
  unfold owns; iexists _; isplitr; swap; · iexact HS3
  ipureintro; sl_unfold_run_names; rw [read_store_whole]; simp only [readAt_whole_rep arg4.view, readAt_whole_rep arg13.view, readCov_store_whole arg13.view]

end Runs

end Cert.KernelIdeal.Frame

end
-- ==== Proof.KI.R6.lean ====
import proofs.«416900_j23630910063028_3_alg».proof.Proof.KI.R6RunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- the carried quadruple after the body at position n: every point adds its blocks' products, the first one over zero
def sAt6 (c : Dev nD) : (n : ℕ) → n < cfg6.N → Acc6 F
  | 0, hn => acc6 (iblk6 V c 0 ⟨0, hn⟩) (iblk6 V c 1 ⟨0, hn⟩) (iblk6 V c 2 ⟨0, hn⟩) (iblk6 V c 3 ⟨0, hn⟩) zero6
  | n + 1, hn => acc6 (iblk6 V c 0 ⟨n + 1, hn⟩) (iblk6 V c 1 ⟨n + 1, hn⟩) (iblk6 V c 2 ⟨n + 1, hn⟩) (iblk6 V c 3 ⟨n + 1, hn⟩) (sAt6 c n (Nat.lt_of_succ_lt hn))

theorem sAt6_first (c : Dev nD) (t : Fin cfg6.N) (h0 : t.val = 0) :
    sAt6 V c t.val t.isLt = acc6 (iblk6 V c 0 t) (iblk6 V c 1 t) (iblk6 V c 2 t) (iblk6 V c 3 t) zero6 := by
  obtain ⟨n, hn⟩ := t
  cases n with
  | zero => rfl
  | succ n => exact absurd h0 (Nat.succ_ne_zero n)

theorem sAt6_pos (c : Dev nD) (t : Fin cfg6.N) (h0 : t.val ≠ 0) :
    sAt6 V c t.val t.isLt = acc6 (iblk6 V c 0 t) (iblk6 V c 1 t) (iblk6 V c 2 t) (iblk6 V c 3 t) (sAt6 V c (t.val - 1) (Nat.lt_of_le_of_lt (Nat.sub_le _ _) t.isLt)) := by
  obtain ⟨n, hn⟩ := t
  cases n with
  | zero => exact absurd rfl h0
  | succ n => rfl

-- before position 0 nothing is known of the carried four; before position n + 1 they hold what point n left
def PhiS6 (c : Dev nD) : (n : ℕ) → n ≤ cfg6.N → sProp 𝕄
  | 0, _ => iprop((∃ r, prngReg c r) ∗ Pipeline.scopedRest spec6 c)
  | n + 1, hn => iprop((∃ r, prngReg c r) ∗ accs6 c scM6_0 scM6_1 scM6_2 scM6_3 (sAt6 V c n hn) ∗ Pipeline.scopedRestBut spec6 c [cc6_scratch0, cc6_scratch1, cc6_scratch2, cc6_scratch3])

theorem PhiS6_zero (c : Dev nD) (n : ℕ) (h : n ≤ cfg6.N) (hz : n = 0) :
    PhiS6 V c n h = iprop((∃ r, prngReg c r) ∗ Pipeline.scopedRest spec6 c) := by
  subst hz; rfl

theorem PhiS6_pos (c : Dev nD) (n : ℕ) (h : n ≤ cfg6.N) (hz : n ≠ 0) :
    PhiS6 V c n h = iprop((∃ r, prngReg c r) ∗ accs6 c scM6_0 scM6_1 scM6_2 scM6_3 (sAt6 V c (n - 1) (by omega)) ∗ Pipeline.scopedRestBut spec6 c [cc6_scratch0, cc6_scratch1, cc6_scratch2, cc6_scratch3]) := by
  cases n with
  | zero => exact absurd rfl hz
  | succ n => rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => if t.val = 19 then cls6 (iblk6 V c 4 t) (iblk6 V c 5 t) (iblk6 V c 6 t) (iblk6 V c 7 t) (sAt6 V c t.val t.isLt) else VO6_8.read (Elt F) VO6_8.junk
  Φ t := PhiS6 V c t.val (Nat.le_of_lt_succ t.isLt)
  q _ := fullShare
  owed _ := 0

theorem A_eq6 (c : Dev nD) (w : Fin cfg6.W) : (dat6 V c).A w = V c (Pipeline.arrRef spec6 w) := rfl

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]

theorem after6_8_last_eq (c : Dev nD) (t : Fin cfg6.N) (h1 : t.val = 19) :
    (dat6 V c).after 8 t = cls6 (iblk6 V c 4 t) (iblk6 V c 5 t) (iblk6 V c 6 t) (iblk6 V c 7 t) (sAt6 V c t.val t.isLt) :=
  if_pos h1

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d

theorem leaves6_0 (c : Dev nD) (t : Fin cfg6.N) :
    (dat6 V c).leavesExact 0 t = owns (c : Thread nD τ) (ms6_0 t) fullShare (iblk6 V c 0 t) := by
  unfold Dat.leavesExact; rw [liveAt6_0 t, after6_0]
theorem leaves6_1 (c : Dev nD) (t : Fin cfg6.N) :
    (dat6 V c).leavesExact 1 t = owns (c : Thread nD τ) (ms6_1 t) fullShare (iblk6 V c 1 t) := by
  unfold Dat.leavesExact; rw [liveAt6_1 t, after6_1]
theorem leaves6_2 (c : Dev nD) (t : Fin cfg6.N) :
    (dat6 V c).leavesExact 2 t = owns (c : Thread nD τ) (ms6_2 t) fullShare (iblk6 V c 2 t) := by
  unfold Dat.leavesExact; rw [liveAt6_2 t, after6_2]
theorem leaves6_3 (c : Dev nD) (t : Fin cfg6.N) :
    (dat6 V c).leavesExact 3 t = owns (c : Thread nD τ) (ms6_3 t) fullShare (iblk6 V c 3 t) := by
  unfold Dat.leavesExact; rw [liveAt6_3 t, after6_3]
theorem leaves6_4 (c : Dev nD) (t : Fin cfg6.N) :
    (dat6 V c).leavesExact 4 t = owns (c : Thread nD τ) (ms6_4 t) fullShare (iblk6 V c 4 t) := by
  unfold Dat.leavesExact; rw [liveAt6_4 t, after6_4]
theorem leaves6_5 (c : Dev nD) (t : Fin cfg6.N) :
    (dat6 V c).leavesExact 5 t = owns (c : Thread nD τ) (ms6_5 t) fullShare (iblk6 V c 5 t) := by
  unfold Dat.leavesExact; rw [liveAt6_5 t, after6_5]
theorem leaves6_6 (c : Dev nD) (t : Fin cfg6.N) :
    (dat6 V c).leavesExact 6 t = owns (c : Thread nD τ) (ms6_6 t) fullShare (iblk6 V c 6 t) := by
  unfold Dat.leavesExact; rw [liveAt6_6 t, after6_6]
theorem leaves6_7 (c : Dev nD) (t : Fin cfg6.N) :
    (dat6 V c).leavesExact 7 t = owns (c : Thread nD τ) (ms6_7 t) fullShare (iblk6 V c 7 t) := by
  unfold Dat.leavesExact; rw [liveAt6_7 t, after6_7]

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d))
    ∗ (∃ d, owns (c : Thread nD τ) (ms6_7 t) fullShare ((dat6 V c).before 7 t d))
    ∗ (∃ d, owns (c : Thread nD τ) (ms6_8 t) fullShare ((dat6 V c).before 8 t d)))

def bodyPost6 (c : Dev nD) (t : Fin cfg6.N) : sProp 𝕄 :=
  iprop((dat6 V c).Φ t.succ ∗ (dat6 V c).owesAt () t.succ
    ∗ (dat6 V c).leavesExact 0 t ∗ (dat6 V c).leavesExact 1 t ∗ (dat6 V c).leavesExact 2 t ∗ (dat6 V c).leavesExact 3 t
    ∗ (dat6 V c).leavesExact 4 t ∗ (dat6 V c).leavesExact 5 t ∗ (dat6 V c).leavesExact 6 t ∗ (dat6 V c).leavesExact 7 t
    ∗ (dat6 V c).leavesExact 8 t)

set_option maxHeartbeats 4800000 in
-- the point is the first, a middle or the last one; the matching run takes the carried buffers from the invariant and gives them back at this point's contents
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7]
  rw [show (dat6 V c).owesAt () t.succ = (dat6 V c).owesAt () t.castSucc from rfl,
    show (dat6 V c).Φ t.succ = iprop((∃ r, prngReg c r) ∗ accs6 c scM6_0 scM6_1 scM6_2 scM6_3 (sAt6 V c t.val t.isLt) ∗ Pipeline.scopedRestBut spec6 c [cc6_scratch0, cc6_scratch1, cc6_scratch2, cc6_scratch3]) from rfl,
    show (dat6 V c).Φ t.castSucc = PhiS6 V c t.val (Nat.le_of_lt t.isLt) from rfl]
  rw [leaves6_0, leaves6_1, leaves6_2, leaves6_3, leaves6_4, leaves6_5, leaves6_6, leaves6_7]
  have hN : t.val < 20 := lt_of_lt_of_eq t.isLt (show cfg6.N = 20 from N_6)
  by_cases h0 : t.val = 0
  · have hc0 := (hcond6_0 t).mpr h0
    have hc1 : ¬cond6_1 (grid6.coords t) := fun h => by have := (hcond6_1 t).mp h; omega
    have run := fun K => kernelRun6_A c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) scM6_2 (Memref.isWhole_whole _) scM6_3 (Memref.isWhole_whole _) (iblk6 V c 0 t) (iblk6 V c 1 t) (iblk6 V c 2 t) (iblk6 V c 3 t) (iblk6 V c 4 t) (iblk6 V c 5 t) (iblk6 V c 6 t) (iblk6 V c 7 t) hc0 hc1 Set.univ K
    unfold ins6 at run
    rw [Dat.leavesExact_idle (dat6 V c) 8 t (idleAt6_8 t hc1) (noFlush6_8 t hc1), sAt6_first V c t h0, PhiS6_zero V c _ _ h0, rest6_eq]
    iintro ⟨⟨Hg, HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
    iapply (run _)
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [HS]; · iexact HS
    iintro ⟨⟨H0, H1, H2, H3, H4, H5, H6, H7⟩, HS⟩
    isplitl [Hg HS Hr]
    · isplitl [Hg]; · iexact Hg
      isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hc0 : ¬cond6_0 (grid6.coords t) := fun h => h0 ((hcond6_0 t).mp h)
    rw [sAt6_pos V c t h0, PhiS6_pos V c _ _ h0]
    by_cases h1 : t.val = 19
    · have hc1 := (hcond6_1 t).mpr h1
      have run := fun K => kernelRun6_C c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) scM6_2 (Memref.isWhole_whole _) scM6_3 (Memref.isWhole_whole _) (iblk6 V c 0 t) (iblk6 V c 1 t) (iblk6 V c 2 t) (iblk6 V c 3 t) (iblk6 V c 4 t) (iblk6 V c 5 t) (iblk6 V c 6 t) (iblk6 V c 7 t) hc0 hc1 (sAt6 V c (t.val - 1) (Nat.lt_of_le_of_lt (Nat.sub_le _ _) t.isLt)) Set.univ K
      unfold ins6 at run
      rw [show (dat6 V c).leavesExact 8 t = owns (c : Thread nD τ) (ms6_8 t) fullShare ((dat6 V c).after 8 t) from by
        unfold Dat.leavesExact; rw [liveAt6_8 t hc1]]
      rw [after6_8_last_eq V c t h1, sAt6_pos V c t h0]
      iintro ⟨⟨Hg, HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run _)
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexists _; iexact H8
      isplitl [HS]; · iexact HS
      iintro ⟨⟨H0, H1, H2, H3, H4, H5, H6, H7⟩, H8, HS⟩
      isplitl [Hg HS Hr]
      · isplitl [Hg]; · iexact Hg
        isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond6_1 (grid6.coords t) := fun h => h1 ((hcond6_1 t).mp h)
      have run := fun K => kernelRun6_B c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (ms6_8 t) (hs6_8 t) scM6_0 (Memref.isWhole_whole _) scM6_1 (Memref.isWhole_whole _) scM6_2 (Memref.isWhole_whole _) scM6_3 (Memref.isWhole_whole _) (iblk6 V c 0 t) (iblk6 V c 1 t) (iblk6 V c 2 t) (iblk6 V c 3 t) (iblk6 V c 4 t) (iblk6 V c 5 t) (iblk6 V c 6 t) (iblk6 V c 7 t) hc0 hc1 (sAt6 V c (t.val - 1) (Nat.lt_of_le_of_lt (Nat.sub_le _ _) t.isLt)) Set.univ K
      unfold ins6 at run
      rw [Dat.leavesExact_idle (dat6 V c) 8 t (idleAt6_8 t hc1) (noFlush6_8 t hc1)]
      iintro ⟨⟨Hg, HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
      iapply (run _)
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [HS]; · iexact HS
      iintro ⟨⟨H0, H1, H2, H3, H4, H5, H6, H7⟩, HS⟩
      isplitl [Hg HS Hr]
      · isplitl [Hg]; · iexact Hg
        isplitl [HS]; · iexact HS
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem body_obligation6 (c : Dev nD) : BodyObligation (dat6 (F := F) V c) (defs₀ (F := F)) Variants.none () Set.univ := fun t => by
  rw [bigSep_W6, bigSep_W6]
  exact sound_body6 V c t

theorem Φ6_in (c : Dev nD) : iprop((∃ r, prngReg c r) ∗ Pipeline.scopedRest spec6 c) ⊢ (dat6 V c).Φ 0 := .rfl

-- after any point the invariant returns what it took at entry, whatever the carried four hold
theorem Φ6_out (c : Dev nD) : (dat6 V c).Φ (Fin.last cfg6.N) ⊢ iprop((∃ r, prngReg c r) ∗ Pipeline.scopedRest spec6 c) := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 20 := N_6; omega), rest6_eq]
  unfold accs6
  iintro ⟨Hg, ⟨HS0, HS1, HS2, HS3⟩, Hr⟩
  isplitl [Hg]; · iexact Hg
  isplitl [HS0 HS1 HS2 HS3]
  · isplitl [HS0]; · iexists _; iexact HS0
    isplitl [HS1]; · iexists _; iexact HS1
    isplitl [HS2]; · iexists _; iexact HS2
    iexists _; iexact HS3
  iexact Hr

end Cert.KernelIdeal.Frame

end
-- ==== Proof.KI.Chain.lean ====
import proofs.«416900_j23630910063028_3_alg».proof.Proof.Gen.KernelIdeal.Regions
import proofs.«416900_j23630910063028_3_alg».proof.Proof.KI.R0
import proofs.«416900_j23630910063028_3_alg».proof.Proof.KI.R1
import proofs.«416900_j23630910063028_3_alg».proof.Proof.KI.R2
import proofs.«416900_j23630910063028_3_alg».proof.Proof.KI.R3
import proofs.«416900_j23630910063028_3_alg».proof.Proof.KI.R4
import proofs.«416900_j23630910063028_3_alg».proof.Proof.KI.R5
import proofs.«416900_j23630910063028_3_alg».proof.Proof.KI.R6

set_option maxRecDepth 16384

noncomputable section

namespace Cert.KernelIdeal.Frame

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev U3 (c : Dev nD) : Valuation τ sig (Elt F) := V3 m c
def o4 (c : Dev nD) : Buf (Elt F) ((c : Thread nD τ).loc main_v16) := (dat0 (atTc (U3 m)) c).arrAt 3 cfg0.N
abbrev U4 (c : Dev nD) : Valuation τ sig (Elt F) := Function.update (U3 m c) main_v16 (o4 m c)
abbrev U5 (c : Dev nD) : Valuation τ sig (Elt F) := StableHlo.after hostOps1 (U4 m c)
def o6 (c : Dev nD) : Buf (Elt F) ((c : Thread nD τ).loc main_v29) := (dat1 (atTc (U5 m)) c).arrAt 3 cfg1.N
abbrev U6 (c : Dev nD) : Valuation τ sig (Elt F) := Function.update (U5 m c) main_v29 (o6 m c)
def o7 (c : Dev nD) : Buf (Elt F) ((c : Thread nD τ).loc main_v30) := (dat2 (atTc (U6 m)) c).arrAt 3 cfg2.N
abbrev U7 (c : Dev nD) : Valuation τ sig (Elt F) := Function.update (U6 m c) main_v30 (o7 m c)
abbrev U8 (c : Dev nD) : Valuation τ sig (Elt F) := StableHlo.after hostOps3 (U7 m c)
def o9 (c : Dev nD) : Buf (Elt F) ((c : Thread nD τ).loc main_v43) := (dat3 (atTc (U8 m)) c).arrAt 3 cfg3.N
abbrev U9 (c : Dev nD) : Valuation τ sig (Elt F) := Function.update (U8 m c) main_v43 (o9 m c)
def o10 (c : Dev nD) : Buf (Elt F) ((c : Thread nD τ).loc main_v44) := (dat4 (atTc (U9 m)) c).arrAt 3 cfg4.N
abbrev U10 (c : Dev nD) : Valuation τ sig (Elt F) := Function.update (U9 m c) main_v44 (o10 m c)
abbrev U11 (c : Dev nD) : Valuation τ sig (Elt F) := StableHlo.after hostOps5 (U10 m c)
def o12 (c : Dev nD) : Buf (Elt F) ((c : Thread nD τ).loc main_v57) := (dat5 (atTc (U11 m)) c).arrAt 3 cfg5.N
abbrev U12 (c : Dev nD) : Valuation τ sig (Elt F) := Function.update (U11 m c) main_v57 (o12 m c)
abbrev U13 (c : Dev nD) : Valuation τ sig (Elt F) := StableHlo.after hostOps6 (U12 m c)
def o14 (c : Dev nD) : Buf (Elt F) ((c : Thread nD τ).loc main_v63) := (dat6 (atTc (U13 m)) c).arrAt 8 cfg6.N
abbrev U14 (c : Dev nD) : Valuation τ sig (Elt F) := Function.update (U13 m c) main_v63 (o14 m c)

def outs : Outs (F := F) := fun J r c =>
  match J with
  | 4 => U4 m c r
  | 6 => U6 m c r
  | 7 => U7 m c r
  | 9 => U9 m c r
  | 10 => U10 m c r
  | 12 => U12 m c r
  | 14 => U14 m c r
  | _ => V0 m c r

-- Updating at `b` with the value an update at `b` already holds there adds nothing to that update.
theorem upd_eq {V U : Valuation τ sig (Elt F)} (h : V = U) (b : DevRef τ sig) (x : b.ty.Contents (Elt F)) :
    Function.update V b (Function.update U b x b) = Function.update U b x := by rw [Function.update_self, h]

theorem V4_eq (c : Dev nD) : V4 m (outs m) c = U4 m c := upd_eq rfl _ _
theorem V5_eq (c : Dev nD) : V5 m (outs m) c = U5 m c := congrArg (StableHlo.after hostOps1) (V4_eq m c)
theorem V6_eq (c : Dev nD) : V6 m (outs m) c = U6 m c := upd_eq (V5_eq m c) _ _
theorem V7_eq (c : Dev nD) : V7 m (outs m) c = U7 m c := upd_eq (V6_eq m c) _ _
theorem V8_eq (c : Dev nD) : V8 m (outs m) c = U8 m c := congrArg (StableHlo.after hostOps3) (V7_eq m c)
theorem V9_eq (c : Dev nD) : V9 m (outs m) c = U9 m c := upd_eq (V8_eq m c) _ _
theorem V10_eq (c : Dev nD) : V10 m (outs m) c = U10 m c := upd_eq (V9_eq m c) _ _
theorem V11_eq (c : Dev nD) : V11 m (outs m) c = U11 m c := congrArg (StableHlo.after hostOps5) (V10_eq m c)
theorem V12_eq (c : Dev nD) : V12 m (outs m) c = U12 m c := upd_eq (V11_eq m c) _ _
theorem V13_eq (c : Dev nD) : V13 m (outs m) c = U13 m c := congrArg (StableHlo.after hostOps6) (V12_eq m c)
theorem V14_eq (c : Dev nD) : V14 m (outs m) c = U14 m c := upd_eq (V13_eq m c) _ _

end Cert.KernelIdeal.Frame

end
-- ==== Proof.KI.Regs.lean ====
import proofs.«416900_j23630910063028_3_alg».proof.Proof.KI.Chain
import Idealize.ShloMosaic.Lib.Pipeline.RegionsLoop

set_option maxRecDepth 16384

noncomputable section

namespace Cert.KernelIdeal.Frame

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

def pdats : (p : Fin 7) → (c : Dev nD) → Dat τ (Elt F) Unit ℕ (UR sig nD τ) ℕ (Pipeline.pin (pcfgs (F := F)) adm p) c
  | ⟨0, _⟩ => fun c => dat0 (atTc (U3 m)) c
  | ⟨1, _⟩ => fun c => dat1 (atTc (U5 m)) c
  | ⟨2, _⟩ => fun c => dat2 (atTc (U6 m)) c
  | ⟨3, _⟩ => fun c => dat3 (atTc (U8 m)) c
  | ⟨4, _⟩ => fun c => dat4 (atTc (U9 m)) c
  | ⟨5, _⟩ => fun c => dat5 (atTc (U11 m)) c
  | ⟨6, _⟩ => fun c => dat6 (atTc (U13 m)) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- Off the output window an array keeps its entry contents; the updated valuation reads the output array's last contents at its own reference.
theorem hF_of {cfg : Pipeline.Cfg sig Λ₀} {c : Dev nD} (dat : Dat τ (Elt F) Unit ℕ (UR sig nD τ) ℕ cfg c) (W : Dev nD → Valuation τ sig (Elt F))
    (hA : ∀ w, dat.A w = atTc W c (Pipeline.arrRef cfg.spec w)) (o : Fin cfg.W)
    (ho : ∀ w, w ≠ o → (cfg.win w).isOut = false ∧ Pipeline.arrRef cfg.spec w ≠ Pipeline.arrRef cfg.spec o) (w : Fin cfg.W) :
    dat.arrAt w cfg.N = atTc (fun c => Function.update (W c) (Pipeline.arrRef cfg.spec o) (dat.arrAt o cfg.N)) c (Pipeline.arrRef cfg.spec w) := by
  by_cases hw : w = o
  · subst hw
    exact (Function.update_self (β := fun b : DevRef τ sig => Buf (Elt F) ((c : Thread nD τ).1, b)) _ _ _).symm
  · exact ((dat.arrAt_in w (ho w hw).1 _).trans (hA w)).trans (Function.update_of_ne (StableHlo.devRef_ne_of_ne (ho w hw).2) _ _).symm

theorem hrest_of {c : Dev nD} (W : Valuation τ sig (Elt F)) {n : ℕ} (f : Fin n → Ref sig .tc) (o : Fin n) (x : Buf (Elt F) ((c : Thread nD τ).loc (f o)))
    (b : Ref sig .tc) (hb : b ∉ Finset.univ.image f) : atTc (fun _ => Function.update W (f o) x) c b = atTc (fun _ => W) c b :=
  Function.update_of_ne (StableHlo.devRef_ne_of_ne fun e => hb (Finset.mem_image.mpr ⟨o, Finset.mem_univ _, e.symm⟩)) _ _

-- The segment record of a region whose exit valuation is its entry valuation updated at its one output array.
set_option backward.isDefEq.respectTransparency.types false in
def mkReg (pd : (p : Fin 7) → (c : Dev nD) → Dat τ (Elt F) Unit ℕ (UR sig nD τ) ℕ (Pipeline.pin (pcfgs (F := F)) adm p) c)
    (p : Fin 7) (lf : Pipeline.LaunchFacts (nD := nD) (τ := τ) cfgs p) (W : Dev nD → Valuation τ sig (Elt F))
    (hb : ∀ c, Pipeline.BodyObligation (pd p c) (defs₀ (F := F)) Variants.none () Set.univ)
    (hd : ∀ c, (∀ w, (pd p c).q w = fullShare) ∧ (∀ t, (pd p c).owed t = 0) ∧ (pd p c).recorded 0 = Set.univ)
    (hA : ∀ c w, (pd p c).A w = atTc W c (Pipeline.arrRef (cfgs p).spec w)) (o : Fin (cfgs p).W)
    (ho : ∀ w, w ≠ o → ((cfgs p).win w).isOut = false ∧ Pipeline.arrRef (cfgs p).spec w ≠ Pipeline.arrRef (cfgs p).spec o)
    (hin : ∀ c, iprop((∃ r, prngReg c r) ∗ Pipeline.scopedRest (cfgs p).spec c) ⊢ (pd p c).Φ 0)
    (hout : ∀ c, (pd p c).Φ (Fin.last (cfgs p).N) ⊢ iprop((∃ r, prngReg c r) ∗ Pipeline.scopedRest (cfgs p).spec c)) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (hd c).2.1
  pre c := iprop(StableHlo.held (c : Thread nD τ) (Pipeline.ucRefs τ sig) (W c) ∗ R c)
  post c := iprop(StableHlo.held (c : Thread nD τ) (Pipeline.ucRefs τ sig)
    (Function.update (W c) (Pipeline.arrRef (cfgs p).spec o) ((pd p c).arrAt o (cfgs p).N)) ∗ R c)
  X c := iprop(∃ r, prngReg c r)
  Y c := iprop(∃ r, prngReg c r)
  Z c := Pipeline.unscopedRest (Ix := Unit) (Name := ℕ) (U := UR sig nD τ) (Lvl := ℕ) (cfgs p).spec c (atTc W c)
  hentry c := by
    rw [Pipeline.ownSems0_none]
    have hsplit := Pipeline.arrays_of_unscopedBufs (p := p) (pcfgs (F := F)) adm pd lf.win lf.arr_whole c
      ((pd p c).share_full (hd c).1) (atTc W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [(hd c).2.1]
      icases HO with ⟨%W, HO⟩; iexists W; isplitr; · ipureintro; exact fun _ _ => Or.inl ((hd c).2.2 ▸ trivial)
      iexact HO
    isplitl [Hp]; · iexact Hp
    iexact Hrest
  hin c := by
    iintro ⟨Hp, -, Hr⟩
    iapply (hin c)
    isplitl [Hp]; · iexact Hp
    iexact Hr
  hout c := by
    rw [Pipeline.ownSems0_none]
    have hΦ := hout c
    iintro H
    ihave H' := hΦ $$ H
    icases H' with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hd c).1) (atTc W c)
      (atTc (fun c => Function.update (W c) (Pipeline.arrRef (cfgs p).spec o) ((pd p c).arrAt o (cfgs p).N)) c)
      ((pd p c).arrAt · (cfgs p).N) (hF_of (pd p c) W (hA c) o ho) (hrest_of (W c) _ o _)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [(hd c).2.1]
    icases HO with ⟨%W, -, HO⟩; iexists W; iexact HO

def reg0 := mkReg (pdats m) 0 launch0 (U3 m) (body_obligation0 _) (fun _ => ⟨fun _ => rfl, fun _ => rfl, rfl⟩) (A_eq0 _) 3 (by decide)
  (fun _ => sep_symm) fun _ => sep_symm
def reg1 := mkReg (pdats m) 1 launch1 (U5 m) (body_obligation1 _) (fun _ => ⟨fun _ => rfl, fun _ => rfl, rfl⟩) (A_eq1 _) 3 (by decide)
  (fun _ => sep_symm) fun _ => sep_symm
def reg2 := mkReg (pdats m) 2 launch2 (U6 m) (body_obligation2 _) (fun _ => ⟨fun _ => rfl, fun _ => rfl, rfl⟩) (A_eq2 _) 3 (by decide)
  (fun _ => sep_symm) fun _ => sep_symm
def reg3 := mkReg (pdats m) 3 launch3 (U8 m) (body_obligation3 _) (fun _ => ⟨fun _ => rfl, fun _ => rfl, rfl⟩) (A_eq3 _) 3 (by decide)
  (fun _ => sep_symm) fun _ => sep_symm
def reg4 := mkReg (pdats m) 4 launch4 (U9 m) (body_obligation4 _) (fun _ => ⟨fun _ => rfl, fun _ => rfl, rfl⟩) (A_eq4 _) 3 (by decide)
  (fun _ => sep_symm) fun _ => sep_symm
def reg5 := mkReg (pdats m) 5 launch5 (U11 m) (body_obligation5 _) (fun _ => ⟨fun _ => rfl, fun _ => rfl, rfl⟩) (A_eq5 _) 3 (by decide)
  (fun _ => sep_symm) fun _ => sep_symm
def reg6 := mkReg (pdats m) 6 launch6 (U13 m) (body_obligation6 _) (fun _ => ⟨fun _ => rfl, fun _ => rfl, rfl⟩) (A_eq6 _) 8 (by decide)
  (Φ6_in _) (Φ6_out _)

theorem held_eq (c : Dev nD) {V V' : Valuation τ sig (Elt F)} (h : V = V') :
    iprop(StableHlo.held (c : Thread nD τ) (Pipeline.ucRefs τ sig) V ∗ R c)
      ⊢ iprop(StableHlo.held (c : Thread nD τ) (Pipeline.ucRefs τ sig) V' ∗ R (F := F) c) := h ▸ .rfl

theorem R_owes (c : Dev nD) : R (F := F) c ⊢ (iprop(∃ W, owes (c : Thread nD τ) (0 : CellTallies nD τ sig Unit) W) : sProp 𝕄) := by
  iintro ⟨-, HO⟩; iexact HO

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = U14 m c b) := by
  refine Pipeline.θ_run_regions_kit_dev (pcfgs (F := F)) adm (pdats m) () cellOf_inj emb₁ defs₀ 𝒱₀ L lv m ρ main
    (segs m (outs m) 𝒱₀ L lv (fun _ c => R c) () (pdats m) (reg0 m) (reg1 m) (reg2 m) (reg3 m) (reg4 m) (reg5 m) (reg6 m))
    (fun c Q => by rewrite [main_chain c, Seg.run_eq_chain]; exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (V0 m c) ∗ R c))
    (Tₙ := fun c => StableHlo.held (c : Thread nD τ) (Pipeline.ucRefs τ sig) (U14 m c))
    (hch := fun c => ⟨.rfl, .rfl, .rfl, .rfl, held_eq c (V4_eq m c).symm, held_eq c (V5_eq m c), .rfl, held_eq c (V7_eq m c).symm,
      held_eq c (V8_eq m c), .rfl, held_eq c (V10_eq m c).symm, held_eq c (V11_eq m c), held_eq c (V12_eq m c).symm,
      held_eq c (V13_eq m c), sep_mono .rfl (R_owes c)⟩)
    (hinit := ?_) (QY := fun c s => ∀ b ∈ Pipeline.ucRefs τ sig, s.mem ((c : Thread nD τ).1, b) = U14 m c b)
    (hfin := fun c s' => ?_) (hQ := fun s h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (U14 m c) s')
    isplitl [Hh] <;> iassumption

-- The frame claim is the run's claim read at the argument references, where the last valuation is the launch contents.
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run _ _ _).mono (fun r h c => by
    have e : ∀ (b : Ref sig .tc) (hb : ¬ (Proc.devRef .tc b : DevRef τ sig).isScoped) {x}, V14 m (outs m) c b = x →
        r.2.mem ((c.tc : Thread nD τ).loc b) = x :=
      fun b hb _ hx => (h c _ (mem_uc b hb)).trans ((congrFun (V14_eq m c) _).symm.trans hx)
    exact ⟨e _ (by decide) (V14_main_arg0 m _ c), e _ (by decide) (V14_main_arg1 m _ c), e _ (by decide) (V14_main_arg2 m _ c),
      e _ (by decide) (V14_main_arg3 m _ c), e _ (by decide) (V14_main_arg4 m _ c), e _ (by decide) (V14_main_arg5 m _ c),
      e _ (by decide) (V14_main_arg6 m _ c), e _ (by decide) (V14_main_arg7 m _ c), e _ (by decide) (V14_main_arg8 m _ c),
      e _ (by decide) (V14_main_arg9 m _ c), e _ (by decide) (V14_main_arg10 m _ c)⟩) (run_all m ρ)

end Cert.KernelIdeal.Frame

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev Arr2 (r c : Nat) : Type := (⟨2, ![r, c]⟩ : Shape).Idx → EReal

abbrev rowOf {r c : Nat} (i : (⟨2, ![r, c]⟩ : Shape).Idx) : Fin r := ⟨(i 0).val, (i 0).isLt⟩

abbrev colOf {r c : Nat} (i : (⟨2, ![r, c]⟩ : Shape).Idx) : Fin c := ⟨(i 1).val, (i 1).isLt⟩

def mmAt (x : Arr2 100000 64) (w : Arr2 64 64) (d : Arr2 100000 1) (p : Fin 100000) (q : Fin 64) : EReal :=
  (∑ k : Fin 64, x (ix2 p k) * w (ix2 k q)) * d (ix2 p 0)

def mmArr (x : Arr2 100000 64) (w : Arr2 64 64) (d : Arr2 100000 1) : Arr2 100000 64 :=
  fun i => mmAt x w d (rowOf i) (colOf i)

def biasAt (a : Arr2 100000 64) (d : Arr2 100000 1) (b : Arr2 1 64) (p : Fin 100000) (q : Fin 64) : EReal :=
  max (a (ix2 p q) * d (ix2 p 0) + b (ix2 0 q)) 0

def biasArr (a : Arr2 100000 64) (d : Arr2 100000 1) (b : Arr2 1 64) : Arr2 100000 64 :=
  fun i => biasAt a d b (rowOf i) (colOf i)

theorem mmArr_apply (x : Arr2 100000 64) (w : Arr2 64 64) (d : Arr2 100000 1) (p : Fin 100000) (q : Fin 64) :
    mmArr x w d (ix2 p q) = mmAt x w d p q := rfl

theorem biasArr_apply (a : Arr2 100000 64) (d : Arr2 100000 1) (b : Arr2 1 64) (p : Fin 100000) (q : Fin 64) :
    biasArr a d b (ix2 p q) = biasAt a d b p q := rfl

abbrev IdCol : Type := (⟨2, ![100000, 1]⟩ : Shape).Idx → BitVec 32

def hot (bt : IdCol) (i : Fin 100000) (g : Fin 128) : EReal :=
  if bt (ix2 i 0) = BitVec.ofNat 32 g.val then 1 else 0

def segSum (y : Arr2 100000 64) (bt : IdCol) (g : Fin 128) (f : Fin 64) : EReal :=
  ∑ i : Fin 100000, hot bt i g * y (ix2 i f)

def segCnt (bt : IdCol) (g : Fin 128) : EReal :=
  ∑ i : Fin 100000, hot bt i g * 1

def meanAt (y : Arr2 100000 64) (bt : IdCol) (g : Fin 128) (f : Fin 64) : EReal :=
  Ideal.div (segSum y bt g f) (max (segCnt bt g) 1)

def logitAt (y1 y2 y3 : Arr2 100000 64) (bt : IdCol)
    (w1 w2 w3 : Arr2 64 10) (b : Arr2 1 10) (g : Fin 128) (k : Fin 10) : EReal :=
  ((∑ f : Fin 64, meanAt y1 bt g f * w1 (ix2 f k)) + (∑ f : Fin 64, meanAt y2 bt g f * w2 (ix2 f k)))
    + (∑ f : Fin 64, meanAt y3 bt g f * w3 (ix2 f k)) + b (ix2 0 k)

def poolAt (y1 y2 y3 : Arr2 100000 64) (bt : IdCol)
    (w1 w2 w3 : Arr2 64 10) (b : Arr2 1 10) (g : Fin 128) (k : Fin 10) : EReal :=
  Ideal.div (Ideal.exp (logitAt y1 y2 y3 bt w1 w2 w3 b g k - Finset.univ.sup fun k' => logitAt y1 y2 y3 bt w1 w2 w3 b g k'))
    (∑ k'' : Fin 10, Ideal.exp (logitAt y1 y2 y3 bt w1 w2 w3 b g k'' - Finset.univ.sup fun k' => logitAt y1 y2 y3 bt w1 w2 w3 b g k'))

def poolArr (y1 y2 y3 : Arr2 100000 64) (bt : IdCol)
    (w1 w2 w3 : Arr2 64 10) (b : Arr2 1 10) : Arr2 128 10 :=
  fun i => poolAt y1 y2 y3 bt w1 w2 w3 b (rowOf i) (colOf i)

theorem poolArr_apply (y1 y2 y3 : Arr2 100000 64) (bt : IdCol)
    (w1 w2 w3 : Arr2 64 10) (b : Arr2 1 10) (g : Fin 128) (k : Fin 10) :
    poolArr y1 y2 y3 bt w1 w2 w3 b (ix2 g k) = poolAt y1 y2 y3 bt w1 w2 w3 b g k := rfl

end Cert.Spec

end
-- ==== Proof.KI.Val0.lean ====
import proofs.«416900_j23630910063028_3_alg».proof.Proof.KI.R0
import proofs.«416900_j23630910063028_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Frame Cert.Spec
open Idealize.ShloMosaic Idealize.ShloMosaic.TcCoe Idealize.SL.Sem Idealize.ShloMosaic.ValueIdx
open scoped BigOperators

variable (V : (c : Dev nD) → (b : Ref sig .tc) → Buf (Elt Ideal) ((c : Thread nD τ).loc b))

theorem lhs0_0 (i : S10000x64.Idx) (k : dot_S10000x64_S64x64_S10000x64_1_0_0_1_n_n.contr.Idx) :
    (dot_S10000x64_S64x64_S10000x64_1_0_0_1_n_n.lhsIdx i k 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

theorem rhs0_1 (i : S10000x64.Idx) (k : dot_S10000x64_S64x64_S10000x64_1_0_0_1_n_n.contr.Idx) :
    (dot_S10000x64_S64x64_S10000x64_1_0_0_1_n_n.rhsIdx i k 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

-- The product contracts axis 1 of the left operand with axis 0 of the right one, into a zero accumulator.
theorem mm0_apply (x : FVec Ideal S10000x64 .bf16) (w : FVec Ideal S64x64 .bf16) (p : Fin 10000) (q : Fin 64) :
    matmul (F := Ideal) dot_S10000x64_S64x64_S10000x64_1_0_0_1_n_n none x w (constant (F := Ideal) S10000x64 .f32 0x00000000#32) (ix2 p q)
      = ∑ k : Fin 64, x (ix2 p k) * w (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun a => Fin.ext (by
      match a with
      | ⟨0, _⟩ => exact lhs0_0 _ _
      | ⟨1, _⟩ => exact (dot_S10000x64_S64x64_S10000x64_1_0_0_1_n_n.lhsIdx_val_of_single rfl _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun a => Fin.ext (by
      match a with
      | ⟨0, _⟩ => exact (dot_S10000x64_S64x64_S10000x64_1_0_0_1_n_n.rhsIdx_val_of_single rfl _ _).trans hk
      | ⟨1, _⟩ => exact rhs0_1 _ _)
  rw [el, er]

theorem bcol0_apply (d : FVec Ideal S10000x1 .f32) (h : S10000x1.Broadcasts S10000x64) (p : Fin 10000) (q : Fin 64) :
    broadcastTo S10000x64 d h (ix2 p q) = d (ix2 p 0) := by
  refine broadcastTo_apply d h (ix2 p q) (ix2 p 0) fun a => ?_
  match a with
  | ⟨0, _⟩ => rfl
  | ⟨1, _⟩ => rfl

theorem hz0 : (![0, 0] : Fin 2 → Nat) = fun _ => 0 := funext fun a => by fin_cases a <;> rfl

-- Over the extended reals the narrowings are the identity, so an entry the body stores is an entry of `mmArr` once the blocks it read are the arrays' entries.
theorem out0_3_apply (A0 : Arr2 100000 64) (A1 : Arr2 64 64) (A2 : Arr2 100000 1) (x : Vec Ideal S10000x64 .f32) (w : Vec Ideal S64x64 .f32)
    (d : Vec Ideal S10000x1 .f32) (p : Fin 10000) (q : Fin 64) (P : Fin 100000) (hx : ∀ k, x (ix2 p k) = A0 (ix2 P k))
    (hw : ∀ k, w (ix2 k q) = A1 (ix2 k q)) (hd : d (ix2 p 0) = A2 (ix2 P 0)) : out0_3 x w d (ix2 p q) = mmArr A0 A1 A2 (ix2 P q) := by
  unfold out0_3 k0_pay1
  rw [View.canon_unit_zero hz0]
  simp only [View.ld_unit_zero (S := S10000x64) hz0, View.ld_unit_zero (S := S64x64) hz0, View.ld_unit_zero (S := S10000x1) hz0]
  rw [truncf_apply, mulf_apply, mm0_apply, bcol0_apply, mmArr_apply]
  simp only [truncf_apply, shapeCast_self, mmAt, hx, hw, hd]

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

-- Row `p` of point `t`'s blocks is row `t * 10000 + p` of the arrays, whatever the arrays are.
theorem flushed0 (A0 : Arr2 100000 64) (A1 : Arr2 64 64) (A2 : Arr2 100000 1) (t : Fin cfg0.N) :
    out0_3 (((cfg0.win 0).blk t).view.read (Elt Ideal) A0) (((cfg0.win 1).blk t).view.read (Elt Ideal) A1)
        (((cfg0.win 2).blk t).view.read (Elt Ideal) A2)
      = ((cfg0.win 3).blk t).view.read (Elt Ideal) (mmArr A0 A1 A2) := by
  obtain ⟨exr, exc, ewr, ewc, edr, edc, eor, eoc⟩ := idx_facts0 t
  have ht : t.val < 10 := lt_of_lt_of_eq t.isLt N_0
  funext j
  obtain ⟨p, q, rfl⟩ : ∃ (p : Fin 10000) (q : Fin 64), j = ix2 p q := ⟨j 0, j 1, eq_ix2 j⟩
  have hp : p.val < 10000 := p.isLt
  let P : Fin 100000 := ⟨t.val * 10000 + p.val, by omega⟩
  have ho : ∀ k : Fin 64, ((cfg0.win 3).blk t).view.emb (ix2 p k) = (ix2 P k : S100000x64.Idx) := fun k => by
    funext a; apply Fin.ext
    match a with
    | ⟨0, _⟩ => show win0_3.index t (0 : Fin 2) * 10000 + 1 * p.val = t.val * 10000 + p.val; omega
    | ⟨1, _⟩ => show win0_3.index t (1 : Fin 2) * 64 + 1 * k.val = k.val; omega
  have hw : ∀ k : Fin 64, ((cfg0.win 1).blk t).view.emb (ix2 k q) = (ix2 k q : S64x64.Idx) := fun k => by
    funext a; apply Fin.ext
    match a with
    | ⟨0, _⟩ => show win0_1.index t (0 : Fin 2) * 64 + 1 * k.val = k.val; omega
    | ⟨1, _⟩ => show win0_1.index t (1 : Fin 2) * 64 + 1 * q.val = q.val; omega
  have hd : ((cfg0.win 2).blk t).view.emb (ix2 p (0 : Fin 1)) = (ix2 P (0 : Fin 1) : S100000x1.Idx) := by
    funext a; apply Fin.ext
    match a with
    | ⟨0, _⟩ => show win0_2.index t (0 : Fin 2) * 10000 + 1 * p.val = t.val * 10000 + p.val; omega
    | ⟨1, _⟩ => show win0_2.index t (1 : Fin 2) * 1 + 1 * (0 : Fin 1).val = (0 : Fin 1).val; omega
  refine (out0_3_apply A0 A1 A2 _ _ _ p q P ?_ ?_ ?_).trans (congrArg (mmArr A0 A1 A2) (ho q)).symm
  · exact fun k => congrArg A0 (ho k)
  · exact fun k => congrArg A1 (hw k)
  · exact congrArg A2 hd

-- Row `r` of the output is in the block of point `r / 10000`.
theorem covered0 (i : S100000x64.Idx) : ∃ t : Fin cfg0.N, (cfg0.win 3).flush t = true ∧ i ∈ ((cfg0.win 3).blk t).view.set := by
  have hir : (i 0).val < 100000 := (i 0).isLt
  have hic : (i 1).val < 64 := (i 1).isLt
  obtain ⟨t, ht⟩ : ∃ t : Fin cfg0.N, t.val = (i 0).val / 10000 := ⟨⟨_, lt_of_lt_of_eq (by omega) N_0.symm⟩, rfl⟩
  obtain ⟨-, -, -, -, -, -, qr, qc⟩ := idx_facts0 t
  refine ⟨t, flush0_3 t, ?_⟩
  show i ∈ ((View.whole (Pipeline.arrRef spec0 3)).slice (win0_3.rect t)).set
  rw [View.set_slice_whole, Rect.mem_set_unit]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

theorem arr0 (c : Dev nD) : (dat0 (F := Ideal) V c).arrAt 3 cfg0.N
    = mmArr (V c (Pipeline.arrRef spec0 0)) (V c (Pipeline.arrRef spec0 1)) (V c (Pipeline.arrRef spec0 2)) :=
  (dat0 V c).arrAt_eq_of_cover 3 _ (fun t _ => by
    show (cfg0.win 3).cut (grid0.coords t) ((dat0 (F := Ideal) V c).after 3 t) = _
    rw [(after0 V c t).2.2.2]; exact flushed0 _ _ _ t) covered0

end Cert.KernelIdeal.Val

end
-- ==== Proof.KI.Val1.lean ====
import proofs.«416900_j23630910063028_3_alg».proof.Proof.KI.R1
import proofs.«416900_j23630910063028_3_alg».proof.Proof.Spec
import Idealize.ShloMosaic.Lib.ValueLayout
import Idealize.ShloMosaic.PureOps.Ideal.Laws

noncomputable section

namespace Cert.KernelIdeal.Val

open Cert.KernelIdeal Cert.KernelIdeal.Gen Cert.KernelIdeal.Frame Cert.Spec
open Idealize.ShloMosaic Idealize.ShloMosaic.TcCoe Idealize.SL.Sem Idealize.ShloMosaic.ValueIdx

variable (V : (c : Dev nD) → (b : Ref sig .tc) → Buf (Elt Ideal) ((c : Thread nD τ).loc b))

-- an [a, 1] column broadcast to [a, b] reads, at (p, q), the column's entry of row p
theorem bcol1_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

-- the stored value at (p, q): max (a[p, q] * d[p, 0] + b[0, q]) 0
theorem pay1_at (a : Vec Ideal S10000x64 .f32) (d : Vec Ideal S10000x1 .f32) (b : Vec Ideal S1x64 .f32) (p : Fin 10000) (q : Fin 64) :
    k1_pay1 a d b (ix2 p q) = max (a (ix2 p q) * d (ix2 p (0 : Fin 1)) + b (ix2 (0 : Fin 1) q)) 0 := by
  unfold k1_pay1
  simp only [shapeCast_self]
  rw [maximumf_apply, addf_apply, mulf_apply, broadcast_apply, bcol1_apply, broadcastTo_1b_ab_apply]
  show max _ (Ideal.ofBits .f32 0x00000000#32) = _
  rw [Ideal.ofBits_zero_f32]

theorem idx1_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem emb1_0 (t : Fin cfg1.N) (p : Fin 10000) (q : Fin 64) (hP : t.val * 10000 + p.val < 100000) :
    ((cfg1.win 0).blk t).view.emb (ix2 p q) = ix2 (⟨t.val * 10000 + p.val, hP⟩ : Fin 100000) q := by
  obtain ⟨e0, e1, -⟩ := idx1_facts t
  funext a; apply Fin.ext
  match a with
  | ⟨0, _⟩ => show win1_0.index t (0 : Fin 2) * 10000 + 1 * p.val = t.val * 10000 + p.val; omega
  | ⟨1, _⟩ => show win1_0.index t (1 : Fin 2) * 64 + 1 * q.val = q.val; omega

theorem emb1_1 (t : Fin cfg1.N) (p : Fin 10000) (hP : t.val * 10000 + p.val < 100000) :
    ((cfg1.win 1).blk t).view.emb (ix2 p (0 : Fin 1)) = ix2 (⟨t.val * 10000 + p.val, hP⟩ : Fin 100000) (0 : Fin 1) := by
  obtain ⟨-, -, e0, e1, -⟩ := idx1_facts t
  funext a; apply Fin.ext
  match a with
  | ⟨0, _⟩ => show win1_1.index t (0 : Fin 2) * 10000 + 1 * p.val = t.val * 10000 + p.val; omega
  | ⟨1, _⟩ => show win1_1.index t (1 : Fin 2) * 1 + 1 * 0 = 0; omega

theorem emb1_2 (t : Fin cfg1.N) (q : Fin 64) :
    ((cfg1.win 2).blk t).view.emb (ix2 (0 : Fin 1) q) = ix2 (0 : Fin 1) q := by
  obtain ⟨-, -, -, -, e0, e1, -⟩ := idx1_facts t
  funext a; apply Fin.ext
  match a with
  | ⟨0, _⟩ => show win1_2.index t (0 : Fin 2) * 1 + 1 * 0 = 0; omega
  | ⟨1, _⟩ => show win1_2.index t (1 : Fin 2) * 64 + 1 * q.val = q.val; omega

-- entry (p, q) of a block at point t is entry (10000 t + p, q) of its array, so the stored block is block t of biasArr
theorem flushed1 (A0 : Arr2 100000 64) (A1 : Arr2 100000 1) (A2 : Arr2 1 64) (t : Fin cfg1.N) :
    k1_pay1 (((cfg1.win 0).blk t).view.read (Elt Ideal) A0) (((cfg1.win 1).blk t).view.read (Elt Ideal) A1) (((cfg1.win 2).blk t).view.read (Elt Ideal) A2)
      = ((cfg1.win 3).blk t).view.read (Elt Ideal) (biasArr A0 A1 A2) := by
  funext j
  obtain ⟨p, q, rfl⟩ : ∃ (p : Fin 10000) (q : Fin 64), j = ix2 p q := ⟨j 0, j 1, eq_ix2 j⟩
  have hP : t.val * 10000 + p.val < 100000 := by have := lt_of_lt_of_eq t.isLt N_1; have := p.isLt; omega
  rw [pay1_at]
  show max (A0 (((cfg1.win 0).blk t).view.emb (ix2 p q)) * A1 (((cfg1.win 1).blk t).view.emb (ix2 p (0 : Fin 1))) + A2 (((cfg1.win 2).blk t).view.emb (ix2 (0 : Fin 1) q))) 0
    = biasArr A0 A1 A2 (((cfg1.win 0).blk t).view.emb (ix2 p q))
  rw [emb1_0 t p q hP, emb1_1 t p hP, emb1_2 t q, biasArr_apply]
  rfl

-- row r lies in the block of point r / 10000
theorem covered1 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 10000 := ⟨⟨_, by show _ < grid1.N; rw [N_1]; omega⟩, rfl⟩
  obtain ⟨-, -, -, -, -, -, e0, e1⟩ := idx1_facts t
  refine ⟨t, flush1_3 t, ?_⟩
  show i ∈ ((View.whole (Pipeline.arrRef spec1 3)).slice (win1_3.rect t)).set
  rw [View.set_slice_whole, Rect.mem_set_unit]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

theorem arr1 (c : Dev nD) : (dat1 (F := Ideal) V c).arrAt 3 cfg1.N
    = biasArr (V c (Pipeline.arrRef spec1 0)) (V c (Pipeline.arrRef spec1 1)) (V c (Pipeline.arrRef spec1 2)) :=
  (dat1 (F := Ideal) V c).arrAt_eq_of_cover 3 _ (fun t _ => by
    show (cfg1.win 3).cut (grid1.coords t) ((dat1 (F := Ideal) V c).after 3 t) = _
    dsimp only [dat1]
    exact flushed1 (V c (Pipeline.arrRef spec1 0)) (V c (Pipeline.arrRef spec1 1)) (V c (Pipeline.arrRef spec1 2)) t) covered1

end Cert.KernelIdeal.Val

end
-- ==== Proof.KI.Val2.lean ====
import proofs.«416900_j23630910063028_3_alg».proof.Proof.KI.R2
import proofs.«416900_j23630910063028_3_alg».proof.Proof.KI.Val0

noncomputable section

namespace Cert.KernelIdeal.Val

open Cert.KernelIdeal Cert.KernelIdeal.Gen Cert.KernelIdeal.Frame Cert.Spec
open Idealize.ShloMosaic Idealize.ShloMosaic.TcCoe Idealize.SL.Sem

variable (V : (c : Dev nD) → (b : Ref sig .tc) → Buf (Elt Ideal) ((c : Thread nD τ).loc b))

theorem arr2 (c : Dev nD) : (dat2 (F := Ideal) V c).arrAt 3 cfg2.N
    = mmArr (V c (Pipeline.arrRef spec2 0)) (V c (Pipeline.arrRef spec2 1)) (V c (Pipeline.arrRef spec2 2)) :=
  (dat2 (F := Ideal) V c).arrAt_eq_of_cover 3 _ (fun t _ => by
    show (cfg2.win 3).cut (grid2.coords t) ((dat2 (F := Ideal) V c).after 3 t) = _
    rw [(after2 V c t).2.2.2]
    exact flushed0 (V c (Pipeline.arrRef spec2 0)) (V c (Pipeline.arrRef spec2 1)) (V c (Pipeline.arrRef spec2 2)) t) covered0

end Cert.KernelIdeal.Val

end
-- ==== Proof.KI.Val3.lean ====
import proofs.«416900_j23630910063028_3_alg».proof.Proof.KI.R3
import proofs.«416900_j23630910063028_3_alg».proof.Proof.KI.Val1

noncomputable section

namespace Cert.KernelIdeal.Val

open Cert.KernelIdeal Cert.KernelIdeal.Gen Cert.KernelIdeal.Frame Cert.Spec
open Idealize.ShloMosaic Idealize.ShloMosaic.TcCoe Idealize.SL.Sem

variable (V : (c : Dev nD) → (b : Ref sig .tc) → Buf (Elt Ideal) ((c : Thread nD τ).loc b))

theorem arr3 (c : Dev nD) : (dat3 (F := Ideal) V c).arrAt 3 cfg3.N
    = biasArr (V c (Pipeline.arrRef spec3 0)) (V c (Pipeline.arrRef spec3 1)) (V c (Pipeline.arrRef spec3 2)) :=
  (dat3 (F := Ideal) V c).arrAt_eq_of_cover 3 _ (fun t _ => by
    show (cfg3.win 3).cut (grid3.coords t) ((dat3 (F := Ideal) V c).after 3 t) = _
    dsimp only [dat3]
    exact flushed1 (V c (Pipeline.arrRef spec3 0)) (V c (Pipeline.arrRef spec3 1)) (V c (Pipeline.arrRef spec3 2)) t) covered1

end Cert.KernelIdeal.Val

end
-- ==== Proof.KI.Val4.lean ====
import proofs.«416900_j23630910063028_3_alg».proof.Proof.KI.R4
import proofs.«416900_j23630910063028_3_alg».proof.Proof.KI.Val0

noncomputable section

namespace Cert.KernelIdeal.Val

open Cert.KernelIdeal Cert.KernelIdeal.Gen Cert.KernelIdeal.Frame Cert.Spec
open Idealize.ShloMosaic Idealize.ShloMosaic.TcCoe Idealize.SL.Sem

variable (V : (c : Dev nD) → (b : Ref sig .tc) → Buf (Elt Ideal) ((c : Thread nD τ).loc b))

theorem arr4 (c : Dev nD) : (dat4 (F := Ideal) V c).arrAt 3 cfg4.N
    = mmArr (V c (Pipeline.arrRef spec4 0)) (V c (Pipeline.arrRef spec4 1)) (V c (Pipeline.arrRef spec4 2)) :=
  (dat4 (F := Ideal) V c).arrAt_eq_of_cover 3 _ (fun t _ => by
    show (cfg4.win 3).cut (grid4.coords t) ((dat4 (F := Ideal) V c).after 3 t) = _
    rw [(after4 V c t).2.2.2]
    exact flushed0 (V c (Pipeline.arrRef spec4 0)) (V c (Pipeline.arrRef spec4 1)) (V c (Pipeline.arrRef spec4 2)) t) covered0

end Cert.KernelIdeal.Val

end
-- ==== Proof.KI.Val5.lean ====
import proofs.«416900_j23630910063028_3_alg».proof.Proof.KI.R5
import proofs.«416900_j23630910063028_3_alg».proof.Proof.KI.Val1

noncomputable section

namespace Cert.KernelIdeal.Val

open Cert.KernelIdeal Cert.KernelIdeal.Gen Cert.KernelIdeal.Frame Cert.Spec
open Idealize.ShloMosaic Idealize.ShloMosaic.TcCoe Idealize.SL.Sem

variable (V : (c : Dev nD) → (b : Ref sig .tc) → Buf (Elt Ideal) ((c : Thread nD τ).loc b))

theorem arr5 (c : Dev nD) : (dat5 (F := Ideal) V c).arrAt 3 cfg5.N
    = biasArr (V c (Pipeline.arrRef spec5 0)) (V c (Pipeline.arrRef spec5 1)) (V c (Pipeline.arrRef spec5 2)) :=
  (dat5 (F := Ideal) V c).arrAt_eq_of_cover 3 _ (fun t _ => by
    show (cfg5.win 3).cut (grid5.coords t) ((dat5 (F := Ideal) V c).after 3 t) = _
    dsimp only [dat5]
    exact flushed1 (V c (Pipeline.arrRef spec5 0)) (V c (Pipeline.arrRef spec5 1)) (V c (Pipeline.arrRef spec5 2)) t) covered1

end Cert.KernelIdeal.Val

end
-- ==== Proof.KI.R6Eq.lean ====
import proofs.«416900_j23630910063028_3_alg».proof.Proof.KI.R6

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem sAt6_zero_eq (c : Dev nD) (hn : 0 < cfg6.N) :
    sAt6 V c 0 hn = acc6 (iblk6 V c 0 ⟨0, hn⟩) (iblk6 V c 1 ⟨0, hn⟩) (iblk6 V c 2 ⟨0, hn⟩) (iblk6 V c 3 ⟨0, hn⟩) zero6 := rfl

theorem sAt6_succ_eq (c : Dev nD) (n : ℕ) (hn : n + 1 < cfg6.N) :
    sAt6 V c (n + 1) hn = acc6 (iblk6 V c 0 ⟨n + 1, hn⟩) (iblk6 V c 1 ⟨n + 1, hn⟩) (iblk6 V c 2 ⟨n + 1, hn⟩) (iblk6 V c 3 ⟨n + 1, hn⟩) (sAt6 V c n (Nat.lt_of_succ_lt hn)) := rfl

end Cert.KernelIdeal.Frame

end
-- ==== Proof.KI.Val6Pay.lean ====
import proofs.«416900_j23630910063028_3_alg».proof.Proof.Gen.KernelIdeal.Skeleton
import proofs.«416900_j23630910063028_3_alg».proof.Proof.Spec
import Idealize.ShloMosaic.Lib.Pipeline.Value
import Idealize.ShloMosaic.Lib.ValueIdx
import Idealize.ShloMosaic.Lib.StableHlo.Predicate
import Idealize.ShloMosaic.PureOps.Ideal.Laws
import Idealize.ShloMosaic.PureOps.IdealRules

noncomputable section
namespace Cert.KernelIdeal.Val

open Cert.KernelIdeal Cert.KernelIdeal.Gen Cert.Spec
open Idealize.ShloMosaic Idealize.ShloMosaic.TcCoe Idealize.SL.Sem Idealize.ShloMosaic.ValueIdx
open scoped BigOperators

def hotB (id : Vec Ideal S5000x1 .i32) (i : Fin 5000) (g : Fin 128) : EReal :=
  if id (ix2 i (0 : Fin 1)) = BitVec.ofNat 32 g.val then 1 else 0

theorem bcolW_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem sitofp_one : FloatOps.sitofp (F := Ideal) .f32 ((1#1 : BitVec 1).setWidth 32) = 1 := by
  show (((((1#1 : BitVec 1).setWidth 32).toInt : ℝ)) : EReal) = 1
  rw [show ((1#1 : BitVec 1).setWidth 32).toInt = 1 from by decide]
  norm_num
theorem sitofp_zero : FloatOps.sitofp (F := Ideal) .f32 ((0#1 : BitVec 1).setWidth 32) = 0 := by
  show (((((0#1 : BitVec 1).setWidth 32).toInt : ℝ)) : EReal) = 0
  rw [show ((0#1 : BitVec 1).setWidth 32).toInt = 0 from by decide]
  norm_num

theorem oh_apply (id : Vec Ideal S5000x1 .i32) (i : Fin 5000) (g : Fin 128) :
    k6_pay11 (F := Ideal) id (ix2 i g) = hotB id i g := by
  unfold k6_pay11 hotB
  simp only [shapeCast_self]
  rw [truncf_apply, sitofp_apply, extui_apply]
  show FloatOps.sitofp .f32 ((IntOp.cmpi .eq (iota .tc S5000x128 32 [1] iota_S5000x128_d1_w32 (ix2 i g))
      (broadcastTo S5000x128 id broadcasts_S5000x1_S5000x128 (ix2 i g))).setWidth 32) = _
  rw [iota_single_apply, bcolW_apply]
  show FloatOps.sitofp (F := Ideal) .f32 ((IntOp.cmpi .eq (BitVec.ofNat 32 g.val) (id (ix2 i (0 : Fin 1)))).setWidth 32) = _
  by_cases h : id (ix2 i (0 : Fin 1)) = BitVec.ofNat 32 g.val
  · rw [if_pos h, StableHlo.Predicate.cmpi_eq_iff.mpr h.symm, sitofp_one]
  · rw [if_neg h, eq_zero_of_ne_one (fun hc => h (StableHlo.Predicate.cmpi_eq_iff.mp hc).symm), sitofp_zero]

-- A product contracting one axis of extent n, at an output index, with the two operand indices named coordinate by coordinate.
theorem mm_apply {sl sr so : Shape} {φ₁ φ₂ : FTy} (d : DotDims sl sr so) (n : ℕ) (hr : d.contr.rank = 1) (hs : d.contr.size ⟨0, by omega⟩ = n)
    (lhs : FVec Ideal sl φ₁) (rhs : FVec Ideal sr φ₂) (acc : FVec Ideal so .f32) (j : so.Idx) (L : Fin n → sl.Idx) (R : Fin n → sr.Idx)
    (hl : ∀ k, d.lhsIdx j ((contrEquiv1 d n hr hs).symm k) = L k) (hr' : ∀ k, d.rhsIdx j ((contrEquiv1 d n hr hs).symm k) = R k) :
    matmul (F := Ideal) d none lhs rhs acc j = acc j + ∑ k : Fin n, lhs (L k) * rhs (R k) := by
  simp only [matmul]
  rw [Ideal.matmul_apply, ← Equiv.sum_comp (contrEquiv1 d n hr hs).symm]
  exact congrArg (acc j + ·) (Finset.sum_congr rfl fun k _ => by rw [hl k, hr' k])

theorem mm64_apply (oh : FVec Ideal S5000x128 .bf16) (x : FVec Ideal S5000x64 .bf16) (acc : FVec Ideal S128x64 .f32)
    (g : Fin 128) (f : Fin 64) :
    matmul (F := Ideal) dot_S5000x128_S5000x64_S128x64_0_0_1_1_n_n none oh x acc (ix2 g f) = acc (ix2 g f) + ∑ i : Fin 5000, oh (ix2 i g) * x (ix2 i f) :=
  mm_apply _ 5000 rfl rfl oh x acc _ (fun k => ix2 k g) (fun k => ix2 k f)
    (fun k => Shape.idx_ext₂ ((DotDims.lhsIdx_val_of_single _ rfl _ _).trans (contrEquiv1_symm_val _ 5000 rfl rfl k)) (by unfold DotDims.lhsIdx; rw [dif_neg, dif_pos]; rfl; all_goals decide))
    (fun k => Shape.idx_ext₂ ((DotDims.rhsIdx_val_of_single _ rfl _ _).trans (contrEquiv1_symm_val _ 5000 rfl rfl k)) (by unfold DotDims.rhsIdx; rw [dif_neg, dif_pos]; rfl; all_goals decide))

theorem mm1_apply (oh : FVec Ideal S5000x128 .bf16) (x : FVec Ideal S5000x1 .bf16) (acc : FVec Ideal S128x1 .f32)
    (g : Fin 128) :
    matmul (F := Ideal) dot_S5000x128_S5000x1_S128x1_0_0_1_1_n_n none oh x acc (ix2 g (0 : Fin 1)) = acc (ix2 g (0 : Fin 1)) + ∑ i : Fin 5000, oh (ix2 i g) * x (ix2 i (0 : Fin 1)) :=
  mm_apply _ 5000 rfl rfl oh x acc _ (fun k => ix2 k g) (fun k => ix2 k (0 : Fin 1))
    (fun k => Shape.idx_ext₂ ((DotDims.lhsIdx_val_of_single _ rfl _ _).trans (contrEquiv1_symm_val _ 5000 rfl rfl k)) (by unfold DotDims.lhsIdx; rw [dif_neg, dif_pos]; rfl; all_goals decide))
    (fun k => Shape.idx_ext₂ ((DotDims.rhsIdx_val_of_single _ rfl _ _).trans (contrEquiv1_symm_val _ 5000 rfl rfl k)) (by unfold DotDims.rhsIdx; rw [dif_neg, dif_pos]; rfl; all_goals decide))

theorem zero64_apply (j : S128x64.Idx) : constant (F := Ideal) S128x64 .f32 0x00000000#32 j = 0 := by
  rw [constant_apply, Ideal.ofBits_zero_f32]
theorem zero1_apply (j : S128x1.Idx) : constant (F := Ideal) S128x1 .f32 0x00000000#32 j = 0 := by
  rw [constant_apply, Ideal.ofBits_zero_f32]

theorem pay12_apply (x : Vec Ideal S5000x64 .f32) (id : Vec Ideal S5000x1 .i32) (acc : Vec Ideal S128x64 .f32)
    (g : Fin 128) (f : Fin 64) :
    k6_pay12 (F := Ideal) x id acc (ix2 g f) = acc (ix2 g f) + ∑ i : Fin 5000, hotB id i g * x (ix2 i f) := by
  unfold k6_pay12
  simp only [shapeCast_self]
  rw [addf_apply, mm64_apply, zero64_apply, zero_add]
  refine congrArg (acc (ix2 g f) + ·) (Finset.sum_congr rfl fun i _ => ?_)
  rw [oh_apply, truncf_apply]

theorem pay13_apply (x : Vec Ideal S5000x64 .f32) (id : Vec Ideal S5000x1 .i32) (acc : Vec Ideal S128x64 .f32)
    (g : Fin 128) (f : Fin 64) :
    k6_pay13 (F := Ideal) x id acc (ix2 g f) = acc (ix2 g f) + ∑ i : Fin 5000, hotB id i g * x (ix2 i f) :=
  pay12_apply x id acc g f

theorem pay1_apply (x : Vec Ideal S5000x64 .f32) (id : Vec Ideal S5000x1 .i32) (acc : Vec Ideal S128x64 .f32)
    (g : Fin 128) (f : Fin 64) :
    k6_pay1 (F := Ideal) (k6_pay10 x) (k6_pay11 id) acc (constant S128x64 .f32 0x00000000#32) (ix2 g f)
      = acc (ix2 g f) + ∑ i : Fin 5000, hotB id i g * x (ix2 i f) :=
  pay12_apply x id acc g f

theorem payCount_apply (id : Vec Ideal S5000x1 .i32) (acc : Vec Ideal S128x1 .f32) (g : Fin 128) :
    k6_pay2 (F := Ideal) (k6_pay11 id) acc (ix2 g (0 : Fin 1)) = acc (ix2 g (0 : Fin 1)) + ∑ i : Fin 5000, hotB id i g * 1 := by
  unfold k6_pay2
  simp only [shapeCast_self]
  rw [addf_apply, mm1_apply, zero1_apply, zero_add]
  refine congrArg (acc (ix2 g (0 : Fin 1)) + ·) (Finset.sum_congr rfl fun i _ => ?_)
  rw [oh_apply, broadcast_apply]
  show _ * Ideal.ofBits .bf16 0x3F80#16 = _
  rw [show Ideal.ofBits .bf16 0x3F80#16 = 1 from IdealRules.sign_bit.ideal_onePat .bf16]

theorem pay6_apply (j : S128x64.Idx) : k6_pay6 (F := Ideal) j = 0 := by
  unfold k6_pay6; simp only [shapeCast_self]; rw [broadcast_apply]; exact Ideal.ofBits_zero_f32
theorem pay7_apply (j : S128x64.Idx) : k6_pay7 (F := Ideal) j = 0 := pay6_apply j
theorem pay8_apply (j : S128x64.Idx) : k6_pay8 (F := Ideal) j = 0 := pay6_apply j
theorem pay9_apply (j : S128x1.Idx) : k6_pay9 (F := Ideal) j = 0 := by
  unfold k6_pay9; simp only [shapeCast_self]; rw [broadcast_apply]; exact Ideal.ofBits_zero_f32

end Cert.KernelIdeal.Val
end
-- ==== Proof.KI.Val6Acc.lean ====
import proofs.«416900_j23630910063028_3_alg».proof.Proof.KI.R6Eq
import proofs.«416900_j23630910063028_3_alg».proof.Proof.KI.Val6Pay
import Idealize.ShloMosaic.Lib.Pipeline.Value
import Idealize.ShloMosaic.Lib.ValueIdx
import Mathlib.Algebra.BigOperators.Fin
import Mathlib.Algebra.BigOperators.Intervals

noncomputable section

namespace Cert.KernelIdeal.Val

open Cert.KernelIdeal Cert.KernelIdeal.Gen Cert.KernelIdeal.Frame Cert.Spec
open Idealize.ShloMosaic Idealize.ShloMosaic.TcCoe Idealize.SL.Sem Idealize.ShloMosaic.ValueIdx
open Idealize.ShloMosaic.Pipeline (Dat)
open scoped BigOperators

def ext (φ : Fin 100000 → EReal) (i : ℕ) : EReal := if h : i < 100000 then φ ⟨i, h⟩ else 0

theorem sum_eq_range (φ : Fin 100000 → EReal) : ∑ i, φ i = ∑ i ∈ Finset.range 100000, ext φ i := by
  rw [← Fin.sum_univ_eq_sum_range (ext φ) 100000]
  refine Finset.sum_congr rfl fun i _ => ?_
  unfold ext
  rw [dif_pos i.isLt]

def rowIdx (n : ℕ) (hn : n < 20) (i : Fin 5000) : Fin 100000 := ⟨5000 * n + i.val, by have := i.isLt; omega⟩

-- The sum to the end of block n is the sum to its start plus the block's 5000 terms.
theorem step (φ : Fin 100000 → EReal) (ψ : Fin 5000 → EReal) (n : ℕ) (hn : n < 20) (h : ∀ i, ψ i = φ (rowIdx n hn i))
    (a : EReal) (ha : a = ∑ i ∈ Finset.range (5000 * n), ext φ i) :
    a + ∑ i, ψ i = ∑ i ∈ Finset.range (5000 * (n + 1)), ext φ i := by
  rw [ha, show 5000 * (n + 1) = 5000 * n + 5000 from by ring, Finset.sum_range_add,
    ← Fin.sum_univ_eq_sum_range (fun i => ext φ (5000 * n + i)) 5000]
  refine congrArg (_ + ·) (Finset.sum_congr rfl fun i _ => ?_)
  have hlt : 5000 * n + i.val < 100000 := by have := i.isLt; omega
  unfold ext
  rw [h, dif_pos hlt]
  rfl

variable (V : (c : Dev nD) → (b : Ref sig .tc) → Buf (Elt Ideal) ((c : Thread nD τ).loc b))

abbrev y1Of (c : Dev nD) : Arr2 100000 64 := V c (Pipeline.arrRef spec6 0)
abbrev y2Of (c : Dev nD) : Arr2 100000 64 := V c (Pipeline.arrRef spec6 1)
abbrev y3Of (c : Dev nD) : Arr2 100000 64 := V c (Pipeline.arrRef spec6 2)
abbrev btOf (c : Dev nD) : IdCol := V c (Pipeline.arrRef spec6 3)
abbrev w1Of (c : Dev nD) : Arr2 64 10 := V c (Pipeline.arrRef spec6 4)
abbrev w2Of (c : Dev nD) : Arr2 64 10 := V c (Pipeline.arrRef spec6 5)
abbrev w3Of (c : Dev nD) : Arr2 64 10 := V c (Pipeline.arrRef spec6 6)
abbrev bOf (c : Dev nD) : Arr2 1 10 := V c (Pipeline.arrRef spec6 7)

theorem idxRows6 : ∀ t : Fin grid6.N, win6_0.index t 0 = t.val ∧ win6_0.index t 1 = 0 ∧ win6_1.index t 0 = t.val ∧ win6_1.index t 1 = 0
    ∧ win6_2.index t 0 = t.val ∧ win6_2.index t 1 = 0 ∧ win6_3.index t 0 = t.val ∧ win6_3.index t 1 = 0 := by decide +kernel
theorem idxFixed6 : ∀ t : Fin grid6.N, win6_4.index t 0 = 0 ∧ win6_4.index t 1 = 0 ∧ win6_5.index t 0 = 0 ∧ win6_5.index t 1 = 0
    ∧ win6_6.index t 0 = 0 ∧ win6_6.index t 1 = 0 ∧ win6_7.index t 0 = 0 ∧ win6_7.index t 1 = 0
    ∧ win6_8.index t 0 = 0 ∧ win6_8.index t 1 = 0 := by decide +kernel

theorem lt20 (t : Fin cfg6.N) : t.val < 20 := lt_of_lt_of_eq t.isLt N_6

theorem blk0_apply (c : Dev nD) (t : Fin cfg6.N) (i : Fin 5000) (f : Fin 64) :
    (iblk6 V c 0 t : Vec Ideal S5000x64 .f32) (ix2 i f) = y1Of V c (ix2 (rowIdx t.val (lt20 t) i) f) := by
  have := idxRows6 t
  refine congrArg (V c (Pipeline.arrRef spec6 0)) (funext fun a => Fin.ext ?_)
  match a with
  | ⟨0, _⟩ => show win6_0.index t 0 * 5000 + 1 * i.val = 5000 * t.val + i.val; omega
  | ⟨1, _⟩ => show win6_0.index t 1 * 64 + 1 * f.val = f.val; omega

theorem blk1_apply (c : Dev nD) (t : Fin cfg6.N) (i : Fin 5000) (f : Fin 64) :
    (iblk6 V c 1 t : Vec Ideal S5000x64 .f32) (ix2 i f) = y2Of V c (ix2 (rowIdx t.val (lt20 t) i) f) := by
  have := idxRows6 t
  refine congrArg (V c (Pipeline.arrRef spec6 1)) (funext fun a => Fin.ext ?_)
  match a with
  | ⟨0, _⟩ => show win6_1.index t 0 * 5000 + 1 * i.val = 5000 * t.val + i.val; omega
  | ⟨1, _⟩ => show win6_1.index t 1 * 64 + 1 * f.val = f.val; omega

theorem blk2_apply (c : Dev nD) (t : Fin cfg6.N) (i : Fin 5000) (f : Fin 64) :
    (iblk6 V c 2 t : Vec Ideal S5000x64 .f32) (ix2 i f) = y3Of V c (ix2 (rowIdx t.val (lt20 t) i) f) := by
  have := idxRows6 t
  refine congrArg (V c (Pipeline.arrRef spec6 2)) (funext fun a => Fin.ext ?_)
  match a with
  | ⟨0, _⟩ => show win6_2.index t 0 * 5000 + 1 * i.val = 5000 * t.val + i.val; omega
  | ⟨1, _⟩ => show win6_2.index t 1 * 64 + 1 * f.val = f.val; omega

theorem blk3_apply (c : Dev nD) (t : Fin cfg6.N) (i : Fin 5000) :
    (iblk6 V c 3 t : Vec Ideal S5000x1 .i32) (ix2 i (0 : Fin 1)) = btOf V c (ix2 (rowIdx t.val (lt20 t) i) (0 : Fin 1)) := by
  have := idxRows6 t
  refine congrArg (V c (Pipeline.arrRef spec6 3)) (funext fun a => Fin.ext ?_)
  match a with
  | ⟨0, _⟩ => show win6_3.index t 0 * 5000 + 1 * i.val = 5000 * t.val + i.val; omega
  | ⟨1, _⟩ => show win6_3.index t 1 * 1 + 1 * 0 = 0; omega

theorem blk4_eq (c : Dev nD) (t : Fin cfg6.N) : (iblk6 V c 4 t : Vec Ideal S64x10 .f32) = w1Of V c := by
  have := idxFixed6 t
  funext j
  refine congrArg (V c (Pipeline.arrRef spec6 4)) (funext fun a => Fin.ext ?_)
  match a with
  | ⟨0, _⟩ => show win6_4.index t 0 * 64 + 1 * (j 0).val = (j 0).val; omega
  | ⟨1, _⟩ => show win6_4.index t 1 * 10 + 1 * (j 1).val = (j 1).val; omega
theorem blk5_eq (c : Dev nD) (t : Fin cfg6.N) : (iblk6 V c 5 t : Vec Ideal S64x10 .f32) = w2Of V c := by
  have := idxFixed6 t
  funext j
  refine congrArg (V c (Pipeline.arrRef spec6 5)) (funext fun a => Fin.ext ?_)
  match a with
  | ⟨0, _⟩ => show win6_5.index t 0 * 64 + 1 * (j 0).val = (j 0).val; omega
  | ⟨1, _⟩ => show win6_5.index t 1 * 10 + 1 * (j 1).val = (j 1).val; omega
theorem blk6_eq (c : Dev nD) (t : Fin cfg6.N) : (iblk6 V c 6 t : Vec Ideal S64x10 .f32) = w3Of V c := by
  have := idxFixed6 t
  funext j
  refine congrArg (V c (Pipeline.arrRef spec6 6)) (funext fun a => Fin.ext ?_)
  match a with
  | ⟨0, _⟩ => show win6_6.index t 0 * 64 + 1 * (j 0).val = (j 0).val; omega
  | ⟨1, _⟩ => show win6_6.index t 1 * 10 + 1 * (j 1).val = (j 1).val; omega
theorem blk7_eq (c : Dev nD) (t : Fin cfg6.N) : (iblk6 V c 7 t : Vec Ideal S1x10 .f32) = bOf V c := by
  have := idxFixed6 t
  funext j
  refine congrArg (V c (Pipeline.arrRef spec6 7)) (funext fun a => Fin.ext ?_)
  match a with
  | ⟨0, _⟩ => show win6_7.index t 0 * 1 + 1 * (j 0).val = (j 0).val; omega
  | ⟨1, _⟩ => show win6_7.index t 1 * 10 + 1 * (j 1).val = (j 1).val; omega

-- An accumulator that starts at the first block's sum and adds one block's sum a point is the range sum to the point's end.
theorem fold_eq (φ : Fin 100000 → EReal) (a : (n : ℕ) → n < cfg6.N → EReal) (ψ : Fin cfg6.N → Fin 5000 → EReal)
    (hψ : ∀ t i, ψ t i = φ (rowIdx t.val (lt20 t) i))
    (h0 : ∀ hn, a 0 hn = 0 + ∑ i, ψ ⟨0, hn⟩ i)
    (hs : ∀ n hn, a (n + 1) hn = a n (Nat.lt_of_succ_lt hn) + ∑ i, ψ ⟨n + 1, hn⟩ i) :
    ∀ n hn, a n hn = ∑ i ∈ Finset.range (5000 * (n + 1)), ext φ i
  | 0, hn => (h0 hn).trans (step φ _ 0 (by decide) (hψ ⟨0, hn⟩) 0 (by rw [Nat.mul_zero, Finset.range_zero, Finset.sum_empty]))
  | n + 1, hn => (hs n hn).trans (step φ _ (n + 1) (lt20 ⟨n + 1, hn⟩) (hψ ⟨n + 1, hn⟩) _ (fold_eq φ a ψ hψ h0 hs n _))

theorem acc1_last (c : Dev nD) (n : ℕ) (hn : n < cfg6.N) (h : n = 19) (g : Fin 128) (f : Fin 64) :
    (sAt6 V c n hn).1 (ix2 g f) = segSum (y1Of V c) (btOf V c) g f := by
  subst h
  rw [segSum, sum_eq_range]
  exact fold_eq _ (fun n hn => (sAt6 V c n hn).1 (ix2 g f)) (fun t i => hotB (iblk6 V c 3 t) i g * iblk6 V c 0 t (ix2 i f))
    (fun t i => by unfold hotB hot; rw [blk0_apply, blk3_apply])
    (fun hn => by rw [sAt6_zero_eq]; dsimp only [acc6, zero6]; rw [pay12_apply, pay6_apply])
    (fun n hn => by rw [sAt6_succ_eq]; dsimp only [acc6]; rw [pay12_apply]) 19 hn
theorem acc2_last (c : Dev nD) (n : ℕ) (hn : n < cfg6.N) (h : n = 19) (g : Fin 128) (f : Fin 64) :
    (sAt6 V c n hn).2.1 (ix2 g f) = segSum (y2Of V c) (btOf V c) g f := by
  subst h
  rw [segSum, sum_eq_range]
  exact fold_eq _ (fun n hn => (sAt6 V c n hn).2.1 (ix2 g f)) (fun t i => hotB (iblk6 V c 3 t) i g * iblk6 V c 1 t (ix2 i f))
    (fun t i => by unfold hotB hot; rw [blk1_apply, blk3_apply])
    (fun hn => by rw [sAt6_zero_eq]; dsimp only [acc6, zero6]; rw [pay13_apply, pay7_apply])
    (fun n hn => by rw [sAt6_succ_eq]; dsimp only [acc6]; rw [pay13_apply]) 19 hn
theorem acc3_last (c : Dev nD) (n : ℕ) (hn : n < cfg6.N) (h : n = 19) (g : Fin 128) (f : Fin 64) :
    (sAt6 V c n hn).2.2.1 (ix2 g f) = segSum (y3Of V c) (btOf V c) g f := by
  subst h
  rw [segSum, sum_eq_range]
  exact fold_eq _ (fun n hn => (sAt6 V c n hn).2.2.1 (ix2 g f)) (fun t i => hotB (iblk6 V c 3 t) i g * iblk6 V c 2 t (ix2 i f))
    (fun t i => by unfold hotB hot; rw [blk2_apply, blk3_apply])
    (fun hn => by rw [sAt6_zero_eq]; dsimp only [acc6, zero6]; rw [pay1_apply, pay8_apply])
    (fun n hn => by rw [sAt6_succ_eq]; dsimp only [acc6]; rw [pay1_apply]) 19 hn
theorem accN_last (c : Dev nD) (n : ℕ) (hn : n < cfg6.N) (h : n = 19) (g : Fin 128) :
    (sAt6 V c n hn).2.2.2 (ix2 g (0 : Fin 1)) = segCnt (btOf V c) g := by
  subst h
  rw [segCnt, sum_eq_range]
  exact fold_eq _ (fun n hn => (sAt6 V c n hn).2.2.2 (ix2 g (0 : Fin 1))) (fun t i => hotB (iblk6 V c 3 t) i g * 1)
    (fun t i => by unfold hotB hot; rw [blk3_apply])
    (fun hn => by rw [sAt6_zero_eq]; dsimp only [acc6, zero6]; rw [payCount_apply, pay9_apply])
    (fun n hn => by rw [sAt6_succ_eq]; dsimp only [acc6]; rw [payCount_apply]) 19 hn

end Cert.KernelIdeal.Val

end
-- ==== Proof.KI.Val6Last.lean ====
import proofs.«416900_j23630910063028_3_alg».proof.Proof.Gen.KernelIdeal.Skeleton
import proofs.«416900_j23630910063028_3_alg».proof.Proof.Spec
import proofs.«416900_j23630910063028_3_alg».proof.Proof.KI.Val6Pay
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.KernelIdeal.Val

open Cert.KernelIdeal Cert.KernelIdeal.Gen Cert.Spec
open Idealize.ShloMosaic Idealize.ShloMosaic.ValueIdx

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem lift_lane {a b : ℕ} (h : (⟨2, ![a, b]⟩ : Shape).Reduces [1] ⟨1, ![a]⟩) (g : Fin a) (k : Fin b) :
    h.lift (ix1 g) k = ix2 g k := by
  funext c
  match c with
  | ⟨0, _⟩ => exact Fin.ext rfl
  | ⟨1, _⟩ => exact Fin.ext rfl

end Layout

theorem laneSum_apply (v : FVec Ideal S128x10 .f32) (hacc : (0x00000000#32 : BitVec 32) = 0x00000000#32) (g : Fin 128) :
    multiReduction (F := Ideal) .add [1] S128 v 0x00000000#32 reduces_S128x10_S128 (.inl rfl) hacc (ix1 g)
      = ∑ k : Fin 10, v (ix2 g k) := by
  refine (Ideal.multiReduction_add_single v 0x00000000#32 reduces_S128x10_S128 (.inl rfl) hacc (ix1 g)).trans ?_
  exact Finset.sum_congr rfl fun k _ => congrArg v (lift_lane _ g k)

theorem ofBits_negInf_f32 : Ideal.ofBits .f32 0xFF800000#32 = ⊥ := by simp [Ideal.ofBits, Ideal.ieee]

theorem laneMax_apply (v : FVec Ideal S128x10 .f32) (hacc : (0xFF800000#32 : BitVec 32) = 0xFF800000#32) (g : Fin 128) :
    multiReduction (F := Ideal) .maximumf [1] S128 v 0xFF800000#32 reduces_S128x10_S128 (.inl rfl) hacc (ix1 g)
      = Finset.univ.sup fun k : Fin 10 => v (ix2 g k) := by
  refine (Ideal.multiReduction_maximumf_single v 0xFF800000#32 reduces_S128x10_S128 (.inl rfl) hacc (ix1 g)).trans ?_
  have hf : (v ∘ reduces_S128x10_S128.lift (ix1 g)) = fun k : Fin 10 => v (ix2 g k) :=
    funext fun k => congrArg v (lift_lane _ g k)
  rw [hf]
  show Finset.fold max (Ideal.ofBits .f32 0xFF800000#32) (fun k : Fin 10 => v (ix2 g k)) Finset.univ = _
  rw [ofBits_negInf_f32]
  rfl

theorem matmul_entry {φ₁ φ₂ : FTy} (lhs : FVec Ideal S128x64 φ₁) (rhs : FVec Ideal S64x10 φ₂) (g : Fin 128) (k : Fin 10) :
    matmul dot_S128x64_S64x10_S128x10_1_0_0_1_n_n none lhs rhs (constant (F := Ideal) S128x10 .f32 0x00000000#32) (ix2 g k)
      = ∑ f : Fin 64, lhs (ix2 g f) * rhs (ix2 f k) := by
  rw [mm_apply _ 64 rfl rfl lhs rhs _ _ (fun f => ix2 g f) (fun f => ix2 f k)
    (fun f => Shape.idx_ext₂ (by unfold DotDims.lhsIdx; rw [dif_neg, dif_pos]; rfl; all_goals decide) ((DotDims.lhsIdx_val_of_single _ rfl _ _).trans (contrEquiv1_symm_val _ 64 rfl rfl f)))
    (fun f => Shape.idx_ext₂ ((DotDims.rhsIdx_val_of_single _ rfl _ _).trans (contrEquiv1_symm_val _ 64 rfl rfl f)) (by unfold DotDims.rhsIdx; rw [dif_neg, dif_pos]; rfl; all_goals decide)),
    constant_apply, Ideal.ofBits_zero_f32, zero_add]

theorem meanProd_entry (cnt : FVec Ideal S128x1 .f32) (s : FVec Ideal S128x64 .f32) (w : FVec Ideal S64x10 .f32)
    (g : Fin 128) (k : Fin 10) :
    matmul dot_S128x64_S64x10_S128x10_1_0_0_1_n_n none
        (truncf .bf16
          (divf s (broadcastTo S128x64 (maximumf cnt (broadcast S128x1 (Scalar.ofBits (F := Ideal) .f32 0x3F800000#32)))
            broadcasts_S128x1_S128x64))
          bitsLt_bf16_f32)
        (truncf .bf16 (shapeCast S64x10 w shapeCasts_S64x10_S64x10) bitsLt_bf16_f32)
        (constant (F := Ideal) S128x10 .f32 0x00000000#32) (ix2 g k)
      = ∑ f : Fin 64, Ideal.div (s (ix2 g f)) (max (cnt (ix2 g 0)) 1) * w (ix2 f k) := by
  refine (matmul_entry _ _ g k).trans ?_
  refine Finset.sum_congr rfl fun f _ => ?_
  refine congrArg₂ (· * ·) ?_ ?_
  · show Ideal.div (s (ix2 g f))
        (broadcastTo S128x64 (maximumf cnt (broadcast S128x1 (Scalar.ofBits (F := Ideal) .f32 0x3F800000#32)))
          broadcasts_S128x1_S128x64 (ix2 g f)) = _
    refine congrArg (Ideal.div _) ?_
    refine (bcolW_apply _ _ g f).trans ?_
    show max (cnt (ix2 g 0)) (Ideal.ofBits .f32 0x3F800000#32) = _
    rw [Ideal.ofBits_one_f32]
  · show shapeCast S64x10 w shapeCasts_S64x10_S64x10 (ix2 f k) = _
    rw [shapeCast_self]

theorem logits_apply (cnt : Vec Ideal S128x1 .f32) (s1 s2 s3 : Vec Ideal S128x64 .f32) (w1 w2 w3 : Vec Ideal S64x10 .f32)
    (b : Vec Ideal S1x10 .f32) (g : Fin 128) (k : Fin 10) :
    k6_pay4 (F := Ideal) cnt s1 s2 s3 w1 w2 w3 b (ix2 g k)
      = ((∑ f : Fin 64, Ideal.div (s1 (ix2 g f)) (max (cnt (ix2 g 0)) 1) * w1 (ix2 f k))
          + (∑ f : Fin 64, Ideal.div (s2 (ix2 g f)) (max (cnt (ix2 g 0)) 1) * w2 (ix2 f k)))
        + (∑ f : Fin 64, Ideal.div (s3 (ix2 g f)) (max (cnt (ix2 g 0)) 1) * w3 (ix2 f k)) + b (ix2 0 k) := by
  unfold k6_pay4
  refine (addf_apply _ _ _).trans ?_
  refine congrArg₂ (· + ·) ?_ ?_
  · refine (addf_apply _ _ _).trans ?_
    refine congrArg₂ (· + ·) ?_ (meanProd_entry cnt s3 w3 g k)
    refine (addf_apply _ _ _).trans ?_
    exact congrArg₂ (· + ·) (meanProd_entry cnt s1 w1 g k) (meanProd_entry cnt s2 w2 g k)
  · refine (broadcastTo_1b_ab_apply _ _ g k).trans ?_
    rw [shapeCast_self]

theorem rowmax_apply (cnt : Vec Ideal S128x1 .f32) (s1 s2 s3 : Vec Ideal S128x64 .f32) (w1 w2 w3 : Vec Ideal S64x10 .f32)
    (b : Vec Ideal S1x10 .f32) (g : Fin 128) (k : Fin 10) :
    k6_pay5 (F := Ideal) cnt s1 s2 s3 w1 w2 w3 b (ix2 g k)
      = Finset.univ.sup fun k' : Fin 10 => k6_pay4 (F := Ideal) cnt s1 s2 s3 w1 w2 w3 b (ix2 g k') := by
  unfold k6_pay5
  refine (bcolW_apply _ _ g k).trans ?_
  refine (shapeCast_a_a1_apply _ _ g 0).trans ?_
  refine (maximumf_apply _ _ _).trans ?_
  refine (congrArg (max _) (laneMax_apply _ _ g)).trans ?_
  show max (Ideal.ofBits .f32 0xFF800000#32) _ = _
  rw [ofBits_negInf_f32]
  exact max_bot_left _

theorem softmax_apply (l mx : Vec Ideal S128x10 .f32) (g : Fin 128) (k : Fin 10) :
    k6_pay3 (F := Ideal) l mx (ix2 g k)
      = Ideal.div (Ideal.exp (l (ix2 g k) - mx (ix2 g k))) (∑ k'' : Fin 10, Ideal.exp (l (ix2 g k'') - mx (ix2 g k''))) := by
  unfold k6_pay3
  refine (divf_apply _ _ _).trans ?_
  refine congrArg (Ideal.div _) ?_
  refine (bcolW_apply _ _ g k).trans ?_
  refine (shapeCast_a_a1_apply _ _ g 0).trans ?_
  exact laneSum_apply _ _ g

theorem lastPoint_eq (y1 y2 y3 : Arr2 100000 64) (bt : (⟨2, ![100000, 1]⟩ : Shape).Idx → BitVec 32)
    (cnt : Vec Ideal S128x1 .f32) (s1 s2 s3 : Vec Ideal S128x64 .f32) (w1 w2 w3 : Vec Ideal S64x10 .f32)
    (b : Vec Ideal S1x10 .f32)
    (h1 : ∀ (g : Fin 128) (f : Fin 64), s1 (ix2 g f) = segSum y1 bt g f)
    (h2 : ∀ (g : Fin 128) (f : Fin 64), s2 (ix2 g f) = segSum y2 bt g f)
    (h3 : ∀ (g : Fin 128) (f : Fin 64), s3 (ix2 g f) = segSum y3 bt g f)
    (hc : ∀ g : Fin 128, cnt (ix2 g 0) = segCnt bt g) (g : Fin 128) (k : Fin 10) :
    k6_pay3 (F := Ideal) (k6_pay4 (F := Ideal) cnt s1 s2 s3 w1 w2 w3 b) (k6_pay5 (F := Ideal) cnt s1 s2 s3 w1 w2 w3 b) (ix2 g k)
      = poolAt y1 y2 y3 bt w1 w2 w3 b g k := by
  have hl : ∀ k' : Fin 10, k6_pay4 (F := Ideal) cnt s1 s2 s3 w1 w2 w3 b (ix2 g k') = logitAt y1 y2 y3 bt w1 w2 w3 b g k' := by
    intro k'
    rw [logits_apply]
    unfold logitAt meanAt
    simp only [h1, h2, h3, hc]
  have hm : ∀ k' : Fin 10, k6_pay5 (F := Ideal) cnt s1 s2 s3 w1 w2 w3 b (ix2 g k')
      = Finset.univ.sup fun k'' : Fin 10 => logitAt y1 y2 y3 bt w1 w2 w3 b g k'' := by
    intro k'
    rw [rowmax_apply]
    exact congrArg (Finset.univ.sup) (funext hl)
  rw [softmax_apply]
  unfold poolAt
  simp only [hl, hm]

end Cert.KernelIdeal.Val

end
-- ==== Proof.KI.Val6.lean ====
import proofs.«416900_j23630910063028_3_alg».proof.Proof.KI.Val6Acc
import proofs.«416900_j23630910063028_3_alg».proof.Proof.KI.Val6Last

noncomputable section

namespace Cert.KernelIdeal.Val

open Cert.KernelIdeal Cert.KernelIdeal.Gen Cert.KernelIdeal.Frame Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

abbrev result6 (c : Dev nD) : Buf (Elt Ideal) ((c : Thread nD τ).loc main_v63) :=
  poolArr (y1Of V c) (y2Of V c) (y3Of V c) (btOf V c) (w1Of V c) (w2Of V c) (w3Of V c) (bOf V c)

theorem last_value (c : Dev nD) (t : Fin cfg6.N) (h19 : t.val = 19) :
    cls6 (iblk6 V c 4 t) (iblk6 V c 5 t) (iblk6 V c 6 t) (iblk6 V c 7 t) (sAt6 V c t.val t.isLt) = result6 V c := by
  funext j
  obtain ⟨g, k, rfl⟩ : ∃ g k, j = ix2 g k := ⟨j 0, j 1, eq_ix2 j⟩
  rw [blk4_eq, blk5_eq, blk6_eq, blk7_eq]
  exact lastPoint_eq (y1Of V c) (y2Of V c) (y3Of V c) (btOf V c) _ _ _ _ (w1Of V c) (w2Of V c) (w3Of V c) (bOf V c)
    (acc1_last V c t.val t.isLt h19) (acc2_last V c t.val t.isLt h19) (acc3_last V c t.val t.isLt h19)
    (accN_last V c t.val t.isLt h19) g k

theorem flushed6_eq (c : Dev nD) (t : Fin cfg6.N) (hf : (cfg6.win 8).flush t = true) :
    (dat6 V c).flushed 8 t = ((cfg6.win 8).blk t).view.read (Elt Ideal) (result6 V c) := by
  have h19 : t.val = 19 := by have := (flush6_8 t).mp hf; have := lt20 t; omega
  show (cfg6.win 8).cut (grid6.coords t) ((dat6 V c).after 8 t) = _
  rw [after6_8_last_eq V c t h19, last_value V c t h19]
  have hz' : (fun a => win6_8.index t a * main_v63.ty.shape.size a) = fun _ => 0 := funext fun a =>
    match a with
    | ⟨0, _⟩ => by show win6_8.index t 0 * 128 = 0; rw [(idxFixed6 t).2.2.2.2.2.2.2.2.1]
    | ⟨1, _⟩ => by show win6_8.index t 1 * 10 = 0; rw [(idxFixed6 t).2.2.2.2.2.2.2.2.2]
  exact (Memref.read_access_unit_zero (Elt Ideal) main_v63 hz' (fun a => by rw [congrFun hz' a]; simp) (result6 V c)).symm

def tLast6 : Fin cfg6.N := ⟨19, by rw [show cfg6.N = 20 from N_6]; decide⟩

theorem arr6 (c : Dev nD) :
    (dat6 (F := Ideal) V c).arrAt 8 cfg6.N = poolArr (V c (Pipeline.arrRef spec6 0)) (V c (Pipeline.arrRef spec6 1)) (V c (Pipeline.arrRef spec6 2))
      (V c (Pipeline.arrRef spec6 3)) (V c (Pipeline.arrRef spec6 4)) (V c (Pipeline.arrRef spec6 5)) (V c (Pipeline.arrRef spec6 6)) (V c (Pipeline.arrRef spec6 7)) :=
  (dat6 V c).arrAt_eq_of_cover 8 (result6 V c) (flushed6_eq V c) fun i =>
    ⟨tLast6, (flush6_8 tLast6).mpr rfl, by
      show i ∈ ((View.whole main_v63).slice (win6_8.rect tLast6)).set
      rw [View.set_slice_whole, Rect.mem_set_unit]
      intro a
      have h0 : (i 0 : Nat) < 128 := (i 0).isLt
      have h1 : (i 1 : Nat) < 10 := (i 1).isLt
      match a with
      | ⟨0, _⟩ =>
        show win6_8.index tLast6 0 * win6_8.size 0 ≤ (i 0 : Nat) ∧ (i 0 : Nat) < win6_8.index tLast6 0 * win6_8.size 0 + win6_8.xsize (grid6.coords tLast6) 0
        rw [(idxFixed6 tLast6).2.2.2.2.2.2.2.2.1, show win6_8.xsize (grid6.coords tLast6) 0 = 128 from by decide +kernel]; omega
      | ⟨1, _⟩ =>
        show win6_8.index tLast6 1 * win6_8.size 1 ≤ (i 1 : Nat) ∧ (i 1 : Nat) < win6_8.index tLast6 1 * win6_8.size 1 + win6_8.xsize (grid6.coords tLast6) 1
        rw [(idxFixed6 tLast6).2.2.2.2.2.2.2.2.2, show win6_8.xsize (grid6.coords tLast6) 1 = 10 from by decide +kernel]; omega⟩

end Cert.KernelIdeal.Val

end
-- ==== Proof.RefRead.lean ====
import proofs.«416900_j23630910063028_3_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 : (⟨S100000, .i32⟩ : BufTy).Contents (Elt F) :=
  iotaInDim S100000 32 0
def val_main_v1 (x1 : (⟨S2x1600000, .i32⟩ : BufTy).Contents (Elt F)) : (⟨S1x1600000, .i32⟩ : BufTy).Contents (Elt F) :=
  extractStridedSlice S1x1600000 ![0, 0] (x1) slices_S2x1600000_S1x1600000_0_0
def val_main_v2 (x1 : (⟨S2x1600000, .i32⟩ : BufTy).Contents (Elt F)) : (⟨S1600000, .i32⟩ : BufTy).Contents (Elt F) :=
  shapeCast _ (val_main_v1 (F := F) x1) shapeCasts_S1x1600000_S1600000
def val_main_v3 (x1 : (⟨S2x1600000, .i32⟩ : BufTy).Contents (Elt F)) : (⟨S1700000, .i32⟩ : BufTy).Contents (Elt F) :=
  concatenate S1700000 0 [⟨S1600000, (val_main_v2 (F := F) x1)⟩, ⟨S100000, (val_main_v0 (F := F))⟩] concatenates_S1600000_S100000_S1700000_d0

def val_main_v4 (x1 : (⟨S2x1600000, .i32⟩ : BufTy).Contents (Elt F)) : (⟨S1x1600000, .i32⟩ : BufTy).Contents (Elt F) :=
  extractStridedSlice S1x1600000 ![1, 0] (x1) slices_S2x1600000_S1x1600000_1_0
def val_main_v5 (x1 : (⟨S2x1600000, .i32⟩ : BufTy).Contents (Elt F)) : (⟨S1600000, .i32⟩ : BufTy).Contents (Elt F) :=
  shapeCast _ (val_main_v4 (F := F) x1) shapeCasts_S1x1600000_S1600000
def val_main_v6 (x1 : (⟨S2x1600000, .i32⟩ : BufTy).Contents (Elt F)) : (⟨S1700000, .i32⟩ : BufTy).Contents (Elt F) :=
  concatenate S1700000 0 [⟨S1600000, (val_main_v5 (F := F) x1)⟩, ⟨S100000, (val_main_v0 (F := F))⟩] concatenates_S1600000_S100000_S1700000_d0

def val_main_cst : (⟨S_, .f32⟩ : BufTy).Contents (Elt F) :=
  constant S_ .f32 0x3F800000#32
theorem val_main_cst_apply (i : S_.Idx) :
    val_main_cst (F := F) i = FloatOps.ofBits .f32 0x3F800000#32 := rfl

def val_main_v7 : (⟨S1700000, .f32⟩ : BufTy).Contents (Elt F) :=
  broadcastInDim S1700000 ![] bcast_S_S1700000 (val_main_cst (F := F))
abbrev idx_main_v7 (i : S1700000.Idx) : S_.Idx := fun a => a.elim0
theorem val_main_v7_apply (i : S1700000.Idx) :
    val_main_v7 (F := F) i = val_main_cst (F := F) (idx_main_v7 i) := by
  unfold val_main_v7
  generalize val_main_cst (F := F) = y
  exact broadcastInDim_apply _ bcast_S_S1700000 y i (idx_main_v7 i) (fun a => a.elim0)

def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl

def val_main_v8 : (⟨S100000, .f32⟩ : BufTy).Contents (Elt F) :=
  broadcastInDim S100000 ![] bcast_S_S100000 (val_main_cst_0 (F := F))
abbrev idx_main_v8 (i : S100000.Idx) : S_.Idx := fun a => a.elim0
theorem val_main_v8_apply (i : S100000.Idx) :
    val_main_v8 (F := F) i = val_main_cst_0 (F := F) (idx_main_v8 i) := by
  unfold val_main_v8
  generalize val_main_cst_0 (F := F) = y
  exact broadcastInDim_apply _ bcast_S_S100000 y i (idx_main_v8 i) (fun a => a.elim0)

def val_main_v9 (x1 : (⟨S2x1600000, .i32⟩ : BufTy).Contents (Elt F)) : (⟨S1700000x1, .i32⟩ : BufTy).Contents (Elt F) :=
  broadcastInDim S1700000x1 ![0] bcast_S1700000_S1700000x1_0 (val_main_v6 (F := F) x1)
def val_main_v10 (x1 : (⟨S2x1600000, .i32⟩ : BufTy).Contents (Elt F)) : (⟨S100000, .f32⟩ : BufTy).Contents (Elt F) :=
  Host.scatterAdd scatter_S100000_S1700000x1_S1700000_n_0_0_1 (val_main_v8 (F := F)) (val_main_v9 (F := F) x1) (val_main_v7 (F := F))

def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

def val_main_v11 : (⟨S100000, .f32⟩ : BufTy).Contents (Elt F) :=
  broadcastInDim S100000 ![] bcast_S_S100000 (val_main_cst_1 (F := F))
abbrev idx_main_v11 (i : S100000.Idx) : S_.Idx := fun a => a.elim0
theorem val_main_v11_apply (i : S100000.Idx) :
    val_main_v11 (F := F) i = val_main_cst_1 (F := F) (idx_main_v11 i) := by
  unfold val_main_v11
  generalize val_main_cst_1 (F := F) = y
  exact broadcastInDim_apply _ bcast_S_S100000 y i (idx_main_v11 i) (fun a => a.elim0)

def val_main_v12 (x1 : (⟨S2x1600000, .i32⟩ : BufTy).Contents (Elt F)) : (⟨S100000, .i1⟩ : BufTy).Contents (Elt F) :=
  cmpf (F := F) .ogt (val_main_v10 (F := F) x1) (val_main_v11 (F := F))
theorem val_main_v12_apply (x1 : (⟨S2x1600000, .i32⟩ : BufTy).Contents (Elt F)) (i : S100000.Idx) :
    val_main_v12 (F := F) x1 i = FloatOps.cmpf (F := F) .ogt (val_main_v10 (F := F) x1 i) (val_main_v11 (F := F) i) := rfl

def val_main_v13 (x1 : (⟨S2x1600000, .i32⟩ : BufTy).Contents (Elt F)) : (⟨S100000, .f32⟩ : BufTy).Contents (Elt F) :=
  Host.rsqrt (val_main_v10 (F := F) x1)
theorem val_main_v13_apply (x1 : (⟨S2x1600000, .i32⟩ : BufTy).Contents (Elt F)) (i : S100000.Idx) :
    val_main_v13 (F := F) x1 i = FloatOps.hostUnary .rsqrt (val_main_v10 (F := F) x1 i) := rfl

def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

def val_main_call0_v0 : (⟨S_, .f32⟩ : BufTy).Contents (Elt F) :=
  id (val_main_cst_2 (F := F))
theorem val_main_call0_v0_apply (i : S_.Idx) :
    val_main_call0_v0 (F := F) i = (val_main_cst_2 (F := F) i) := rfl

def val_main_call0_v1 : (⟨S100000, .f32⟩ : BufTy).Contents (Elt F) :=
  broadcastInDim S100000 ![] bcast_S_S100000 (val_main_call0_v0 (F := F))
abbrev idx_main_call0_v1 (i : S100000.Idx) : S_.Idx := fun a => a.elim0
theorem val_main_call0_v1_apply (i : S100000.Idx) :
    val_main_call0_v1 (F := F) i = val_main_call0_v0 (F := F) (idx_main_call0_v1 i) := by
  unfold val_main_call0_v1
  generalize val_main_call0_v0 (F := F) = y
  exact broadcastInDim_apply _ bcast_S_S100000 y i (idx_main_call0_v1 i) (fun a => a.elim0)

def val_main_v14 (x1 : (⟨S2x1600000, .i32⟩ : BufTy).Contents (Elt F)) : (⟨S100000, .f32⟩ : BufTy).Contents (Elt F) :=
  select (val_main_v12 (F := F) x1) (val_main_v13 (F := F) x1) (val_main_call0_v1 (F := F))
theorem val_main_v14_apply (x1 : (⟨S2x1600000, .i32⟩ : BufTy).Contents (Elt F)) (i : S100000.Idx) :
    val_main_v14 (F := F) x1 i = Scalar.select (val_main_v12 (F := F) x1 i) (val_main_v13 (F := F) x1 i) (val_main_call0_v1 (F := F) i) := rfl

def val_main_c : (⟨S_, .i32⟩ : BufTy).Contents (Elt F) :=
  constantI S_ 32 0#32
theorem val_main_c_apply (i : S_.Idx) :
    val_main_c (F := F) i = 0#32 := rfl

def val_main_v15 : (⟨S1700000, .i32⟩ : BufTy).Contents (Elt F) :=
  broadcastInDim S1700000 ![] bcast_S_S1700000 (val_main_c (F := F))
abbrev idx_main_v15 (i : S1700000.Idx) : S_.Idx := fun a => a.elim0
theorem val_main_v15_apply (i : S1700000.Idx) :
    val_main_v15 (F := F) i = val_main_c (F := F) (idx_main_v15 i) := by
  unfold val_main_v15
  generalize val_main_c (F := F) = y
  exact broadcastInDim_apply _ bcast_S_S1700000 y i (idx_main_v15 i) (fun a => a.elim0)

def val_main_v16 (x1 : (⟨S2x1600000, .i32⟩ : BufTy).Contents (Elt F)) : (⟨S1700000, .i1⟩ : BufTy).Contents (Elt F) :=
  cmpi .slt (val_main_v3 (F := F) x1) (val_main_v15 (F := F))
theorem val_main_v16_apply (x1 : (⟨S2x1600000, .i32⟩ : BufTy).Contents (Elt F)) (i : S1700000.Idx) :
    val_main_v16 (F := F) x1 i = IntOp.cmpi .slt (val_main_v3 (F := F) x1 i) (val_main_v15 (F := F) i) := rfl

def val_main_c_3 : (⟨S_, .i32⟩ : BufTy).Contents (Elt F) :=
  constantI S_ 32 100000#32
theorem val_main_c_3_apply (i : S_.Idx) :
    val_main_c_3 (F := F) i = 100000#32 := rfl

def val_main_v17 : (⟨S1700000, .i32⟩ : BufTy).Contents (Elt F) :=
  broadcastInDim S1700000 ![] bcast_S_S1700000 (val_main_c_3 (F := F))
abbrev idx_main_v17 (i : S1700000.Idx) : S_.Idx := fun a => a.elim0
theorem val_main_v17_apply (i : S1700000.Idx) :
    val_main_v17 (F := F) i = val_main_c_3 (F := F) (idx_main_v17 i) := by
  unfold val_main_v17
  generalize val_main_c_3 (F := F) = y
  exact broadcastInDim_apply _ bcast_S_S1700000 y i (idx_main_v17 i) (fun a => a.elim0)

def val_main_v18 (x1 : (⟨S2x1600000, .i32⟩ : BufTy).Contents (Elt F)) : (⟨S1700000, .i32⟩ : BufTy).Contents (Elt F) :=
  addi (val_main_v3 (F := F) x1) (val_main_v17 (F := F))
theorem val_main_v18_apply (x1 : (⟨S2x1600000, .i32⟩ : BufTy).Contents (Elt F)) (i : S1700000.Idx) :
    val_main_v18 (F := F) x1 i = IntOp.addi (val_main_v3 (F := F) x1 i) (val_main_v17 (F := F) i) := rfl

def val_main_v19 (x1 : (⟨S2x1600000, .i32⟩ : BufTy).Contents (Elt F)) : (⟨S1700000, .i32⟩ : BufTy).Contents (Elt F) :=
  select (val_main_v16 (F := F) x1) (val_main_v18 (F := F) x1) (val_main_v3 (F := F) x1)
theorem val_main_v19_apply (x1 : (⟨S2x1600000, .i32⟩ : BufTy).Contents (Elt F)) (i : S1700000.Idx) :
    val_main_v19 (F := F) x1 i = Scalar.select (val_main_v16 (F := F) x1 i) (val_main_v18 (F := F) x1 i) (val_main_v3 (F := F) x1 i) := rfl

def val_main_v20 (x1 : (⟨S2x1600000, .i32⟩ : BufTy).Contents (Elt F)) : (⟨S1700000x1, .i32⟩ : BufTy).Contents (Elt F) :=
  broadcastInDim S1700000x1 ![0] bcast_S1700000_S1700000x1_0 (val_main_v19 (F := F) x1)
abbrev idx_main_v20 (i : S1700000x1.Idx) : S1700000.Idx := fun a => match a with
  | ⟨0, _⟩ => ⟨(i 0).val, (i 0).isLt⟩
theorem val_main_v20_apply (x1 : (⟨S2x1600000, .i32⟩ : BufTy).Contents (Elt F)) (i : S1700000x1.Idx) :
    val_main_v20 (F := F) x1 i = val_main_v19 (F := F) x1 (idx_main_v20 i) := by
  unfold val_main_v20
  generalize val_main_v19 (F := F) x1 = y
  exact broadcastInDim_apply _ bcast_S1700000_S1700000x1_0 y i (idx_main_v20 i) (fun a => match a with
    | ⟨0, _⟩ => by show (i 0).val = if (1700000 : Nat) = 1 then 0 else (i 0).val; rw [if_neg (by decide)])

def val_main_v21 (x1 : (⟨S2x1600000, .i32⟩ : BufTy).Contents (Elt F)) : (⟨S1700000, .f32⟩ : BufTy).Contents (Elt F) :=
  Host.gather gather_S100000_S1700000x1_S1700000_n_0_n_n_0_1_1 (val_main_v14 (F := F) x1) (val_main_v20 (F := F) x1)

def val_main_c_4 : (⟨S_, .i32⟩ : BufTy).Contents (Elt F) :=
  constantI S_ 32 0#32
theorem val_main_c_4_apply (i : S_.Idx) :
    val_main_c_4 (F := F) i = 0#32 := rfl

def val_main_v22 : (⟨S1700000, .i32⟩ : BufTy).Contents (Elt F) :=
  broadcastInDim S1700000 ![] bcast_S_S1700000 (val_main_c_4 (F := F))
abbrev idx_main_v22 (i : S1700000.Idx) : S_.Idx := fun a => a.elim0
theorem val_main_v22_apply (i : S1700000.Idx) :
    val_main_v22 (F := F) i = val_main_c_4 (F := F) (idx_main_v22 i) := by
  unfold val_main_v22
  generalize val_main_c_4 (F := F) = y
  exact broadcastInDim_apply _ bcast_S_S1700000 y i (idx_main_v22 i) (fun a => a.elim0)

def val_main_v23 (x1 : (⟨S2x1600000, .i32⟩ : BufTy).Contents (Elt F)) : (⟨S1700000, .i1⟩ : BufTy).Contents (Elt F) :=
  cmpi .slt (val_main_v6 (F := F) x1) (val_main_v22 (F := F))
theorem val_main_v23_apply (x1 : (⟨S2x1600000, .i32⟩ : BufTy).Contents (Elt F)) (i : S1700000.Idx) :
    val_main_v23 (F := F) x1 i = IntOp.cmpi .slt (val_main_v6 (F := F) x1 i) (val_main_v22 (F := F) i) := rfl

def val_main_c_5 : (⟨S_, .i32⟩ : BufTy).Contents (Elt F) :=
  constantI S_ 32 100000#32
theorem val_main_c_5_apply (i : S_.Idx) :
    val_main_c_5 (F := F) i = 100000#32 := rfl

def val_main_v24 : (⟨S1700000, .i32⟩ : BufTy).Contents (Elt F) :=
  broadcastInDim S1700000 ![] bcast_S_S1700000 (val_main_c_5 (F := F))
abbrev idx_main_v24 (i : S1700000.Idx) : S_.Idx := fun a => a.elim0
theorem val_main_v24_apply (i : S1700000.Idx) :
    val_main_v24 (F := F) i = val_main_c_5 (F := F) (idx_main_v24 i) := by
  unfold val_main_v24
  generalize val_main_c_5 (F := F) = y
  exact broadcastInDim_apply _ bcast_S_S1700000 y i (idx_main_v24 i) (fun a => a.elim0)

def val_main_v25 (x1 : (⟨S2x1600000, .i32⟩ : BufTy).Contents (Elt F)) : (⟨S1700000, .i32⟩ : BufTy).Contents (Elt F) :=
  addi (val_main_v6 (F := F) x1) (val_main_v24 (F := F))
theorem val_main_v25_apply (x1 : (⟨S2x1600000, .i32⟩ : BufTy).Contents (Elt F)) (i : S1700000.Idx) :
    val_main_v25 (F := F) x1 i = IntOp.addi (val_main_v6 (F := F) x1 i) (val_main_v24 (F := F) i) := rfl

def val_main_v26 (x1 : (⟨S2x1600000, .i32⟩ : BufTy).Contents (Elt F)) : (⟨S1700000, .i32⟩ : BufTy).Contents (Elt F) :=
  select (val_main_v23 (F := F) x1) (val_main_v25 (F := F) x1) (val_main_v6 (F := F) x1)
theorem val_main_v26_apply (x1 : (⟨S2x1600000, .i32⟩ : BufTy).Contents (Elt F)) (i : S1700000.Idx) :
    val_main_v26 (F := F) x1 i = Scalar.select (val_main_v23 (F := F) x1 i) (val_main_v25 (F := F) x1 i) (val_main_v6 (F := F) x1 i) := rfl

def val_main_v27 (x1 : (⟨S2x1600000, .i32⟩ : BufTy).Contents (Elt F)) : (⟨S1700000x1, .i32⟩ : BufTy).Contents (Elt F) :=
  broadcastInDim S1700000x1 ![0] bcast_S1700000_S1700000x1_0 (val_main_v26 (F := F) x1)
abbrev idx_main_v27 (i : S1700000x1.Idx) : S1700000.Idx := fun a => match a with
  | ⟨0, _⟩ => ⟨(i 0).val, (i 0).isLt⟩
theorem val_main_v27_apply (x1 : (⟨S2x1600000, .i32⟩ : BufTy).Contents (Elt F)) (i : S1700000x1.Idx) :
    val_main_v27 (F := F) x1 i = val_main_v26 (F := F) x1 (idx_main_v27 i) := by
  unfold val_main_v27
  generalize val_main_v26 (F := F) x1 = y
  exact broadcastInDim_apply _ bcast_S1700000_S1700000x1_0 y i (idx_main_v27 i) (fun a => match a with
    | ⟨0, _⟩ => by show (i 0).val = if (1700000 : Nat) = 1 then 0 else (i 0).val; rw [if_neg (by decide)])

def val_main_v28 (x1 : (⟨S2x1600000, .i32⟩ : BufTy).Contents (Elt F)) : (⟨S1700000, .f32⟩ : BufTy).Contents (Elt F) :=
  Host.gather gather_S100000_S1700000x1_S1700000_n_0_n_n_0_1_1 (val_main_v14 (F := F) x1) (val_main_v27 (F := F) x1)

def val_main_v29 (x1 : (⟨S2x1600000, .i32⟩ : BufTy).Contents (Elt F)) : (⟨S1700000, .f32⟩ : BufTy).Contents (Elt F) :=
  mulf (val_main_v21 (F := F) x1) (val_main_v28 (F := F) x1)
theorem val_main_v29_apply (x1 : (⟨S2x1600000, .i32⟩ : BufTy).Contents (Elt F)) (i : S1700000.Idx) :
    val_main_v29 (F := F) x1 i = FloatOps.mulf (val_main_v21 (F := F) x1 i) (val_main_v28 (F := F) x1 i) := rfl

def val_main_v30 (x0 : (⟨S100000x64, .f32⟩ : BufTy).Contents (Elt F)) (x3 : (⟨S64x64, .f32⟩ : BufTy).Contents (Elt F)) : (⟨S100000x64, .f32⟩ : BufTy).Contents (Elt F) :=
  Host.dotGeneral dot_S100000x64_S64x64_S100000x64_1_0_0_1_n_n none (x0) (x3)
theorem lhs_main_v30_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhs_main_v30_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem rhs_main_v30_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem rhs_main_v30_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl
abbrev lidx_main_v30 (i : S100000x64.Idx) (k : Fin 64) : S100000x64.Idx := fun a => match a with
  | ⟨0, _⟩ => ⟨(i 0).val, (i 0).isLt⟩
  | ⟨1, _⟩ => ⟨k.val, k.isLt⟩
abbrev ridx_main_v30 (i : S100000x64.Idx) (k : Fin 64) : S64x64.Idx := fun a => match a with
  | ⟨0, _⟩ => ⟨k.val, k.isLt⟩
  | ⟨1, _⟩ => ⟨(i 1).val, (i 1).isLt⟩

theorem val_main_v30_apply (x0 : (⟨S100000x64, .f32⟩ : BufTy).Contents (Elt Ideal)) (x3 : (⟨S64x64, .f32⟩ : BufTy).Contents (Elt Ideal)) (i : S100000x64.Idx) :
    val_main_v30 (F := Ideal) x0 x3 i = ∑ k : Fin 64, x0 (lidx_main_v30 i k) * x3 (ridx_main_v30 i k) := by
  unfold val_main_v30
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = lidx_main_v30 i k := funext fun a => Fin.ext (by
    match a with
    | ⟨0, _⟩ => exact lhs_main_v30_0 _ _
    | ⟨1, _⟩ => exact (lhs_main_v30_1 _ _).trans hk)
  have er : dot_S100000x64_S64x64_S100000x64_1_0_0_1_n_n.rhsIdx i ((ValueIdx.contrEquiv1 dot_S100000x64_S64x64_S100000x64_1_0_0_1_n_n 64 rfl rfl).symm k) = ridx_main_v30 i k := funext fun a => Fin.ext (by
    match a with
    | ⟨0, _⟩ => exact (rhs_main_v30_0 _ _).trans hk
    | ⟨1, _⟩ => exact rhs_main_v30_1 _ _)
  rw [el, er]

def val_main_c_6 : (⟨S_, .i32⟩ : BufTy).Contents (Elt F) :=
  constantI S_ 32 0#32
theorem val_main_c_6_apply (i : S_.Idx) :
    val_main_c_6 (F := F) i = 0#32 := rfl

def val_main_v31 : (⟨S1700000, .i32⟩ : BufTy).Contents (Elt F) :=
  broadcastInDim S1700000 ![] bcast_S_S1700000 (val_main_c_6 (F := F))
abbrev idx_main_v31 (i : S1700000.Idx) : S_.Idx := fun a => a.elim0
theorem val_main_v31_apply (i : S1700000.Idx) :
    val_main_v31 (F := F) i = val_main_c_6 (F := F) (idx_main_v31 i) := by
  unfold val_main_v31
  generalize val_main_c_6 (F := F) = y
  exact broadcastInDim_apply _ bcast_S_S1700000 y i (idx_main_v31 i) (fun a => a.elim0)

def val_main_v32 (x1 : (⟨S2x1600000, .i32⟩ : BufTy).Contents (Elt F)) : (⟨S1700000, .i1⟩ : BufTy).Contents (Elt F) :=
  cmpi .slt (val_main_v3 (F := F) x1) (val_main_v31 (F := F))
theorem val_main_v32_apply (x1 : (⟨S2x1600000, .i32⟩ : BufTy).Contents (Elt F)) (i : S1700000.Idx) :
    val_main_v32 (F := F) x1 i = IntOp.cmpi .slt (val_main_v3 (F := F) x1 i) (val_main_v31 (F := F) i) := rfl

def val_main_c_7 : (⟨S_, .i32⟩ : BufTy).Contents (Elt F) :=
  constantI S_ 32 100000#32
theorem val_main_c_7_apply (i : S_.Idx) :
    val_main_c_7 (F := F) i = 100000#32 := rfl

def val_main_v33 : (⟨S1700000, .i32⟩ : BufTy).Contents (Elt F) :=
  broadcastInDim S1700000 ![] bcast_S_S1700000 (val_main_c_7 (F := F))
abbrev idx_main_v33 (i : S1700000.Idx) : S_.Idx := fun a => a.elim0
theorem val_main_v33_apply (i : S1700000.Idx) :
    val_main_v33 (F := F) i = val_main_c_7 (F := F) (idx_main_v33 i) := by
  unfold val_main_v33
  generalize val_main_c_7 (F := F) = y
  exact broadcastInDim_apply _ bcast_S_S1700000 y i (idx_main_v33 i) (fun a => a.elim0)

def val_main_v34 (x1 : (⟨S2x1600000, .i32⟩ : BufTy).Contents (Elt F)) : (⟨S1700000, .i32⟩ : BufTy).Contents (Elt F) :=
  addi (val_main_v3 (F := F) x1) (val_main_v33 (F := F))
theorem val_main_v34_apply (x1 : (⟨S2x1600000, .i32⟩ : BufTy).Contents (Elt F)) (i : S1700000.Idx) :
    val_main_v34 (F := F) x1 i = IntOp.addi (val_main_v3 (F := F) x1 i) (val_main_v33 (F := F) i) := rfl

def val_main_v35 (x1 : (⟨S2x1600000, .i32⟩ : BufTy).Contents (Elt F)) : (⟨S1700000, .i32⟩ : BufTy).Contents (Elt F) :=
  select (val_main_v32 (F := F) x1) (val_main_v34 (F := F) x1) (val_main_v3 (F := F) x1)
theorem val_main_v35_apply (x1 : (⟨S2x1600000, .i32⟩ : BufTy).Contents (Elt F)) (i : S1700000.Idx) :
    val_main_v35 (F := F) x1 i = Scalar.select (val_main_v32 (F := F) x1 i) (val_main_v34 (F := F) x1 i) (val_main_v3 (F := F) x1 i) := rfl

def val_main_v36 (x1 : (⟨S2x1600000, .i32⟩ : BufTy).Contents (Elt F)) : (⟨S1700000x1, .i32⟩ : BufTy).Contents (Elt F) :=
  broadcastInDim S1700000x1 ![0] bcast_S1700000_S1700000x1_0 (val_main_v35 (F := F) x1)
abbrev idx_main_v36 (i : S1700000x1.Idx) : S1700000.Idx := fun a => match a with
  | ⟨0, _⟩ => ⟨(i 0).val, (i 0).isLt⟩
theorem val_main_v36_apply (x1 : (⟨S2x1600000, .i32⟩ : BufTy).Contents (Elt F)) (i : S1700000x1.Idx) :
    val_main_v36 (F := F) x1 i = val_main_v35 (F := F) x1 (idx_main_v36 i) := by
  unfold val_main_v36
  generalize val_main_v35 (F := F) x1 = y
  exact broadcastInDim_apply _ bcast_S1700000_S1700000x1_0 y i (idx_main_v36 i) (fun a => match a with
    | ⟨0, _⟩ => by show (i 0).val = if (1700000 : Nat) = 1 then 0 else (i 0).val; rw [if_neg (by decide)])

def val_main_v37 (x0 : (⟨S100000x64, .f32⟩ : BufTy).Contents (Elt F)) (x1 : (⟨S2x1600000, .i32⟩ : BufTy).Contents (Elt F)) (x3 : (⟨S64x64, .f32⟩ : BufTy).Contents (Elt F)) : (⟨S1700000x64, .f32⟩ : BufTy).Contents (Elt F) :=
  Host.gather gather_S100000x64_S1700000x1_S1700000x64_1_0_n_n_0_1_164 (val_main_v30 (F := F) x0 x3) (val_main_v36 (F := F) x1)

def val_main_v38 (x1 : (⟨S2x1600000, .i32⟩ : BufTy).Contents (Elt F)) : (⟨S1700000x1, .f32⟩ : BufTy).Contents (Elt F) :=
  broadcastInDim S1700000x1 ![0] bcast_S1700000_S1700000x1_0 (val_main_v29 (F := F) x1)
abbrev idx_main_v38 (i : S1700000x1.Idx) : S1700000.Idx := fun a => match a with
  | ⟨0, _⟩ => ⟨(i 0).val, (i 0).isLt⟩
theorem val_main_v38_apply (x1 : (⟨S2x1600000, .i32⟩ : BufTy).Contents (Elt F)) (i : S1700000x1.Idx) :
    val_main_v38 (F := F) x1 i = val_main_v29 (F := F) x1 (idx_main_v38 i) := by
  unfold val_main_v38
  generalize val_main_v29 (F := F) x1 = y
  exact broadcastInDim_apply _ bcast_S1700000_S1700000x1_0 y i (idx_main_v38 i) (fun a => match a with
    | ⟨0, _⟩ => by show (i 0).val = if (1700000 : Nat) = 1 then 0 else (i 0).val; rw [if_neg (by decide)])

def val_main_v39 (x1 : (⟨S2x1600000, .i32⟩ : BufTy).Contents (Elt F)) : (⟨S1700000x64, .f32⟩ : BufTy).Contents (Elt F) :=
  broadcastInDim S1700000x64 ![0, 1] bcast_S1700000x1_S1700000x64_0_1 (val_main_v38 (F := F) x1)
abbrev idx_main_v39 (i : S1700000x64.Idx) : S1700000x1.Idx := fun a => match a with
  | ⟨0, _⟩ => ⟨(i 0).val, (i 0).isLt⟩
  | ⟨1, _⟩ => ⟨0, Nat.one_pos⟩
theorem val_main_v39_apply (x1 : (⟨S2x1600000, .i32⟩ : BufTy).Contents (Elt F)) (i : S1700000x64.Idx) :
    val_main_v39 (F := F) x1 i = val_main_v38 (F := F) x1 (idx_main_v39 i) := by
  unfold val_main_v39
  generalize val_main_v38 (F := F) x1 = y
  exact broadcastInDim_apply _ bcast_S1700000x1_S1700000x64_0_1 y i (idx_main_v39 i) (fun a => match a with
    | ⟨0, _⟩ => by show (i 0).val = if (1700000 : Nat) = 1 then 0 else (i 0).val; rw [if_neg (by decide)]
    | ⟨1, _⟩ => by show 0 = if (1 : Nat) = 1 then 0 else (i 1).val; rw [if_pos rfl])

def val_main_v40 (x0 : (⟨S100000x64, .f32⟩ : BufTy).Contents (Elt F)) (x1 : (⟨S2x1600000, .i32⟩ : BufTy).Contents (Elt F)) (x3 : (⟨S64x64, .f32⟩ : BufTy).Contents (Elt F)) : (⟨S1700000x64, .f32⟩ : BufTy).Contents (Elt F) :=
  mulf (val_main_v37 (F := F) x0 x1 x3) (val_main_v39 (F := F) x1)
theorem val_main_v40_apply (x0 : (⟨S100000x64, .f32⟩ : BufTy).Contents (Elt F)) (x1 : (⟨S2x1600000, .i32⟩ : BufTy).Contents (Elt F)) (x3 : (⟨S64x64, .f32⟩ : BufTy).Contents (Elt F)) (i : S1700000x64.Idx) :
    val_main_v40 (F := F) x0 x1 x3 i = FloatOps.mulf (val_main_v37 (F := F) x0 x1 x3 i) (val_main_v39 (F := F) x1 i) := rfl

def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

def val_main_v41 : (⟨S100000x64, .f32⟩ : BufTy).Contents (Elt F) :=
  broadcastInDim S100000x64 ![] bcast_S_S100000x64 (val_main_cst_8 (F := F))
abbrev idx_main_v41 (i : S100000x64.Idx) : S_.Idx := fun a => a.elim0
theorem val_main_v41_apply (i : S100000x64.Idx) :
    val_main_v41 (F := F) i = val_main_cst_8 (F := F) (idx_main_v41 i) := by
  unfold val_main_v41
  generalize val_main_cst_8 (F := F) = y
  exact broadcastInDim_apply _ bcast_S_S100000x64 y i (idx_main_v41 i) (fun a => a.elim0)

def val_main_v42 (x1 : (⟨S2x1600000, .i32⟩ : BufTy).Contents (Elt F)) : (⟨S1700000x1, .i32⟩ : BufTy).Contents (Elt F) :=
  broadcastInDim S1700000x1 ![0] bcast_S1700000_S1700000x1_0 (val_main_v6 (F := F) x1)
abbrev idx_main_v42 (i : S1700000x1.Idx) : S1700000.Idx := fun a => match a with
  | ⟨0, _⟩ => ⟨(i 0).val, (i 0).isLt⟩
theorem val_main_v42_apply (x1 : (⟨S2x1600000, .i32⟩ : BufTy).Contents (Elt F)) (i : S1700000x1.Idx) :
    val_main_v42 (F := F) x1 i = val_main_v6 (F := F) x1 (idx_main_v42 i) := by
  unfold val_main_v42
  generalize val_main_v6 (F := F) x1 = y
  exact broadcastInDim_apply _ bcast_S1700000_S1700000x1_0 y i (idx_main_v42 i) (fun a => match a with
    | ⟨0, _⟩ => by show (i 0).val = if (1700000 : Nat) = 1 then 0 else (i 0).val; rw [if_neg (by decide)])

def val_main_v43 (x0 : (⟨S100000x64, .f32⟩ : BufTy).Contents (Elt F)) (x1 : (⟨S2x1600000, .i32⟩ : BufTy).Contents (Elt F)) (x3 : (⟨S64x64, .f32⟩ : BufTy).Contents (Elt F)) : (⟨S100000x64, .f32⟩ : BufTy).Contents (Elt F) :=
  Host.scatterAdd scatter_S100000x64_S1700000x1_S1700000x64_1_0_0_1 (val_main_v41 (F := F)) (val_main_v42 (F := F) x1) (val_main_v40 (F := F) x0 x1 x3)

def val_main_v44 (x4 : (⟨S64, .f32⟩ : BufTy).Contents (Elt F)) : (⟨S1x64, .f32⟩ : BufTy).Contents (Elt F) :=
  broadcastInDim S1x64 ![1] bcast_S64_S1x64_1 (x4)
abbrev idx_main_v44 (i : S1x64.Idx) : S64.Idx := fun a => match a with
  | ⟨0, _⟩ => ⟨(i 1).val, (i 1).isLt⟩
theorem val_main_v44_apply (x4 : (⟨S64, .f32⟩ : BufTy).Contents (Elt F)) (i : S1x64.Idx) :
    val_main_v44 (F := F) x4 i = x4 (idx_main_v44 i) := by
  unfold val_main_v44
  exact broadcastInDim_apply _ bcast_S64_S1x64_1 x4 i (idx_main_v44 i) (fun a => match a with
    | ⟨0, _⟩ => by show (i 1).val = if (64 : Nat) = 1 then 0 else (i 1).val; rw [if_neg (by decide)])

def val_main_v45 (x4 : (⟨S64, .f32⟩ : BufTy).Contents (Elt F)) : (⟨S100000x64, .f32⟩ : BufTy).Contents (Elt F) :=
  broadcastInDim S100000x64 ![0, 1] bcast_S1x64_S100000x64_0_1 (val_main_v44 (F := F) x4)
abbrev idx_main_v45 (i : S100000x64.Idx) : S1x64.Idx := fun a => match a with
  | ⟨0, _⟩ => ⟨0, Nat.one_pos⟩
  | ⟨1, _⟩ => ⟨(i 1).val, (i 1).isLt⟩
theorem val_main_v45_apply (x4 : (⟨S64, .f32⟩ : BufTy).Contents (Elt F)) (i : S100000x64.Idx) :
    val_main_v45 (F := F) x4 i = val_main_v44 (F := F) x4 (idx_main_v45 i) := by
  unfold val_main_v45
  generalize val_main_v44 (F := F) x4 = y
  exact broadcastInDim_apply _ bcast_S1x64_S100000x64_0_1 y i (idx_main_v45 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v46 (x0 : (⟨S100000x64, .f32⟩ : BufTy).Contents (Elt F)) (x1 : (⟨S2x1600000, .i32⟩ : BufTy).Contents (Elt F)) (x3 : (⟨S64x64, .f32⟩ : BufTy).Contents (Elt F)) (x4 : (⟨S64, .f32⟩ : BufTy).Contents (Elt F)) : (⟨S100000x64, .f32⟩ : BufTy).Contents (Elt F) :=
  addf (val_main_v43 (F := F) x0 x1 x3) (val_main_v45 (F := F) x4)
theorem val_main_v46_apply (x0 : (⟨S100000x64, .f32⟩ : BufTy).Contents (Elt F)) (x1 : (⟨S2x1600000, .i32⟩ : BufTy).Contents (Elt F)) (x3 : (⟨S64x64, .f32⟩ : BufTy).Contents (Elt F)) (x4 : (⟨S64, .f32⟩ : BufTy).Contents (Elt F)) (i : S100000x64.Idx) :
    val_main_v46 (F := F) x0 x1 x3 x4 i = FloatOps.addf (val_main_v43 (F := F) x0 x1 x3 i) (val_main_v45 (F := F) x4 i) := rfl

def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

def val_main_call1_v0 : (⟨S100000x64, .f32⟩ : BufTy).Contents (Elt F) :=
  broadcastInDim S100000x64 ![] bcast_S_S100000x64 (val_main_call1_cst (F := F))
abbrev idx_main_call1_v0 (i : S100000x64.Idx) : S_.Idx := fun a => a.elim0
theorem val_main_call1_v0_apply (i : S100000x64.Idx) :
    val_main_call1_v0 (F := F) i = val_main_call1_cst (F := F) (idx_main_call1_v0 i) := by
  unfold val_main_call1_v0
  generalize val_main_call1_cst (F := F) = y
  exact broadcastInDim_apply _ bcast_S_S100000x64 y i (idx_main_call1_v0 i) (fun a => a.elim0)

def val_main_v47 (x0 : (⟨S100000x64, .f32⟩ : BufTy).Contents (Elt F)) (x1 : (⟨S2x1600000, .i32⟩ : BufTy).Contents (Elt F)) (x3 : (⟨S64x64, .f32⟩ : BufTy).Contents (Elt F)) (x4 : (⟨S64, .f32⟩ : BufTy).Contents (Elt F)) : (⟨S100000x64, .f32⟩ : BufTy).Contents (Elt F) :=
  maximumf (val_main_v46 (F := F) x0 x1 x3 x4) (val_main_call1_v0 (F := F))
theorem val_main_v47_apply (x0 : (⟨S100000x64, .f32⟩ : BufTy).Contents (Elt F)) (x1 : (⟨S2x1600000, .i32⟩ : BufTy).Contents (Elt F)) (x3 : (⟨S64x64, .f32⟩ : BufTy).Contents (Elt F)) (x4 : (⟨S64, .f32⟩ : BufTy).Contents (Elt F)) (i : S100000x64.Idx) :
    val_main_v47 (F := F) x0 x1 x3 x4 i = FloatOps.maximumf (val_main_v46 (F := F) x0 x1 x3 x4 i) (val_main_call1_v0 (F := F) i) := rfl

def val_main_v48 (x0 : (⟨S100000x64, .f32⟩ : BufTy).Contents (Elt F)) (x1 : (⟨S2x1600000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) : (⟨S100000x64, .f32⟩ : BufTy).Contents (Elt F) :=
  Host.dotGeneral dot_S100000x64_S64x64_S100000x64_1_0_0_1_n_n none (val_main_v47 (F := F) x0 x1 x3 x4) (x5)
def val_main_c_9 : (⟨S_, .i32⟩ : BufTy).Contents (Elt F) :=
  constantI S_ 32 0#32
def val_main_v49 : (⟨S1700000, .i32⟩ : BufTy).Contents (Elt F) :=
  broadcastInDim S1700000 ![] bcast_S_S1700000 (val_main_c_9 (F := F))
def val_main_v50 (x1 : (⟨S2x1600000, .i32⟩ : BufTy).Contents (Elt F)) : (⟨S1700000, .i1⟩ : BufTy).Contents (Elt F) :=
  cmpi .slt (val_main_v3 (F := F) x1) (val_main_v49 (F := F))
def val_main_c_10 : (⟨S_, .i32⟩ : BufTy).Contents (Elt F) :=
  constantI S_ 32 100000#32
def val_main_v51 : (⟨S1700000, .i32⟩ : BufTy).Contents (Elt F) :=
  broadcastInDim S1700000 ![] bcast_S_S1700000 (val_main_c_10 (F := F))
def val_main_v52 (x1 : (⟨S2x1600000, .i32⟩ : BufTy).Contents (Elt F)) : (⟨S1700000, .i32⟩ : BufTy).Contents (Elt F) :=
  addi (val_main_v3 (F := F) x1) (val_main_v51 (F := F))
def val_main_v53 (x1 : (⟨S2x1600000, .i32⟩ : BufTy).Contents (Elt F)) : (⟨S1700000, .i32⟩ : BufTy).Contents (Elt F) :=
  select (val_main_v50 (F := F) x1) (val_main_v52 (F := F) x1) (val_main_v3 (F := F) x1)
def val_main_v54 (x1 : (⟨S2x1600000, .i32⟩ : BufTy).Contents (Elt F)) : (⟨S1700000x1, .i32⟩ : BufTy).Contents (Elt F) :=
  broadcastInDim S1700000x1 ![0] bcast_S1700000_S1700000x1_0 (val_main_v53 (F := F) x1)
def val_main_v55 (x0 : (⟨S100000x64, .f32⟩ : BufTy).Contents (Elt F)) (x1 : (⟨S2x1600000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) : (⟨S1700000x64, .f32⟩ : BufTy).Contents (Elt F) :=
  Host.gather gather_S100000x64_S1700000x1_S1700000x64_1_0_n_n_0_1_164 (val_main_v48 (F := F) x0 x1 x3 x4 x5) (val_main_v54 (F := F) x1)

def val_main_v56 (x1 : (⟨S2x1600000, .i32⟩ : BufTy).Contents (Elt F)) : (⟨S1700000x1, .f32⟩ : BufTy).Contents (Elt F) :=
  broadcastInDim S1700000x1 ![0] bcast_S1700000_S1700000x1_0 (val_main_v29 (F := F) x1)
def val_main_v57 (x1 : (⟨S2x1600000, .i32⟩ : BufTy).Contents (Elt F)) : (⟨S1700000x64, .f32⟩ : BufTy).Contents (Elt F) :=
  broadcastInDim S1700000x64 ![0, 1] bcast_S1700000x1_S1700000x64_0_1 (val_main_v56 (F := F) x1)
def val_main_v58 (x0 : (⟨S100000x64, .f32⟩ : BufTy).Contents (Elt F)) (x1 : (⟨S2x1600000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) : (⟨S1700000x64, .f32⟩ : BufTy).Contents (Elt F) :=
  mulf (val_main_v55 (F := F) x0 x1 x3 x4 x5) (val_main_v57 (F := F) x1)
def val_main_cst_11 : (⟨S_, .f32⟩ : BufTy).Contents (Elt F) :=
  constant S_ .f32 0x00000000#32
def val_main_v59 : (⟨S100000x64, .f32⟩ : BufTy).Contents (Elt F) :=
  broadcastInDim S100000x64 ![] bcast_S_S100000x64 (val_main_cst_11 (F := F))
def val_main_v60 (x1 : (⟨S2x1600000, .i32⟩ : BufTy).Contents (Elt F)) : (⟨S1700000x1, .i32⟩ : BufTy).Contents (Elt F) :=
  broadcastInDim S1700000x1 ![0] bcast_S1700000_S1700000x1_0 (val_main_v6 (F := F) x1)
def val_main_v61 (x0 : (⟨S100000x64, .f32⟩ : BufTy).Contents (Elt F)) (x1 : (⟨S2x1600000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) : (⟨S100000x64, .f32⟩ : BufTy).Contents (Elt F) :=
  Host.scatterAdd scatter_S100000x64_S1700000x1_S1700000x64_1_0_0_1 (val_main_v59 (F := F)) (val_main_v60 (F := F) x1) (val_main_v58 (F := F) x0 x1 x3 x4 x5)

def val_main_v62 (x6 : (⟨S64, .f32⟩ : BufTy).Contents (Elt F)) : (⟨S1x64, .f32⟩ : BufTy).Contents (Elt F) :=
  broadcastInDim S1x64 ![1] bcast_S64_S1x64_1 (x6)
def val_main_v63 (x6 : (⟨S64, .f32⟩ : BufTy).Contents (Elt F)) : (⟨S100000x64, .f32⟩ : BufTy).Contents (Elt F) :=
  broadcastInDim S100000x64 ![0, 1] bcast_S1x64_S100000x64_0_1 (val_main_v62 (F := F) x6)
def val_main_v64 (x0 : (⟨S100000x64, .f32⟩ : BufTy).Contents (Elt F)) (x1 : (⟨S2x1600000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) : (⟨S100000x64, .f32⟩ : BufTy).Contents (Elt F) :=
  addf (val_main_v61 (F := F) x0 x1 x3 x4 x5) (val_main_v63 (F := F) x6)
def val_main_call2_cst : (⟨S_, .f32⟩ : BufTy).Contents (Elt F) :=
  constant S_ .f32 0x00000000#32
def val_main_call2_v0 : (⟨S100000x64, .f32⟩ : BufTy).Contents (Elt F) :=
  broadcastInDim S100000x64 ![] bcast_S_S100000x64 (val_main_call2_cst (F := F))
def val_main_v65 (x0 : (⟨S100000x64, .f32⟩ : BufTy).Contents (Elt F)) (x1 : (⟨S2x1600000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) : (⟨S100000x64, .f32⟩ : BufTy).Contents (Elt F) :=
  maximumf (val_main_v64 (F := F) x0 x1 x3 x4 x5 x6) (val_main_call2_v0 (F := F))
def val_main_v66 (x0 : (⟨S100000x64, .f32⟩ : BufTy).Contents (Elt F)) (x1 : (⟨S2x1600000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) : (⟨S100000x64, .f32⟩ : BufTy).Contents (Elt F) :=
  Host.dotGeneral dot_S100000x64_S64x64_S100000x64_1_0_0_1_n_n none (val_main_v65 (F := F) x0 x1 x3 x4 x5 x6) (x7)
def val_main_c_12 : (⟨S_, .i32⟩ : BufTy).Contents (Elt F) :=
  constantI S_ 32 0#32
def val_main_v67 : (⟨S1700000, .i32⟩ : BufTy).Contents (Elt F) :=
  broadcastInDim S1700000 ![] bcast_S_S1700000 (val_main_c_12 (F := F))
def val_main_v68 (x1 : (⟨S2x1600000, .i32⟩ : BufTy).Contents (Elt F)) : (⟨S1700000, .i1⟩ : BufTy).Contents (Elt F) :=
  cmpi .slt (val_main_v3 (F := F) x1) (val_main_v67 (F := F))
def val_main_c_13 : (⟨S_, .i32⟩ : BufTy).Contents (Elt F) :=
  constantI S_ 32 100000#32
def val_main_v69 : (⟨S1700000, .i32⟩ : BufTy).Contents (Elt F) :=
  broadcastInDim S1700000 ![] bcast_S_S1700000 (val_main_c_13 (F := F))
def val_main_v70 (x1 : (⟨S2x1600000, .i32⟩ : BufTy).Contents (Elt F)) : (⟨S1700000, .i32⟩ : BufTy).Contents (Elt F) :=
  addi (val_main_v3 (F := F) x1) (val_main_v69 (F := F))
def val_main_v71 (x1 : (⟨S2x1600000, .i32⟩ : BufTy).Contents (Elt F)) : (⟨S1700000, .i32⟩ : BufTy).Contents (Elt F) :=
  select (val_main_v68 (F := F) x1) (val_main_v70 (F := F) x1) (val_main_v3 (F := F) x1)
def val_main_v72 (x1 : (⟨S2x1600000, .i32⟩ : BufTy).Contents (Elt F)) : (⟨S1700000x1, .i32⟩ : BufTy).Contents (Elt F) :=
  broadcastInDim S1700000x1 ![0] bcast_S1700000_S1700000x1_0 (val_main_v71 (F := F) x1)
def val_main_v73 (x0 : (⟨S100000x64, .f32⟩ : BufTy).Contents (Elt F)) (x1 : (⟨S2x1600000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) : (⟨S1700000x64, .f32⟩ : BufTy).Contents (Elt F) :=
  Host.gather gather_S100000x64_S1700000x1_S1700000x64_1_0_n_n_0_1_164 (val_main_v66 (F := F) x0 x1 x3 x4 x5 x6 x7) (val_main_v72 (F := F) x1)

def val_main_v74 (x1 : (⟨S2x1600000, .i32⟩ : BufTy).Contents (Elt F)) : (⟨S1700000x1, .f32⟩ : BufTy).Contents (Elt F) :=
  broadcastInDim S1700000x1 ![0] bcast_S1700000_S1700000x1_0 (val_main_v29 (F := F) x1)
def val_main_v75 (x1 : (⟨S2x1600000, .i32⟩ : BufTy).Contents (Elt F)) : (⟨S1700000x64, .f32⟩ : BufTy).Contents (Elt F) :=
  broadcastInDim S1700000x64 ![0, 1] bcast_S1700000x1_S1700000x64_0_1 (val_main_v74 (F := F) x1)
def val_main_v76 (x0 : (⟨S100000x64, .f32⟩ : BufTy).Contents (Elt F)) (x1 : (⟨S2x1600000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) : (⟨S1700000x64, .f32⟩ : BufTy).Contents (Elt F) :=
  mulf (val_main_v73 (F := F) x0 x1 x3 x4 x5 x6 x7) (val_main_v75 (F := F) x1)
def val_main_cst_14 : (⟨S_, .f32⟩ : BufTy).Contents (Elt F) :=
  constant S_ .f32 0x00000000#32
def val_main_v77 : (⟨S100000x64, .f32⟩ : BufTy).Contents (Elt F) :=
  broadcastInDim S100000x64 ![] bcast_S_S100000x64 (val_main_cst_14 (F := F))
def val_main_v78 (x1 : (⟨S2x1600000, .i32⟩ : BufTy).Contents (Elt F)) : (⟨S1700000x1, .i32⟩ : BufTy).Contents (Elt F) :=
  broadcastInDim S1700000x1 ![0] bcast_S1700000_S1700000x1_0 (val_main_v6 (F := F) x1)
def val_main_v79 (x0 : (⟨S100000x64, .f32⟩ : BufTy).Contents (Elt F)) (x1 : (⟨S2x1600000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) : (⟨S100000x64, .f32⟩ : BufTy).Contents (Elt F) :=
  Host.scatterAdd scatter_S100000x64_S1700000x1_S1700000x64_1_0_0_1 (val_main_v77 (F := F)) (val_main_v78 (F := F) x1) (val_main_v76 (F := F) x0 x1 x3 x4 x5 x6 x7)

def val_main_v80 (x8 : (⟨S64, .f32⟩ : BufTy).Contents (Elt F)) : (⟨S1x64, .f32⟩ : BufTy).Contents (Elt F) :=
  broadcastInDim S1x64 ![1] bcast_S64_S1x64_1 (x8)
def val_main_v81 (x8 : (⟨S64, .f32⟩ : BufTy).Contents (Elt F)) : (⟨S100000x64, .f32⟩ : BufTy).Contents (Elt F) :=
  broadcastInDim S100000x64 ![0, 1] bcast_S1x64_S100000x64_0_1 (val_main_v80 (F := F) x8)
def val_main_v82 (x0 : (⟨S100000x64, .f32⟩ : BufTy).Contents (Elt F)) (x1 : (⟨S2x1600000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) : (⟨S100000x64, .f32⟩ : BufTy).Contents (Elt F) :=
  addf (val_main_v79 (F := F) x0 x1 x3 x4 x5 x6 x7) (val_main_v81 (F := F) x8)
def val_main_call3_cst : (⟨S_, .f32⟩ : BufTy).Contents (Elt F) :=
  constant S_ .f32 0x00000000#32
def val_main_call3_v0 : (⟨S100000x64, .f32⟩ : BufTy).Contents (Elt F) :=
  broadcastInDim S100000x64 ![] bcast_S_S100000x64 (val_main_call3_cst (F := F))
def val_main_v83 (x0 : (⟨S100000x64, .f32⟩ : BufTy).Contents (Elt F)) (x1 : (⟨S2x1600000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) : (⟨S100000x64, .f32⟩ : BufTy).Contents (Elt F) :=
  maximumf (val_main_v82 (F := F) x0 x1 x3 x4 x5 x6 x7 x8) (val_main_call3_v0 (F := F))
def val_main_v84 (x0 : (⟨S100000x64, .f32⟩ : BufTy).Contents (Elt F)) (x1 : (⟨S2x1600000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) : (⟨S100000x192, .f32⟩ : BufTy).Contents (Elt F) :=
  concatenate S100000x192 1 [⟨S100000x64, (val_main_v47 (F := F) x0 x1 x3 x4)⟩, ⟨S100000x64, (val_main_v65 (F := F) x0 x1 x3 x4 x5 x6)⟩, ⟨S100000x64, (val_main_v83 (F := F) x0 x1 x3 x4 x5 x6 x7 x8)⟩] concatenates_S100000x64_S100000x64_S100000x64_S100000x192_d1

def val_main_cst_15 : (⟨S_, .f32⟩ : BufTy).Contents (Elt F) :=
  constant S_ .f32 0x00000000#32
theorem val_main_cst_15_apply (i : S_.Idx) :
    val_main_cst_15 (F := F) i = FloatOps.ofBits .f32 0x00000000#32 := rfl

def val_main_v85 : (⟨S128x192, .f32⟩ : BufTy).Contents (Elt F) :=
  broadcastInDim S128x192 ![] bcast_S_S128x192 (val_main_cst_15 (F := F))
abbrev idx_main_v85 (i : S128x192.Idx) : S_.Idx := fun a => a.elim0
theorem val_main_v85_apply (i : S128x192.Idx) :
    val_main_v85 (F := F) i = val_main_cst_15 (F := F) (idx_main_v85 i) := by
  unfold val_main_v85
  generalize val_main_cst_15 (F := F) = y
  exact broadcastInDim_apply _ bcast_S_S128x192 y i (idx_main_v85 i) (fun a => a.elim0)

def val_main_v86 (x2 : (⟨S100000, .i32⟩ : BufTy).Contents (Elt F)) : (⟨S100000x1, .i32⟩ : BufTy).Contents (Elt F) :=
  broadcastInDim S100000x1 ![0] bcast_S100000_S100000x1_0 (x2)
abbrev idx_main_v86 (i : S100000x1.Idx) : S100000.Idx := fun a => match a with
  | ⟨0, _⟩ => ⟨(i 0).val, (i 0).isLt⟩
theorem val_main_v86_apply (x2 : (⟨S100000, .i32⟩ : BufTy).Contents (Elt F)) (i : S100000x1.Idx) :
    val_main_v86 (F := F) x2 i = x2 (idx_main_v86 i) := by
  unfold val_main_v86
  exact broadcastInDim_apply _ bcast_S100000_S100000x1_0 x2 i (idx_main_v86 i) (fun a => match a with
    | ⟨0, _⟩ => by show (i 0).val = if (100000 : Nat) = 1 then 0 else (i 0).val; rw [if_neg (by decide)])

def val_main_v87 (x0 : (⟨S100000x64, .f32⟩ : BufTy).Contents (Elt F)) (x1 : (⟨S2x1600000, .i32⟩ : BufTy).Contents (Elt F)) (x2 : (⟨S100000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) : (⟨S128x192, .f32⟩ : BufTy).Contents (Elt F) :=
  Host.scatterAdd scatter_S128x192_S100000x1_S100000x192_1_0_0_1 (val_main_v85 (F := F)) (val_main_v86 (F := F) x2) (val_main_v84 (F := F) x0 x1 x3 x4 x5 x6 x7 x8)

def val_main_cst_16 : (⟨S_, .f32⟩ : BufTy).Contents (Elt F) :=
  constant S_ .f32 0x3F800000#32
theorem val_main_cst_16_apply (i : S_.Idx) :
    val_main_cst_16 (F := F) i = FloatOps.ofBits .f32 0x3F800000#32 := rfl

def val_main_v88 : (⟨S100000, .f32⟩ : BufTy).Contents (Elt F) :=
  broadcastInDim S100000 ![] bcast_S_S100000 (val_main_cst_16 (F := F))
abbrev idx_main_v88 (i : S100000.Idx) : S_.Idx := fun a => a.elim0
theorem val_main_v88_apply (i : S100000.Idx) :
    val_main_v88 (F := F) i = val_main_cst_16 (F := F) (idx_main_v88 i) := by
  unfold val_main_v88
  generalize val_main_cst_16 (F := F) = y
  exact broadcastInDim_apply _ bcast_S_S100000 y i (idx_main_v88 i) (fun a => a.elim0)

def val_main_cst_17 : (⟨S_, .f32⟩ : BufTy).Contents (Elt F) :=
  constant S_ .f32 0x00000000#32
theorem val_main_cst_17_apply (i : S_.Idx) :
    val_main_cst_17 (F := F) i = FloatOps.ofBits .f32 0x00000000#32 := rfl

def val_main_v89 : (⟨S128, .f32⟩ : BufTy).Contents (Elt F) :=
  broadcastInDim S128 ![] bcast_S_S128 (val_main_cst_17 (F := F))
abbrev idx_main_v89 (i : S128.Idx) : S_.Idx := fun a => a.elim0
theorem val_main_v89_apply (i : S128.Idx) :
    val_main_v89 (F := F) i = val_main_cst_17 (F := F) (idx_main_v89 i) := by
  unfold val_main_v89
  generalize val_main_cst_17 (F := F) = y
  exact broadcastInDim_apply _ bcast_S_S128 y i (idx_main_v89 i) (fun a => a.elim0)

def val_main_v90 (x2 : (⟨S100000, .i32⟩ : BufTy).Contents (Elt F)) : (⟨S100000x1, .i32⟩ : BufTy).Contents (Elt F) :=
  broadcastInDim S100000x1 ![0] bcast_S100000_S100000x1_0 (x2)
abbrev idx_main_v90 (i : S100000x1.Idx) : S100000.Idx := fun a => match a with
  | ⟨0, _⟩ => ⟨(i 0).val, (i 0).isLt⟩
theorem val_main_v90_apply (x2 : (⟨S100000, .i32⟩ : BufTy).Contents (Elt F)) (i : S100000x1.Idx) :
    val_main_v90 (F := F) x2 i = x2 (idx_main_v90 i) := by
  unfold val_main_v90
  exact broadcastInDim_apply _ bcast_S100000_S100000x1_0 x2 i (idx_main_v90 i) (fun a => match a with
    | ⟨0, _⟩ => by show (i 0).val = if (100000 : Nat) = 1 then 0 else (i 0).val; rw [if_neg (by decide)])

def val_main_v91 (x2 : (⟨S100000, .i32⟩ : BufTy).Contents (Elt F)) : (⟨S128, .f32⟩ : BufTy).Contents (Elt F) :=
  Host.scatterAdd scatter_S128_S100000x1_S100000_n_0_0_1 (val_main_v89 (F := F)) (val_main_v90 (F := F) x2) (val_main_v88 (F := F))

def val_main_cst_18 : (⟨S_, .f32⟩ : BufTy).Contents (Elt F) :=
  constant S_ .f32 0x3F800000#32
theorem val_main_cst_18_apply (i : S_.Idx) :
    val_main_cst_18 (F := F) i = FloatOps.ofBits .f32 0x3F800000#32 := rfl

def val_main_v92 : (⟨S128, .f32⟩ : BufTy).Contents (Elt F) :=
  broadcastInDim S128 ![] bcast_S_S128 (val_main_cst_18 (F := F))
abbrev idx_main_v92 (i : S128.Idx) : S_.Idx := fun a => a.elim0
theorem val_main_v92_apply (i : S128.Idx) :
    val_main_v92 (F := F) i = val_main_cst_18 (F := F) (idx_main_v92 i) := by
  unfold val_main_v92
  generalize val_main_cst_18 (F := F) = y
  exact broadcastInDim_apply _ bcast_S_S128 y i (idx_main_v92 i) (fun a => a.elim0)

def val_main_v93 (x2 : (⟨S100000, .i32⟩ : BufTy).Contents (Elt F)) : (⟨S128, .f32⟩ : BufTy).Contents (Elt F) :=
  maximumf (val_main_v91 (F := F) x2) (val_main_v92 (F := F))
theorem val_main_v93_apply (x2 : (⟨S100000, .i32⟩ : BufTy).Contents (Elt F)) (i : S128.Idx) :
    val_main_v93 (F := F) x2 i = FloatOps.maximumf (val_main_v91 (F := F) x2 i) (val_main_v92 (F := F) i) := rfl

def val_main_v94 (x2 : (⟨S100000, .i32⟩ : BufTy).Contents (Elt F)) : (⟨S128x1, .f32⟩ : BufTy).Contents (Elt F) :=
  broadcastInDim S128x1 ![0] bcast_S128_S128x1_0 (val_main_v93 (F := F) x2)
abbrev idx_main_v94 (i : S128x1.Idx) : S128.Idx := fun a => match a with
  | ⟨0, _⟩ => ⟨(i 0).val, (i 0).isLt⟩
theorem val_main_v94_apply (x2 : (⟨S100000, .i32⟩ : BufTy).Contents (Elt F)) (i : S128x1.Idx) :
    val_main_v94 (F := F) x2 i = val_main_v93 (F := F) x2 (idx_main_v94 i) := by
  unfold val_main_v94
  generalize val_main_v93 (F := F) x2 = y
  exact broadcastInDim_apply _ bcast_S128_S128x1_0 y i (idx_main_v94 i) (fun a => match a with
    | ⟨0, _⟩ => by show (i 0).val = if (128 : Nat) = 1 then 0 else (i 0).val; rw [if_neg (by decide)])

def val_main_v95 (x2 : (⟨S100000, .i32⟩ : BufTy).Contents (Elt F)) : (⟨S128x192, .f32⟩ : BufTy).Contents (Elt F) :=
  broadcastInDim S128x192 ![0, 1] bcast_S128x1_S128x192_0_1 (val_main_v94 (F := F) x2)
abbrev idx_main_v95 (i : S128x192.Idx) : S128x1.Idx := fun a => match a with
  | ⟨0, _⟩ => ⟨(i 0).val, (i 0).isLt⟩
  | ⟨1, _⟩ => ⟨0, Nat.one_pos⟩
theorem val_main_v95_apply (x2 : (⟨S100000, .i32⟩ : BufTy).Contents (Elt F)) (i : S128x192.Idx) :
    val_main_v95 (F := F) x2 i = val_main_v94 (F := F) x2 (idx_main_v95 i) := by
  unfold val_main_v95
  generalize val_main_v94 (F := F) x2 = y
  exact broadcastInDim_apply _ bcast_S128x1_S128x192_0_1 y i (idx_main_v95 i) (fun a => match a with
    | ⟨0, _⟩ => by show (i 0).val = if (128 : Nat) = 1 then 0 else (i 0).val; rw [if_neg (by decide)]
    | ⟨1, _⟩ => by show 0 = if (1 : Nat) = 1 then 0 else (i 1).val; rw [if_pos rfl])

def val_main_v96 (x0 : (⟨S100000x64, .f32⟩ : BufTy).Contents (Elt F)) (x1 : (⟨S2x1600000, .i32⟩ : BufTy).Contents (Elt F)) (x2 : (⟨S100000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) : (⟨S128x192, .f32⟩ : BufTy).Contents (Elt F) :=
  Host.divf (val_main_v87 (F := F) x0 x1 x2 x3 x4 x5 x6 x7 x8) (val_main_v95 (F := F) x2)
def val_main_v97 (x0 : (⟨S100000x64, .f32⟩ : BufTy).Contents (Elt F)) (x1 : (⟨S2x1600000, .i32⟩ : BufTy).Contents (Elt F)) (x2 : (⟨S100000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S192x10, .f32⟩ : BufTy).Contents (Elt F)) : (⟨S128x10, .f32⟩ : BufTy).Contents (Elt F) :=
  Host.dotGeneral dot_S128x192_S192x10_S128x10_1_0_0_1_n_n none (val_main_v96 (F := F) x0 x1 x2 x3 x4 x5 x6 x7 x8) (x9)
theorem lhs_main_v97_0 (i : S128x10.Idx) (q : dot_S128x192_S192x10_S128x10_1_0_0_1_n_n.contr.Idx) :
    (dot_S128x192_S192x10_S128x10_1_0_0_1_n_n.lhsIdx i q 0).val = (i 0).val := by
  unfold DotDims.lhsIdx
  rw [dif_neg (show ¬(0 : Fin S128x192.rank) ∈ dot_S128x192_S192x10_S128x10_1_0_0_1_n_n.lhsBatch by decide), dif_pos (show (0 : Fin S128x192.rank) ∈ dot_S128x192_S192x10_S128x10_1_0_0_1_n_n.lhsNonContracting by decide)]
  rfl
theorem lhs_main_v97_1 (i : S128x10.Idx) (q : dot_S128x192_S192x10_S128x10_1_0_0_1_n_n.contr.Idx) :
    (dot_S128x192_S192x10_S128x10_1_0_0_1_n_n.lhsIdx i q 1).val = (q ⟨0, by decide⟩).val :=
  dot_S128x192_S192x10_S128x10_1_0_0_1_n_n.lhsIdx_val_of_single rfl i q
theorem rhs_main_v97_0 (i : S128x10.Idx) (q : dot_S128x192_S192x10_S128x10_1_0_0_1_n_n.contr.Idx) :
    (dot_S128x192_S192x10_S128x10_1_0_0_1_n_n.rhsIdx i q 0).val = (q ⟨0, by decide⟩).val :=
  dot_S128x192_S192x10_S128x10_1_0_0_1_n_n.rhsIdx_val_of_single rfl i q
theorem rhs_main_v97_1 (i : S128x10.Idx) (q : dot_S128x192_S192x10_S128x10_1_0_0_1_n_n.contr.Idx) :
    (dot_S128x192_S192x10_S128x10_1_0_0_1_n_n.rhsIdx i q 1).val = (i 1).val := by
  unfold DotDims.rhsIdx
  rw [dif_neg (show ¬(1 : Fin S192x10.rank) ∈ dot_S128x192_S192x10_S128x10_1_0_0_1_n_n.rhsBatch by decide), dif_pos (show (1 : Fin S192x10.rank) ∈ dot_S128x192_S192x10_S128x10_1_0_0_1_n_n.rhsNonContracting by decide)]
  rfl
def val_main_v98 (x10 : (⟨S10, .f32⟩ : BufTy).Contents (Elt F)) : (⟨S1x10, .f32⟩ : BufTy).Contents (Elt F) :=
  broadcastInDim S1x10 ![1] bcast_S10_S1x10_1 (x10)
abbrev idx_main_v98 (i : S1x10.Idx) : S10.Idx := fun a => match a with
  | ⟨0, _⟩ => ⟨(i 1).val, (i 1).isLt⟩
theorem val_main_v98_apply (x10 : (⟨S10, .f32⟩ : BufTy).Contents (Elt F)) (i : S1x10.Idx) :
    val_main_v98 (F := F) x10 i = x10 (idx_main_v98 i) := by
  unfold val_main_v98
  exact broadcastInDim_apply _ bcast_S10_S1x10_1 x10 i (idx_main_v98 i) (fun a => match a with
    | ⟨0, _⟩ => by show (i 1).val = if (10 : Nat) = 1 then 0 else (i 1).val; rw [if_neg (by decide)])

def val_main_v99 (x10 : (⟨S10, .f32⟩ : BufTy).Contents (Elt F)) : (⟨S128x10, .f32⟩ : BufTy).Contents (Elt F) :=
  broadcastInDim S128x10 ![0, 1] bcast_S1x10_S128x10_0_1 (val_main_v98 (F := F) x10)
abbrev idx_main_v99 (i : S128x10.Idx) : S1x10.Idx := fun a => match a with
  | ⟨0, _⟩ => ⟨0, Nat.one_pos⟩
  | ⟨1, _⟩ => ⟨(i 1).val, (i 1).isLt⟩
theorem val_main_v99_apply (x10 : (⟨S10, .f32⟩ : BufTy).Contents (Elt F)) (i : S128x10.Idx) :
    val_main_v99 (F := F) x10 i = val_main_v98 (F := F) x10 (idx_main_v99 i) := by
  unfold val_main_v99
  generalize val_main_v98 (F := F) x10 = y
  exact broadcastInDim_apply _ bcast_S1x10_S128x10_0_1 y i (idx_main_v99 i) (fun a => match a with
    | ⟨0, _⟩ => by show 0 = if (1 : Nat) = 1 then 0 else (i 0).val; rw [if_pos rfl]
    | ⟨1, _⟩ => by show (i 1).val = if (10 : Nat) = 1 then 0 else (i 1).val; rw [if_neg (by decide)])

def val_main_v100 (x0 : (⟨S100000x64, .f32⟩ : BufTy).Contents (Elt F)) (x1 : (⟨S2x1600000, .i32⟩ : BufTy).Contents (Elt F)) (x2 : (⟨S100000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S192x10, .f32⟩ : BufTy).Contents (Elt F)) (x10 : (⟨S10, .f32⟩ : BufTy).Contents (Elt F)) : (⟨S128x10, .f32⟩ : BufTy).Contents (Elt F) :=
  addf (val_main_v97 (F := F) x0 x1 x2 x3 x4 x5 x6 x7 x8 x9) (val_main_v99 (F := F) x10)
def val_main_cst_19 : (⟨S_, .f32⟩ : BufTy).Contents (Elt F) :=
  constant S_ .f32 0xFF800000#32
theorem val_main_cst_19_apply (i : S_.Idx) :
    val_main_cst_19 (F := F) i = FloatOps.ofBits .f32 0xFF800000#32 := rfl

def val_main_v101 (x0 : (⟨S100000x64, .f32⟩ : BufTy).Contents (Elt F)) (x1 : (⟨S2x1600000, .i32⟩ : BufTy).Contents (Elt F)) (x2 : (⟨S100000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S192x10, .f32⟩ : BufTy).Contents (Elt F)) (x10 : (⟨S10, .f32⟩ : BufTy).Contents (Elt F)) : (⟨S128, .f32⟩ : BufTy).Contents (Elt F) :=
  Host.reduce FloatOps.maximumf (val_main_v100 (F := F) x0 x1 x2 x3 x4 x5 x6 x7 x8 x9 x10) (val_main_cst_19 (F := F)) reducesTo_S128x10_S128_d1 h_S_

def val_main_cst_20 : (⟨S_, .f32⟩ : BufTy).Contents (Elt F) :=
  constant S_ .f32 0xFF800000#32
theorem val_main_cst_20_apply (i : S_.Idx) :
    val_main_cst_20 (F := F) i = FloatOps.ofBits .f32 0xFF800000#32 := rfl

def val_main_v102 : (⟨S128, .f32⟩ : BufTy).Contents (Elt F) :=
  broadcastInDim S128 ![] bcast_S_S128 (val_main_cst_20 (F := F))
abbrev idx_main_v102 (i : S128.Idx) : S_.Idx := fun a => a.elim0
theorem val_main_v102_apply (i : S128.Idx) :
    val_main_v102 (F := F) i = val_main_cst_20 (F := F) (idx_main_v102 i) := by
  unfold val_main_v102
  generalize val_main_cst_20 (F := F) = y
  exact broadcastInDim_apply _ bcast_S_S128 y i (idx_main_v102 i) (fun a => a.elim0)

def val_main_v103 (x0 : (⟨S100000x64, .f32⟩ : BufTy).Contents (Elt F)) (x1 : (⟨S2x1600000, .i32⟩ : BufTy).Contents (Elt F)) (x2 : (⟨S100000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S192x10, .f32⟩ : BufTy).Contents (Elt F)) (x10 : (⟨S10, .f32⟩ : BufTy).Contents (Elt F)) : (⟨S128, .f32⟩ : BufTy).Contents (Elt F) :=
  maximumf (val_main_v102 (F := F)) (val_main_v101 (F := F) x0 x1 x2 x3 x4 x5 x6 x7 x8 x9 x10)
def val_main_v104 (x0 : (⟨S100000x64, .f32⟩ : BufTy).Contents (Elt F)) (x1 : (⟨S2x1600000, .i32⟩ : BufTy).Contents (Elt F)) (x2 : (⟨S100000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S192x10, .f32⟩ : BufTy).Contents (Elt F)) (x10 : (⟨S10, .f32⟩ : BufTy).Contents (Elt F)) : (⟨S128x1, .f32⟩ : BufTy).Contents (Elt F) :=
  broadcastInDim S128x1 ![0] bcast_S128_S128x1_0 (val_main_v103 (F := F) x0 x1 x2 x3 x4 x5 x6 x7 x8 x9 x10)
def val_main_v105 (x0 : (⟨S100000x64, .f32⟩ : BufTy).Contents (Elt F)) (x1 : (⟨S2x1600000, .i32⟩ : BufTy).Contents (Elt F)) (x2 : (⟨S100000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S192x10, .f32⟩ : BufTy).Contents (Elt F)) (x10 : (⟨S10, .f32⟩ : BufTy).Contents (Elt F)) : (⟨S128x10, .f32⟩ : BufTy).Contents (Elt F) :=
  broadcastInDim S128x10 ![0, 1] bcast_S128x1_S128x10_0_1 (val_main_v104 (F := F) x0 x1 x2 x3 x4 x5 x6 x7 x8 x9 x10)
def val_main_v106 (x0 : (⟨S100000x64, .f32⟩ : BufTy).Contents (Elt F)) (x1 : (⟨S2x1600000, .i32⟩ : BufTy).Contents (Elt F)) (x2 : (⟨S100000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S192x10, .f32⟩ : BufTy).Contents (Elt F)) (x10 : (⟨S10, .f32⟩ : BufTy).Contents (Elt F)) : (⟨S128x10, .f32⟩ : BufTy).Contents (Elt F) :=
  subf (val_main_v100 (F := F) x0 x1 x2 x3 x4 x5 x6 x7 x8 x9 x10) (val_main_v105 (F := F) x0 x1 x2 x3 x4 x5 x6 x7 x8 x9 x10)
def val_main_v107 (x0 : (⟨S100000x64, .f32⟩ : BufTy).Contents (Elt F)) (x1 : (⟨S2x1600000, .i32⟩ : BufTy).Contents (Elt F)) (x2 : (⟨S100000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S192x10, .f32⟩ : BufTy).Contents (Elt F)) (x10 : (⟨S10, .f32⟩ : BufTy).Contents (Elt F)) : (⟨S128x10, .f32⟩ : BufTy).Contents (Elt F) :=
  Host.exp (val_main_v106 (F := F) x0 x1 x2 x3 x4 x5 x6 x7 x8 x9 x10)
def val_main_cst_21 : (⟨S_, .f32⟩ : BufTy).Contents (Elt F) :=
  constant S_ .f32 0x00000000#32
theorem val_main_cst_21_apply (i : S_.Idx) :
    val_main_cst_21 (F := F) i = FloatOps.ofBits .f32 0x00000000#32 := rfl

def val_main_v108 (x0 : (⟨S100000x64, .f32⟩ : BufTy).Contents (Elt F)) (x1 : (⟨S2x1600000, .i32⟩ : BufTy).Contents (Elt F)) (x2 : (⟨S100000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S192x10, .f32⟩ : BufTy).Contents (Elt F)) (x10 : (⟨S10, .f32⟩ : BufTy).Contents (Elt F)) : (⟨S128, .f32⟩ : BufTy).Contents (Elt F) :=
  Host.reduceAdd (val_main_v107 (F := F) x0 x1 x2 x3 x4 x5 x6 x7 x8 x9 x10) (val_main_cst_21 (F := F)) reducesTo_S128x10_S128_d1 h_S_
def val_main_v109 (x0 : (⟨S100000x64, .f32⟩ : BufTy).Contents (Elt F)) (x1 : (⟨S2x1600000, .i32⟩ : BufTy).Contents (Elt F)) (x2 : (⟨S100000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S192x10, .f32⟩ : BufTy).Contents (Elt F)) (x10 : (⟨S10, .f32⟩ : BufTy).Contents (Elt F)) : (⟨S128x1, .f32⟩ : BufTy).Contents (Elt F) :=
  broadcastInDim S128x1 ![0] bcast_S128_S128x1_0 (val_main_v108 (F := F) x0 x1 x2 x3 x4 x5 x6 x7 x8 x9 x10)
def val_main_v110 (x0 : (⟨S100000x64, .f32⟩ : BufTy).Contents (Elt F)) (x1 : (⟨S2x1600000, .i32⟩ : BufTy).Contents (Elt F)) (x2 : (⟨S100000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S192x10, .f32⟩ : BufTy).Contents (Elt F)) (x10 : (⟨S10, .f32⟩ : BufTy).Contents (Elt F)) : (⟨S128x10, .f32⟩ : BufTy).Contents (Elt F) :=
  broadcastInDim S128x10 ![0, 1] bcast_S128x1_S128x10_0_1 (val_main_v109 (F := F) x0 x1 x2 x3 x4 x5 x6 x7 x8 x9 x10)
def val_main_v111 (x0 : (⟨S100000x64, .f32⟩ : BufTy).Contents (Elt F)) (x1 : (⟨S2x1600000, .i32⟩ : BufTy).Contents (Elt F)) (x2 : (⟨S100000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x64, .f32⟩ : BufTy).Contents (Elt F)) (x8 : (⟨S64, .f32⟩ : BufTy).Contents (Elt F)) (x9 : (⟨S192x10, .f32⟩ : BufTy).Contents (Elt F)) (x10 : (⟨S10, .f32⟩ : BufTy).Contents (Elt F)) : (⟨S128x10, .f32⟩ : BufTy).Contents (Elt F) :=
  Host.divf (val_main_v107 (F := F) x0 x1 x2 x3 x4 x5 x6 x7 x8 x9 x10) (val_main_v110 (F := F) x0 x1 x2 x3 x4 x5 x6 x7 x8 x9 x10)

end Cert.ReferenceIdeal.Read

end
-- ==== Proof.KI.KTerms.lean ====
import proofs.«416900_j23630910063028_3_alg».proof.Proof.RefRead
import proofs.«416900_j23630910063028_3_alg».proof.Proof.Spec
import proofs.«416900_j23630910063028_3_alg».proof.Proof.Gen.KernelIdeal
import proofs.«416900_j23630910063028_3_alg».proof.KernelIdeal

noncomputable section

namespace Cert.KernelIdeal.Val

open Cert.KernelIdeal Cert.KernelIdeal.Gen Cert.Spec
open Idealize.ShloMosaic
open Cert.ReferenceIdeal.Read (val_main_v14 val_main_v36 val_main_v42)

abbrev EdgeArr : Type := (⟨S2x1600000, .i32⟩ : BufTy).Contents (Elt Ideal)

def dcol (ei : EdgeArr) : Arr2 100000 1 :=
  shapeCast S100000x1 (val_main_v14 (F := Ideal) ei) shapeCasts_S100000_S100000x1

def LK (x : Arr2 100000 64) (ei : EdgeArr) (W : Arr2 64 64) (b : (⟨S64, .f32⟩ : BufTy).Contents (Elt Ideal)) : Arr2 100000 64 :=
  biasArr
    ((Host.scatterAdd scatter_S100000x64_S1700000x1_S1700000x64_1_0_0_1
      (broadcastInDim S100000x64 ![] bcast_S_S100000x64 (constant (F := Ideal) S_ .f32 0x00000000#32))
      (val_main_v42 (F := Ideal) ei)
      (extf (F := Ideal) .f32
        ((Host.gather gather_S100000x64_S1700000x1_S1700000x64_1_0_n_n_0_1_164
          (mmArr x W (dcol ei) : (⟨S100000x64, .bf16⟩ : BufTy).Contents (Elt Ideal))
          (val_main_v36 (F := Ideal) ei)) : (⟨S1700000x64, .bf16⟩ : BufTy).Contents (Elt Ideal))
        bitsLt_bf16_f32)) : (⟨S100000x64, .f32⟩ : BufTy).Contents (Elt Ideal))
    (dcol ei)
    (shapeCast S1x64 b shapeCasts_S64_S1x64)

abbrev btcol (bt : (⟨S100000, .i32⟩ : BufTy).Contents (Elt Ideal)) : (⟨S100000x1, .i32⟩ : BufTy).Contents (Elt Ideal) :=
  shapeCast S100000x1 bt shapeCasts_S100000_S100000x1

abbrev wfSlice0 (wf : (⟨S192x10, .f32⟩ : BufTy).Contents (Elt Ideal)) : Arr2 64 10 :=
  extractStridedSlice S64x10 ![0, 0] wf slices_S192x10_S64x10_0_0
abbrev wfSlice1 (wf : (⟨S192x10, .f32⟩ : BufTy).Contents (Elt Ideal)) : Arr2 64 10 :=
  extractStridedSlice S64x10 ![64, 0] wf slices_S192x10_S64x10_64_0
abbrev wfSlice2 (wf : (⟨S192x10, .f32⟩ : BufTy).Contents (Elt Ideal)) : Arr2 64 10 :=
  extractStridedSlice S64x10 ![128, 0] wf slices_S192x10_S64x10_128_0

abbrev bfrow (bf : (⟨S10, .f32⟩ : BufTy).Contents (Elt Ideal)) : Arr2 1 10 :=
  shapeCast S1x10 bf shapeCasts_S10_S1x10

end Cert.KernelIdeal.Val

end
-- ==== Proof.KI.KHost.lean ====
import proofs.«416900_j23630910063028_3_alg».proof.Proof.Gen.KernelIdeal.Regions
import proofs.«416900_j23630910063028_3_alg».proof.Proof.RefRead
import Idealize.ShloMosaic.Lib.StableHlo.Run

noncomputable section

namespace Cert.KernelIdeal.Val

open Cert.KernelIdeal Cert.KernelIdeal.Gen
open Idealize.ShloMosaic Idealize.ShloMosaic.TcCoe
open Idealize.SL Idealize.SL.Sem Idealize.ShloMosaic.StableHlo
open Cert.ReferenceIdeal.Read (val_main_v3 val_main_v6 val_main_v14)

variable {F : FTy → Type} [FloatOps F]

abbrev srcCol (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

abbrev aggOf (y : (⟨S100000x64, .bf16⟩ : BufTy).Contents (Elt F)) (s d : (⟨S1700000, .i32⟩ : BufTy).Contents (Elt F)) :
    (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (extf .f32 (Host.gather gather_S100000x64_S1700000x1_S1700000x64_1_0_n_n_0_1_164 y (srcCol s)) bitsLt_bf16_f32)

-- Two contents of the buffers that agree at every reference outside the list S.
structure Off (W W' : Valuation τ sig (Elt F)) where
  S : List (Ref sig .tc)
  eq : ∀ r, r ∉ S → W' (Proc.devRef .tc r) = W (Proc.devRef .tc r)

-- A stretch of host operations changes only the references its operations write.
def Off.host {ops : List (HloOp τ sig (Elt F))} {Wr : List (Ref sig .tc)}
    (h : ops.Forall fun op => op.writes ⊆ (Wr.map (Proc.devRef (τ := τ) .tc)).toFinset) (W : Valuation τ sig (Elt F)) :
    Off W (StableHlo.after ops W) :=
  ⟨Wr, fun _ hr => StableHlo.after_of_writes_sub ops W h hr⟩

def Off.upd (W : Valuation τ sig (Elt F)) (b : Ref sig .tc) (v) : Off W (Function.update W (Proc.devRef .tc b) v) :=
  ⟨[b], fun _ hr => Function.update_of_ne (StableHlo.devRef_ne_of_ne (List.ne_of_not_mem_cons hr)) ..⟩

def Off.trans {W W' W'' : Valuation τ sig (Elt F)} (h : Off W W') (h' : Off W' W'') : Off W W'' :=
  ⟨h.S ++ h'.S, fun r hr =>
    (h'.eq r fun x => hr (List.mem_append_right _ x)).trans (h.eq r fun x => hr (List.mem_append_left _ x))⟩

-- Contents that both agree with a third off their lists hold the same at a reference in neither list.
theorem Off.rd {W W' X : Valuation τ sig (Elt F)} (h : Off W X) (h' : Off W' X) (r : Ref sig .tc)
    (hr : decide (r ∉ h.S ++ h'.S) = true) {v} (e : W' (Proc.devRef .tc r) = v) : W (Proc.devRef .tc r) = v :=
  have hr := of_decide_eq_true hr
  ((h.eq r fun x => hr (List.mem_append_left _ x)).symm.trans (h'.eq r fun x => hr (List.mem_append_right _ x))).trans e

variable (W : Valuation τ sig (Elt F))

theorem h1_v27 {y} {s} {d} (hy : W (Proc.devRef .tc main_v16) = y) (hs : W (Proc.devRef .tc main_v3) = s) (hd : W (Proc.devRef .tc main_v6) = d) :
    StableHlo.after hostOps1 W (Proc.devRef .tc main_v27) = aggOf y s d := by
  subst hy hs hd; after_results_simp <;> rfl
theorem h1_v28 {b} (hb : W (Proc.devRef .tc main_arg4) = b) :
    StableHlo.after hostOps1 W (Proc.devRef .tc main_v28) = shapeCast S1x64 b shapeCasts_S64_S1x64 := by
  subst hb; after_results <;> rfl
theorem h3_v41 {y} {s} {d} (hy : W (Proc.devRef .tc main_v30) = y) (hs : W (Proc.devRef .tc main_v3) = s) (hd : W (Proc.devRef .tc main_v6) = d) :
    StableHlo.after hostOps3 W (Proc.devRef .tc main_v41) = aggOf y s d := by
  subst hy hs hd; after_results_simp <;> rfl
theorem h3_v42 {b} (hb : W (Proc.devRef .tc main_arg6) = b) :
    StableHlo.after hostOps3 W (Proc.devRef .tc main_v42) = shapeCast S1x64 b shapeCasts_S64_S1x64 := by
  subst hb; after_results <;> rfl
theorem h5_v55 {y} {s} {d} (hy : W (Proc.devRef .tc main_v44) = y) (hs : W (Proc.devRef .tc main_v3) = s) (hd : W (Proc.devRef .tc main_v6) = d) :
    StableHlo.after hostOps5 W (Proc.devRef .tc main_v55) = aggOf y s d := by
  subst hy hs hd; after_results_simp <;> rfl
theorem h5_v56 {b} (hb : W (Proc.devRef .tc main_arg8) = b) :
    StableHlo.after hostOps5 W (Proc.devRef .tc main_v56) = shapeCast S1x64 b shapeCasts_S64_S1x64 := by
  subst hb; after_results <;> rfl
theorem h6_v58 {x} (h : W (Proc.devRef .tc main_arg2) = x) :
    StableHlo.after hostOps6 W (Proc.devRef .tc main_v58) = shapeCast S100000x1 x shapeCasts_S100000_S100000x1 := by
  subst h; after_results <;> rfl
theorem h6_v59 {x} (h : W (Proc.devRef .tc main_arg9) = x) :
    StableHlo.after hostOps6 W (Proc.devRef .tc main_v59) = extractStridedSlice S64x10 ![0, 0] x slices_S192x10_S64x10_0_0 := by
  subst h; after_results <;> rfl
theorem h6_v60 {x} (h : W (Proc.devRef .tc main_arg9) = x) :
    StableHlo.after hostOps6 W (Proc.devRef .tc main_v60) = extractStridedSlice S64x10 ![64, 0] x slices_S192x10_S64x10_64_0 := by
  subst h; after_results <;> rfl
theorem h6_v61 {x} (h : W (Proc.devRef .tc main_arg9) = x) :
    StableHlo.after hostOps6 W (Proc.devRef .tc main_v61) = extractStridedSlice S64x10 ![128, 0] x slices_S192x10_S64x10_128_0 := by
  subst h; after_results <;> rfl
theorem h6_v62 {x} (h : W (Proc.devRef .tc main_arg10) = x) :
    StableHlo.after hostOps6 W (Proc.devRef .tc main_v62) = shapeCast S1x10 x shapeCasts_S10_S1x10 := by
  subst h; after_results <;> rfl

variable (m : (ℓ : Loc nD τ sig) → Buf (Elt F) ℓ) (c : Dev nD)

theorem V3_v3 : V3 m c main_v3 = val_main_v3 (F := F) (m ((c : Thread nD τ).loc main_arg1)) := by
  after_results <;> rfl
theorem V3_v6 : V3 m c main_v6 = val_main_v6 (F := F) (m ((c : Thread nD τ).loc main_arg1)) := by
  after_results <;> rfl
theorem V3_v15 : V3 m c main_v15 = shapeCast S100000x1 (val_main_v14 (F := F) (m ((c : Thread nD τ).loc main_arg1))) shapeCasts_S100000_S100000x1 := by
  after_results_simp <;> rfl

end Cert.KernelIdeal.Val

end
-- ==== Proof.KI.KValue.lean ====
import proofs.«416900_j23630910063028_3_alg».proof.Proof.KI.Chain
import proofs.«416900_j23630910063028_3_alg».proof.Proof.KI.Val0
import proofs.«416900_j23630910063028_3_alg».proof.Proof.KI.Val1
import proofs.«416900_j23630910063028_3_alg».proof.Proof.KI.Val2
import proofs.«416900_j23630910063028_3_alg».proof.Proof.KI.Val3
import proofs.«416900_j23630910063028_3_alg».proof.Proof.KI.Val4
import proofs.«416900_j23630910063028_3_alg».proof.Proof.KI.Val5
import proofs.«416900_j23630910063028_3_alg».proof.Proof.KI.Val6
import proofs.«416900_j23630910063028_3_alg».proof.Proof.KI.KTerms
import proofs.«416900_j23630910063028_3_alg».proof.Proof.KI.KHost

noncomputable section

namespace Cert.KernelIdeal.Val

open Cert.KernelIdeal Cert.KernelIdeal.Gen Cert.KernelIdeal.Frame Cert.Spec
open Idealize.ShloMosaic Idealize.ShloMosaic.TcCoe
open Idealize.SL Idealize.SL.Sem
open Cert.ReferenceIdeal.Read (val_main_v3 val_main_v6)

-- A layer is the dense stage of its input, the sum of that stage's rows along the edges, and the second dense stage.
theorem layer_of (x : Arr2 100000 64) (ei : EdgeArr) (w : Arr2 64 64) (b : (⟨S64, .f32⟩ : BufTy).Contents (Elt Ideal))
    {y o x' a : Arr2 100000 64} {w' : Arr2 64 64} {d d' : Arr2 100000 1} {r : Arr2 1 64}
    (hy : y = mmArr x' w' d) (ho : o = biasArr a d' r) (hx : x' = x) (hw : w' = w) (hd : d = dcol ei)
    (ha : a = aggOf (F := Ideal) y (val_main_v3 (F := Ideal) ei) (val_main_v6 (F := Ideal) ei)) (hd' : d' = dcol ei)
    (hr : r = shapeCast S1x64 b shapeCasts_S64_S1x64) : o = LK x ei w b := by
  subst hy ho hx hw hd ha hd' hr; rfl

-- Equal operands give equal pooled class probabilities.
theorem pool_of {o : Arr2 128 10} {y1 y2 y3 y1' y2' y3' : Arr2 100000 64} {bt bt' : (⟨2, ![100000, 1]⟩ : Shape).Idx → BitVec 32}
    {w1 w2 w3 w1' w2' w3' : Arr2 64 10} {b b' : Arr2 1 10} (ho : o = poolArr y1' y2' y3' bt' w1' w2' w3' b')
    (h1 : y1' = y1) (h2 : y2' = y2) (h3 : y3' = y3) (ht : bt' = bt) (hw1 : w1' = w1) (hw2 : w2' = w2) (hw3 : w3' = w3)
    (hb : b' = b) : o = poolArr y1 y2 y3 bt w1 w2 w3 b := by
  subst ho h1 h2 h3 ht hw1 hw2 hw3 hb; rfl

variable (m : (ℓ : Loc nD τ sig) → Buf (Elt Ideal) ℓ) (c : Dev nD)

-- What the items after each point of the run leave unchanged up to its end.
def t13 : Off (U13 m c) (U14 m c) := .upd ..
def t12 : Off (U12 m c) (U14 m c) := (Off.host hostOps6_writes _).trans (t13 m c)
def t11 : Off (U11 m c) (U14 m c) := (Off.upd ..).trans (t12 m c)
def t10 : Off (U10 m c) (U14 m c) := (Off.host hostOps5_writes _).trans (t11 m c)
def t9 : Off (U9 m c) (U14 m c) := (Off.upd ..).trans (t10 m c)
def t8 : Off (U8 m c) (U14 m c) := (Off.upd ..).trans (t9 m c)
def t7 : Off (U7 m c) (U14 m c) := (Off.host hostOps3_writes _).trans (t8 m c)
def t6 : Off (U6 m c) (U14 m c) := (Off.upd ..).trans (t7 m c)
def t5 : Off (U5 m c) (U14 m c) := (Off.upd ..).trans (t6 m c)
def t4 : Off (U4 m c) (U14 m c) := (Off.host hostOps1_writes _).trans (t5 m c)
def t3 : Off (U3 m c) (U14 m c) := (Off.upd ..).trans (t4 m c)
def t0 : Off (V0 m c) (U14 m c) :=
  (((Off.host hostOps0_writes _).trans (Off.host hostOps0_1_writes _)).trans (Off.host hostOps0_2_writes _)).trans (t3 m c)

theorem layer1 : U6 m c main_v29 = LK (m ((c : Thread nD τ).loc main_arg0)) (m ((c : Thread nD τ).loc main_arg1)) (m ((c : Thread nD τ).loc main_arg3)) (m ((c : Thread nD τ).loc main_arg4)) :=
  (Function.update_self ..).trans <| layer_of _ _ _ _ (arr0 (atTc (U3 m)) c) (arr1 (atTc (U5 m)) c)
    ((t3 m c).rd (t0 m c) main_arg0 rfl rfl) ((t3 m c).rd (t0 m c) main_arg3 rfl rfl) (V3_v15 m c)
    (h1_v27 _ (Function.update_self ..) ((t4 m c).rd (t3 m c) main_v3 rfl (V3_v3 m c)) ((t4 m c).rd (t3 m c) main_v6 rfl (V3_v6 m c)))
    ((t5 m c).rd (t3 m c) main_v15 rfl (V3_v15 m c)) (h1_v28 _ ((t4 m c).rd (t0 m c) main_arg4 rfl rfl))

theorem layer2 : U9 m c main_v43 = LK (U6 m c main_v29) (m ((c : Thread nD τ).loc main_arg1)) (m ((c : Thread nD τ).loc main_arg5)) (m ((c : Thread nD τ).loc main_arg6)) :=
  (Function.update_self ..).trans <| layer_of _ _ _ _ (arr2 (atTc (U6 m)) c) (arr3 (atTc (U8 m)) c)
    rfl ((t6 m c).rd (t0 m c) main_arg5 rfl rfl) ((t6 m c).rd (t3 m c) main_v15 rfl (V3_v15 m c))
    (h3_v41 _ (Function.update_self ..) ((t7 m c).rd (t3 m c) main_v3 rfl (V3_v3 m c)) ((t7 m c).rd (t3 m c) main_v6 rfl (V3_v6 m c)))
    ((t8 m c).rd (t3 m c) main_v15 rfl (V3_v15 m c)) (h3_v42 _ ((t7 m c).rd (t0 m c) main_arg6 rfl rfl))

theorem layer3 : U12 m c main_v57 = LK (U9 m c main_v43) (m ((c : Thread nD τ).loc main_arg1)) (m ((c : Thread nD τ).loc main_arg7)) (m ((c : Thread nD τ).loc main_arg8)) :=
  (Function.update_self ..).trans <| layer_of _ _ _ _ (arr4 (atTc (U9 m)) c) (arr5 (atTc (U11 m)) c)
    rfl ((t9 m c).rd (t0 m c) main_arg7 rfl rfl) ((t9 m c).rd (t3 m c) main_v15 rfl (V3_v15 m c))
    (h5_v55 _ (Function.update_self ..) ((t10 m c).rd (t3 m c) main_v3 rfl (V3_v3 m c)) ((t10 m c).rd (t3 m c) main_v6 rfl (V3_v6 m c)))
    ((t11 m c).rd (t3 m c) main_v15 rfl (V3_v15 m c)) (h5_v56 _ ((t10 m c).rd (t0 m c) main_arg8 rfl rfl))

theorem result : U14 m c main_v63 =
    poolArr (U6 m c main_v29) (U9 m c main_v43) (U12 m c main_v57) (btcol (m ((c : Thread nD τ).loc main_arg2)))
      (wfSlice0 (m ((c : Thread nD τ).loc main_arg9))) (wfSlice1 (m ((c : Thread nD τ).loc main_arg9))) (wfSlice2 (m ((c : Thread nD τ).loc main_arg9))) (bfrow (m ((c : Thread nD τ).loc main_arg10))) :=
  have a9 := ((t12 m c).rd (t0 m c) main_arg9 rfl rfl)
  (Function.update_self ..).trans <| pool_of (arr6 (atTc (U13 m)) c)
    ((t13 m c).rd (t6 m c) main_v29 rfl rfl) ((t13 m c).rd (t9 m c) main_v43 rfl rfl) ((t13 m c).rd (t12 m c) main_v57 rfl rfl)
    (h6_v58 (U12 m c) ((t12 m c).rd (t0 m c) main_arg2 rfl rfl)) (h6_v59 (U12 m c) a9) (h6_v60 (U12 m c) a9) (h6_v61 (U12 m c) a9)
    (h6_v62 (U12 m c) ((t12 m c).rd (t0 m c) main_arg10 rfl rfl))

end Cert.KernelIdeal.Val

end
-- ==== Proof.LibScatterSum.lean ====
import Idealize.ShloMosaic.PureOps.Ideal
import Idealize.ShloMosaic.Lib.ValueIdx
import Mathlib.Data.EReal.Operations
noncomputable section
namespace Idealize.ShloMosaic.ScatterSum
open Idealize.ShloMosaic Idealize.ShloMosaic.ValueIdx
open scoped BigOperators

-- An update lands on `o` exactly when, on every axis, window start plus window coordinate is `o`'s coordinate.
theorem resultIdx?_eq_some_iff {s si u : Shape} (d : ScatterDims s si u) {w : Nat} (j : u.Idx) (idx : IVec si w)
    (o : s.Idx) : d.resultIdx? j idx = some o ↔ ∀ a, d.start j idx a + d.window j a = ((o a).val : ℤ) := by
  unfold ScatterDims.resultIdx?
  split
  · rename_i h
    rw [Option.some.injEq]
    refine ⟨fun hf a => ?_, fun hf => funext fun a => Fin.ext ?_⟩
    · rw [← hf]
      exact (Int.toNat_of_nonneg (h a).1).symm
    · show (d.start j idx a + d.window j a).toNat = (o a).val
      rw [hf a]
      rfl
  · rename_i h
    refine ⟨fun hf => absurd hf (by simp), fun hf => absurd (fun a => ?_) h⟩
    rw [hf a]
    exact ⟨Int.natCast_nonneg _, Int.ofNat_lt.mpr (o a).isLt⟩

-- The scatter-add at `o`: the operand plus the updates over any injective listing of the update indices that land on `o`.
theorem scatterAdd_apply_of {s si u : Shape} {φ : FTy} (d : ScatterDims s si u) {w : Nat} (x : FVec Ideal s φ)
    (idx : IVec si w) (upd : FVec Ideal u φ) (o : s.Idx) {ι : Type} [Fintype ι] (p : ι → Prop) [DecidablePred p]
    (emb : ι → u.Idx) (hinj : Function.Injective emb)
    (h : ∀ j, d.resultIdx? j idx = some o ↔ ∃ e, p e ∧ emb e = j) :
    Host.scatterAdd d x idx upd o = x o + ∑ e ∈ Finset.univ.filter p, upd (emb e) := by
  classical
  show Ideal.hostScatterAdd d x idx upd o = _
  unfold Ideal.hostScatterAdd
  congr 1
  rw [← Finset.sum_image (fun a _ b _ hab => hinj hab)]
  refine Finset.sum_congr (Finset.ext fun j => ?_) fun _ _ => rfl
  rw [Finset.mem_filter, Finset.mem_image, h j]
  simp only [Finset.mem_univ, true_and, Finset.mem_filter]

abbrev rowScatterDims (N C n : Nat)
    (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

abbrev vecScatterDims (N n : Nat)
    (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

section
variable {N C n w : Nat} {φ : FTy}

-- Update row `e` starts at the signed row index `idx[e, 0]`; the column axis starts at 0 and carries the update's column.
theorem rowScatterAdd_apply (wf : ScatterDims.WF ⟨2, ![N, C]⟩ ⟨2, ![n, 1]⟩ ⟨2, ![n, C]⟩ [1] [0] [0] 1)
    (x : FVec Ideal ⟨2, ![N, C]⟩ φ) (idx : IVec ⟨2, ![n, 1]⟩ w) (upd : FVec Ideal ⟨2, ![n, C]⟩ φ) (j : Fin N) (q : Fin C) :
    Host.scatterAdd (rowScatterDims N C n wf) x idx upd (ix2 j q)
      = x (ix2 j q) + ∑ e ∈ Finset.univ.filter (fun e : Fin n => (idx (ix2 e (0 : Fin 1))).toInt = (j.val : ℤ)),
          upd (ix2 e q) := by
  refine scatterAdd_apply_of _ x idx upd _ _ (fun e => ix2 e q) (fun a b hab => congrFun hab 0) fun u => ?_
  obtain ⟨a, b, rfl⟩ : ∃ (a : Fin n) (b : Fin C), u = ix2 a b := ⟨u 0, u 1, eq_ix2 u⟩
  rw [resultIdx?_eq_some_iff, Fin.forall_fin_two]
  have h0 : (rowScatterDims N C n wf).start (ix2 a b) idx 0 = (idx (ix2 a (0 : Fin 1))).toInt := by
    unfold ScatterDims.start
    rw [dif_pos (List.mem_singleton.mpr rfl)]
    exact congrArg (fun i => (idx i).toInt) (funext fun b => Fin.ext (by match b with | ⟨0, _⟩ => rfl | ⟨1, _⟩ => rfl))
  rw [h0]
  show _ + ((0 : ℕ) : ℤ) = (j.val : ℤ) ∧ (0 : ℤ) + (b.val : ℤ) = (q.val : ℤ) ↔ _
  constructor
  · rintro ⟨ha, hb⟩
    exact ⟨a, by omega, by rw [show q = b from Fin.ext (by omega)]⟩
  · rintro ⟨e, he, hu⟩
    obtain rfl : e = a := congrFun hu 0
    obtain rfl : q = b := congrFun hu 1
    exact ⟨by omega, by omega⟩

theorem vecScatterAdd_apply (wf : ScatterDims.WF ⟨1, ![N]⟩ ⟨2, ![n, 1]⟩ ⟨1, ![n]⟩ [] [0] [0] 1)
    (x : FVec Ideal ⟨1, ![N]⟩ φ) (idx : IVec ⟨2, ![n, 1]⟩ w) (upd : FVec Ideal ⟨1, ![n]⟩ φ) (j : Fin N) :
    Host.scatterAdd (vecScatterDims N n wf) x idx upd (ix1 j)
      = x (ix1 j) + ∑ e ∈ Finset.univ.filter (fun e : Fin n => (idx (ix2 e (0 : Fin 1))).toInt = (j.val : ℤ)),
          upd (ix1 e) := by
  refine scatterAdd_apply_of _ x idx upd _ _ (fun e => ix1 e) (fun a b hab => congrFun hab 0) fun u => ?_
  obtain ⟨a, rfl⟩ : ∃ a : Fin n, u = ix1 a := ⟨u 0, eq_ix1 u⟩
  rw [resultIdx?_eq_some_iff, Fin.forall_fin_one]
  have h0 : (vecScatterDims N n wf).start (ix1 a) idx 0 = (idx (ix2 a (0 : Fin 1))).toInt := by
    unfold ScatterDims.start
    rw [dif_pos (List.mem_singleton.mpr rfl)]
    exact congrArg (fun i => (idx i).toInt) (funext fun b => Fin.ext (by match b with | ⟨0, _⟩ => rfl | ⟨1, _⟩ => rfl))
  rw [h0]
  show _ + ((0 : ℕ) : ℤ) = (j.val : ℤ) ↔ _
  constructor
  · intro ha
    exact ⟨a, by omega, rfl⟩
  · rintro ⟨e, he, hu⟩
    obtain rfl : e = a := congrFun hu 0
    omega
end

-- Multiplication by a nonnegative real distributes over finite sums of extended reals, infinities included.
theorem sum_mul_coe_of_nonneg {ι : Type*} {r : ℝ} (hr : 0 ≤ r) (s : Finset ι) (f : ι → EReal) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

-- The reciprocal square root of a natural number where it is positive, else 0, is a nonnegative real.
theorem rsqrt_natCast_or_zero (k : ℕ) :
    ∃ r : ℝ, 0 ≤ r ∧ (if (0 : EReal) < ((k : ℝ) : EReal) then Ideal.rsqrt ((k : ℝ) : EReal) else 0) = (r : EReal) := by
  rcases Nat.eq_zero_or_pos k with rfl | hk
  · exact ⟨0, le_rfl, by simp⟩
  · have hk' : (0 : ℝ) < (k : ℝ) := by exact_mod_cast hk
    exact ⟨(Real.sqrt (k : ℝ))⁻¹, inv_nonneg.mpr (Real.sqrt_nonneg _),
      by rw [if_pos (by exact_mod_cast hk'), Ideal.rsqrt_coe, if_neg (not_lt.mpr hk'.le), if_neg hk'.ne']⟩

end Idealize.ShloMosaic.ScatterSum
end
-- ==== Proof.LibRowGather.lean ====
import Idealize.ShloMosaic.PureOps.Ideal
import Idealize.ShloMosaic.Lib.ValueIdx
noncomputable section
namespace Idealize.ShloMosaic.RowGather
open Idealize.ShloMosaic Idealize.ShloMosaic.ValueIdx

abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

theorem rowGather_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 (⟨min (idx (ix2 p (0 : Fin 1))).toInt.toNat (N - 1), by omega⟩ : Fin N) q) := by
  unfold Host.gather
  congr 1
  funext a
  refine Fin.ext ?_
  match a with
  | ⟨0, _⟩ =>
    show (rowDims N C n wf).start (ix2 p q) idx 0 + (rowDims N C n wf).batchCoord (ix2 p q) 0
        + (rowDims N C n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    have hsi : (rowDims N C n wf).siIdx (ix2 p q) ⟨List.idxOf (0 : Fin 2) (rowDims N C n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N C n wf).start (ix2 p q) idx 1 + (rowDims N C n wf).batchCoord (ix2 p q) 1
        + (rowDims N C n wf).offCoord (ix2 p q) 1 = q.val
    have hk : (1 : Fin 2) ∈ (rowDims N C n wf).sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start GatherDims.offCoord
    rw [dif_neg (show (1 : Fin 2) ∉ (rowDims N C n wf).startIndexMap by
      show (1 : Fin 2) ∉ [(0 : Fin 2)]; decide), dif_pos hk]
    simp only [Nat.zero_add]
    rfl
end Idealize.ShloMosaic.RowGather
end
-- ==== Proof.BridgeLayer.lean ====
import proofs.«416900_j23630910063028_3_alg».proof.Proof.RefRead
import proofs.«416900_j23630910063028_3_alg».proof.Proof.Spec
import proofs.«416900_j23630910063028_3_alg».proof.Proof.LibScatterSum
import proofs.«416900_j23630910063028_3_alg».proof.Proof.LibRowGather
import proofs.«416900_j23630910063028_3_alg».proof.Proof.KI.KTerms
import Idealize.ShloMosaic.Lib.StableHlo.Predicate
import Idealize.ShloMosaic.Lib.ValueIdx
import Idealize.ShloMosaic.Lib.IdealHost
import Idealize.ShloMosaic.PureOps.Ideal.Laws

noncomputable section

namespace Cert.Bridge

open Idealize.ShloMosaic Idealize.ShloMosaic.ValueIdx Idealize.ShloMosaic.ScatterSum Idealize.ShloMosaic.RowGather
open Cert.ReferenceIdeal Cert.ReferenceIdeal.Read Cert.Spec
open scoped BigOperators

abbrev EdgeArr : Type := (⟨S2x1600000, .i32⟩ : BufTy).Contents (Elt Ideal)

theorem ofBits_one_f32 : Ideal.ofBits .f32 0x3F800000#32 = 1 := Ideal.ofBits_one_f32

-- A nonnegative signed word is not below zero, so the wrap's select keeps it.
theorem wrap_of_nonneg (w : BitVec 32) (h0 : 0 ≤ w.toInt) :
    Scalar.select (IntOp.cmpi .slt w 0#32) (IntOp.addi w 100000#32) w = w := by
  have hc : IntOp.cmpi .slt w 0#32 = 0#1 := by
    show BitVec.ofBool (w.slt 0#32) = 0#1
    rw [BitVec.slt_eq_decide]
    exact congrArg BitVec.ofBool (decide_eq_false (not_lt.mpr h0))
  rw [hc, select_zero]

theorem select_gt_zero (a u v : EReal) :
    Scalar.select (Ideal.cmp .ogt a 0) u v = if (0 : EReal) < a then u else v := by
  have hc : Ideal.cmp .ogt a 0 = BitVec.ofBool (decide ((0 : EReal) < a)) := rfl
  by_cases hpos : (0 : EReal) < a
  · rw [hc, decide_eq_true hpos, if_pos hpos]; exact select_one _ _
  · rw [hc, decide_eq_false hpos, if_neg hpos]; exact select_zero _ _

-- The library's read of a rank-1 table at a column of start indices, at the coordinate forms used here.
theorem colGather_apply {α : Type} {N n w : Nat} (hN : 0 < N) (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) :
    Host.gather d x idx (ix1 e) = x (ix1 ⟨min (idx (ix2 e (0 : Fin 1))).toInt.toNat (N - 1), by omega⟩) := by
  have e1 : ∀ {m : Nat} (k : Fin m), (Shape.Idx.ofFin k : (⟨1, ![m]⟩ : Shape).Idx) = ix1 k := fun k => eq_ix1 _
  have h := StableHlo.Predicate.gather_take d hcoll hob hsim hivd x idx e hN
  simp only [e1, show StableHlo.Predicate.ixP e = ix2 e (0 : Fin 1) from eq_ix2 _] at h
  exact h

abbrev inEdges (ei : EdgeArr) (j : Fin 100000) : Finset (Fin 1700000) :=
  Finset.univ.filter (fun e : Fin 1700000 => (val_main_v42 (F := Ideal) ei (ix2 e (0 : Fin 1))).toInt = (j.val : ℤ))

def srcRow (ei : EdgeArr) (e : Fin 1700000) : Fin 100000 :=
  ⟨min (val_main_v36 (F := Ideal) ei (ix2 e (0 : Fin 1))).toInt.toNat (100000 - 1), by omega⟩

def dstRow (ei : EdgeArr) (e : Fin 1700000) : Fin 100000 :=
  ⟨min (val_main_v27 (F := Ideal) ei (ix2 e (0 : Fin 1))).toInt.toNat (100000 - 1), by omega⟩

abbrev dinv (ei : EdgeArr) (p : Fin 100000) : EReal := val_main_v14 (F := Ideal) ei (ix1 p)

-- An edge summed into row j has destination j, a row number: the wrap and the clamp leave it alone.
theorem dstRow_eq (ei : EdgeArr) (j : Fin 100000) (e : Fin 1700000)
    (h : (val_main_v42 (F := Ideal) ei (ix2 e (0 : Fin 1))).toInt = (j.val : ℤ)) : dstRow ei e = j := by
  have hj := j.isLt
  have key : val_main_v27 (F := Ideal) ei (ix2 e (0 : Fin 1)) = val_main_v42 (F := Ideal) ei (ix2 e (0 : Fin 1)) := by
    rw [val_main_v42_apply] at h
    rw [val_main_v27_apply, val_main_v26_apply, val_main_v23_apply, val_main_v25_apply, val_main_v22_apply,
      val_main_v24_apply, val_main_c_4_apply, val_main_c_5_apply, val_main_v42_apply]
    exact wrap_of_nonneg _ (by rw [h]; omega)
  refine Fin.ext ?_
  show min (val_main_v27 (F := Ideal) ei (ix2 e (0 : Fin 1))).toInt.toNat (100000 - 1) = j.val
  rw [key, h]
  omega

-- A node's in-degree is 0 plus a one for every edge that ends there: a natural number.
theorem deg_natCast (ei : EdgeArr) (j : Fin 100000) :
    ∃ k : ℕ, val_main_v10 (F := Ideal) ei (ix1 j) = ((k : ℝ) : EReal) := by
  have hd : scatter_S100000_S1700000x1_S1700000_n_0_0_1
      = vecScatterDims 100000 1700000 Facts₀.scatter_S100000_S1700000x1_S1700000_n_0_0_1_wf := rfl
  refine ⟨(Finset.univ.filter (fun e : Fin 1700000 =>
    (val_main_v9 (F := Ideal) ei (ix2 e (0 : Fin 1))).toInt = (j.val : ℤ))).card, ?_⟩
  unfold val_main_v10
  rw [hd, vecScatterAdd_apply]
  simp only [val_main_v8_apply, val_main_cst_0_apply, val_main_v7_apply, val_main_cst_apply, Ideal.ofBits_def,
    Ideal.ofBits_zero_f32, ofBits_one_f32]
  rw [zero_add, Finset.sum_const, nsmul_one]
  rfl

theorem dinv_nonneg_real (ei : EdgeArr) (j : Fin 100000) : ∃ r : ℝ, 0 ≤ r ∧ dinv ei j = (r : EReal) := by
  obtain ⟨k, hk⟩ := deg_natCast ei j
  obtain ⟨r, hr, h⟩ := rsqrt_natCast_or_zero k
  refine ⟨r, hr, ?_⟩
  show val_main_v14 (F := Ideal) ei (ix1 j) = (r : EReal)
  rw [val_main_v14_apply, val_main_v12_apply, val_main_v13_apply, val_main_call0_v1_apply, val_main_call0_v0_apply,
    val_main_cst_2_apply, val_main_v11_apply, val_main_cst_1_apply, hk, Ideal.cmpf_def, Ideal.hostUnary_rsqrt_def,
    Ideal.ofBits_def, Ideal.ofBits_zero_f32, ← h]
  exact select_gt_zero _ _ _

-- The reference's sum at (j, q): 0 plus, over the edges that end in j, the source row of x · W times both coefficients.
theorem ref_sum_apply (x : Arr2 100000 64) (ei : EdgeArr) (W : Arr2 64 64) (j : Fin 100000) (q : Fin 64) :
    val_main_v43 (F := Ideal) x ei W (ix2 j q)
      = 0 + ∑ e ∈ inEdges ei j,
          val_main_v30 (F := Ideal) x W (ix2 (srcRow ei e) q) * (dinv ei (srcRow ei e) * dinv ei (dstRow ei e)) := by
  have hd : scatter_S100000x64_S1700000x1_S1700000x64_1_0_0_1
      = rowScatterDims 100000 64 1700000 Facts₀.scatter_S100000x64_S1700000x1_S1700000x64_1_0_0_1_wf := rfl
  have hg : gather_S100000x64_S1700000x1_S1700000x64_1_0_n_n_0_1_164
      = rowDims 100000 64 1700000 Facts₀.gather_S100000x64_S1700000x1_S1700000x64_1_0_n_n_0_1_164_wf := rfl
  have hc := fun (v : IVec ⟨2, ![1700000, 1]⟩ 32) => colGather_apply (N := 100000) (by decide) gather_S100000_S1700000x1_S1700000_n_0_n_n_0_1_1
    rfl rfl rfl rfl (val_main_v14 (F := Ideal) ei) v
  have h20 : val_main_v20 (F := Ideal) ei = val_main_v36 (F := Ideal) ei := rfl
  unfold val_main_v43
  rw [hd, rowScatterAdd_apply, val_main_v41_apply, val_main_cst_8_apply, Ideal.ofBits_def, Ideal.ofBits_zero_f32]
  refine congrArg _ (Finset.sum_congr rfl fun e _ => ?_)
  have hi : idx_main_v38 (idx_main_v39 (ix2 e q)) = ix1 e := funext fun a => match a with | ⟨0, _⟩ => rfl
  rw [val_main_v40_apply, Ideal.mulf_def, val_main_v39_apply, val_main_v38_apply, hi, val_main_v29_apply, Ideal.mulf_def]
  unfold val_main_v37 val_main_v21 val_main_v28 srcRow dstRow
  rw [hg, rowGather_apply (N := 100000) (by decide), hc, hc, h20]

theorem dcol_apply (ei : EdgeArr) (p : Fin 100000) :
    Cert.KernelIdeal.Val.dcol ei (ix2 p (0 : Fin 1)) = dinv ei p :=
  shapeCast_apply (val_main_v14 (F := Ideal) ei) _ (ix2 p (0 : Fin 1)) (ix1 p)
    (by rewrite [Shape.rowMajor_val_one, Shape.rowMajor_val_two]; show p.val = p.val * 1 + 0; omega)

theorem mm_apply (x : Arr2 100000 64) (ei : EdgeArr) (W : Arr2 64 64) (p : Fin 100000) (q : Fin 64) :
    mmArr x W (Cert.KernelIdeal.Val.dcol ei) (ix2 p q) = val_main_v30 (F := Ideal) x W (ix2 p q) * dinv ei p := by
  rw [mmArr_apply, mmAt, val_main_v30_apply, dcol_apply]
  congr 1
  refine Finset.sum_congr rfl fun k _ => ?_
  rw [show lidx_main_v30 (ix2 p q) k = ix2 p k from funext fun a => match a with | ⟨0, _⟩ => rfl | ⟨1, _⟩ => rfl,
    show ridx_main_v30 (ix2 p q) k = ix2 k q from funext fun a => match a with | ⟨0, _⟩ => rfl | ⟨1, _⟩ => rfl]

-- The destination's coefficient is a nonnegative real common to every term of row j's sum, so it comes out of the sum.
theorem layer_eq (x : Arr2 100000 64) (ei : EdgeArr) (W : Arr2 64 64) (b : (⟨S64, .f32⟩ : BufTy).Contents (Elt Ideal)) :
    Cert.KernelIdeal.Val.LK x ei W b = val_main_v47 (F := Ideal) x ei W b := by
  funext i
  obtain ⟨j, q, rfl⟩ : ∃ (j : Fin 100000) (q : Fin 64), i = ix2 j q := ⟨i 0, i 1, eq_ix2 i⟩
  obtain ⟨r, hr, hdj⟩ := dinv_nonneg_real ei j
  have hd : Cert.KernelIdeal.scatter_S100000x64_S1700000x1_S1700000x64_1_0_0_1
      = rowScatterDims 100000 64 1700000 Cert.KernelIdeal.Facts₀.scatter_S100000x64_S1700000x1_S1700000x64_1_0_0_1_wf := rfl
  have hg : Cert.KernelIdeal.gather_S100000x64_S1700000x1_S1700000x64_1_0_n_n_0_1_164
      = rowDims 100000 64 1700000 Cert.KernelIdeal.Facts₀.gather_S100000x64_S1700000x1_S1700000x64_1_0_n_n_0_1_164_wf := rfl
  have hb : idx_main_v44 (idx_main_v45 (ix2 j q)) = ix1 q := funext fun a => match a with | ⟨0, _⟩ => rfl
  have key : ∀ e ∈ inEdges ei j,
      extf (F := Ideal) .f32 (Host.gather Cert.KernelIdeal.gather_S100000x64_S1700000x1_S1700000x64_1_0_n_n_0_1_164
          (mmArr x W (Cert.KernelIdeal.Val.dcol ei)) (val_main_v36 (F := Ideal) ei)) Cert.KernelIdeal.Gen.bitsLt_bf16_f32 (ix2 e q)
          * (r : EReal)
        = val_main_v30 (F := Ideal) x W (ix2 (srcRow ei e) q) * (dinv ei (srcRow ei e) * dinv ei (dstRow ei e)) :=
    fun e he => by
      rw [srcRow, extf_apply, hg, rowGather_apply (N := 100000) (by decide), mm_apply,
        dstRow_eq ei j e (Finset.mem_filter.mp he).2, hdj, mul_assoc]
  rw [Cert.KernelIdeal.Val.LK, biasArr_apply, biasAt, hd, rowScatterAdd_apply,
    broadcastInDim_apply _ _ _ (ix2 j q) (fun a => a.elim0) (fun a => a.elim0), constant_apply, Ideal.ofBits_zero_f32,
    dcol_apply, hdj, zero_add, sum_mul_coe_of_nonneg hr, Finset.sum_congr rfl key,
    shapeCast_apply b _ (ix2 (0 : Fin 1) q) (ix1 q)
      (by rewrite [Shape.rowMajor_val_one, Shape.rowMajor_val_two]; show q.val = 0 * 64 + q.val; omega),
    val_main_v47_apply, val_main_v46_apply, Ideal.maximumf_def, Ideal.addf_def, ref_sum_apply, zero_add,
    val_main_call1_v0_apply, val_main_call1_cst_apply, Ideal.ofBits_def, Ideal.ofBits_zero_f32,
    val_main_v45_apply, val_main_v44_apply, hb]

end Cert.Bridge

end
-- ==== Proof.BridgePool.lean ====
import proofs.«416900_j23630910063028_3_alg».proof.Proof.RefRead
import proofs.«416900_j23630910063028_3_alg».proof.Proof.Spec
import proofs.«416900_j23630910063028_3_alg».proof.Proof.LibScatterSum
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value
import Mathlib.Data.EReal.Operations

noncomputable section

namespace Cert.Bridge

open Cert.ReferenceIdeal Cert.ReferenceIdeal.Gen Cert.ReferenceIdeal.Read Idealize.ShloMosaic Idealize.ShloMosaic.ValueIdx
open Cert.Spec (hot segSum segCnt meanAt logitAt poolAt poolArr poolArr_apply)
open scoped BigOperators

section Tail
variable {F : FTy → Type} [FloatOps F]
variable (x0 : (⟨S100000x64, .f32⟩ : BufTy).Contents (Elt F)) (x1 : (⟨S2x1600000, .i32⟩ : BufTy).Contents (Elt F))
  (x2 : (⟨S100000, .i32⟩ : BufTy).Contents (Elt F)) (x3 : (⟨S64x64, .f32⟩ : BufTy).Contents (Elt F))
  (x4 : (⟨S64, .f32⟩ : BufTy).Contents (Elt F)) (x5 : (⟨S64x64, .f32⟩ : BufTy).Contents (Elt F))
  (x6 : (⟨S64, .f32⟩ : BufTy).Contents (Elt F)) (x7 : (⟨S64x64, .f32⟩ : BufTy).Contents (Elt F))
  (x8 : (⟨S64, .f32⟩ : BufTy).Contents (Elt F)) (x9 : (⟨S192x10, .f32⟩ : BufTy).Contents (Elt F))
  (x10 : (⟨S10, .f32⟩ : BufTy).Contents (Elt F))
  (y1 y2 y3 : (⟨S100000x64, .f32⟩ : BufTy).Contents (Elt F))

def join : (⟨S100000x192, .f32⟩ : BufTy).Contents (Elt F) :=
  concatenate S100000x192 1 [⟨S100000x64, y1⟩, ⟨S100000x64, y2⟩, ⟨S100000x64, y3⟩] concatenates_S100000x64_S100000x64_S100000x64_S100000x192_d1

def means (J : (⟨S100000x192, .f32⟩ : BufTy).Contents (Elt F)) : (⟨S128x192, .f32⟩ : BufTy).Contents (Elt F) :=
  Host.divf (Host.scatterAdd scatter_S128x192_S100000x1_S100000x192_1_0_0_1 (val_main_v85 (F := F)) (val_main_v86 (F := F) x2) J)
    (val_main_v95 (F := F) x2)

def scores (M : (⟨S128x192, .f32⟩ : BufTy).Contents (Elt F)) : (⟨S128x10, .f32⟩ : BufTy).Contents (Elt F) :=
  addf (Host.dotGeneral dot_S128x192_S192x10_S128x10_1_0_0_1_n_n none M x9) (val_main_v99 (F := F) x10)

def spread (v : (⟨S128, .f32⟩ : BufTy).Contents (Elt F)) : (⟨S128x10, .f32⟩ : BufTy).Contents (Elt F) :=
  broadcastInDim S128x10 ![0, 1] bcast_S128x1_S128x10_0_1 (broadcastInDim S128x1 ![0] bcast_S128_S128x1_0 v)

def expShift (L : (⟨S128x10, .f32⟩ : BufTy).Contents (Elt F)) : (⟨S128x10, .f32⟩ : BufTy).Contents (Elt F) :=
  Host.exp (subf L (spread (maximumf (val_main_v102 (F := F))
    (Host.reduce FloatOps.maximumf L (val_main_cst_19 (F := F)) reducesTo_S128x10_S128_d1 h_S_))))

def softmax (L : (⟨S128x10, .f32⟩ : BufTy).Contents (Elt F)) : (⟨S128x10, .f32⟩ : BufTy).Contents (Elt F) :=
  Host.divf (expShift L) (spread (Host.reduceAdd (expShift L) (val_main_cst_21 (F := F)) reducesTo_S128x10_S128_d1 h_S_))

def PR (y1 y2 y3 : (⟨S100000x64, .f32⟩ : BufTy).Contents (Elt F)) (bt : (⟨S100000, .i32⟩ : BufTy).Contents (Elt F))
    (wf : (⟨S192x10, .f32⟩ : BufTy).Contents (Elt F)) (bf : (⟨S10, .f32⟩ : BufTy).Contents (Elt F)) :
    (⟨S128x10, .f32⟩ : BufTy).Contents (Elt F) :=
  softmax (scores wf bf (means bt (join y1 y2 y3)))

theorem tail_eq : val_main_v111 (F := F) x0 x1 x2 x3 x4 x5 x6 x7 x8 x9 x10
      = PR (val_main_v47 (F := F) x0 x1 x3 x4) (val_main_v65 (F := F) x0 x1 x3 x4 x5 x6)
          (val_main_v83 (F := F) x0 x1 x3 x4 x5 x6 x7 x8) x2 x9 x10 := rfl

theorem layer2_eq : val_main_v65 (F := F) x0 x1 x3 x4 x5 x6
      = val_main_v47 (F := F) (val_main_v47 (F := F) x0 x1 x3 x4) x1 x5 x6 := rfl

theorem layer3_eq : val_main_v83 (F := F) x0 x1 x3 x4 x5 x6 x7 x8
      = val_main_v47 (F := F) (val_main_v65 (F := F) x0 x1 x3 x4 x5 x6) x1 x7 x8 := rfl

end Tail

-- A signed 32-bit word is the number g < 128 exactly when it is g's word.
theorem toInt_eq_iff (b : BitVec 32) (g : Fin 128) : b.toInt = (g.val : ℤ) ↔ b = BitVec.ofNat 32 g.val := by
  have hb := b.isLt
  have hg := g.isLt
  rw [BitVec.toInt_eq_toNat_cond]
  constructor
  · intro h
    apply BitVec.eq_of_toNat_eq
    rw [BitVec.toNat_ofNat]
    split at h <;> omega
  · intro h
    rw [h, BitVec.toNat_ofNat]
    split <;> omega

-- 192 columns are three blocks of 64.
theorem sum_fin192 (h : Fin 192 → EReal) :
    ∑ c : Fin 192, h c = ∑ t : Fin 3, ∑ f : Fin 64, h ⟨f.val + 64 * t.val, by omega⟩ :=
  (Equiv.sum_comp (finProdFinEquiv (m := 3) (n := 64)) h).symm.trans (Fintype.sum_prod_type _)

-- 1 · u = u and 0 · u = 0 for every extended real u.
theorem sum_filter_ind (p : Fin 100000 → Prop) [DecidablePred p] (u : Fin 100000 → EReal) :
    ∑ e ∈ Finset.univ.filter p, u e = ∑ e : Fin 100000, (if p e then (1 : EReal) else 0) * u e := by
  rw [Finset.sum_filter]
  refine Finset.sum_congr rfl fun e _ => ?_
  split
  · rw [one_mul]
  · rw [zero_mul]

theorem ofBits_neg_inf_f32 : Ideal.ofBits .f32 0xFF800000#32 = ⊥ := by simp [Ideal.ofBits, Ideal.ieee]

section Exact

theorem spread_apply (y : (⟨S128, .f32⟩ : BufTy).Contents (Elt Ideal)) (g : Fin 128) (k : Fin 10) :
    spread (F := Ideal) y (ix2 g k) = y (ix1 g) := by
  unfold spread
  rw [broadcastInDim_apply _ bcast_S128x1_S128x10_0_1 _ (ix2 g k) (ix2 g (0 : Fin 1)) (fun a => match a with
      | ⟨0, _⟩ => by show g.val = if (128 : Nat) = 1 then 0 else g.val; rw [if_neg (by decide)]
      | ⟨1, _⟩ => by show 0 = if (1 : Nat) = 1 then 0 else k.val; rw [if_pos rfl]),
    broadcastInDim_apply _ bcast_S128_S128x1_0 y (ix2 g (0 : Fin 1)) (ix1 g) (fun a => match a with
      | ⟨0, _⟩ => by show g.val = if (128 : Nat) = 1 then 0 else g.val; rw [if_neg (by decide)])]

theorem lift_classes (h : S128x10.Reduces [1] S128) (g : Fin 128) (k : Fin (S128x10.size 1)) :
    h.lift (ix1 g) k = ix2 g (⟨k.val, k.isLt⟩ : Fin 10) := by
  funext c; apply Fin.ext
  fin_cases c <;> rfl

-- The scores less their row maximum (a fold of maxima from −∞ is the supremum), exponentiated.
theorem expShift_apply (L : (⟨S128x10, .f32⟩ : BufTy).Contents (Elt Ideal)) (g : Fin 128) (k : Fin 10) :
    expShift (F := Ideal) L (ix2 g k) = Ideal.exp (L (ix2 g k) - Finset.univ.sup fun k' : Fin 10 => L (ix2 g k')) := by
  have h : S128x10.Reduces [1] S128 := by decide
  have hf : (L ∘ h.lift (ix1 g)) = fun k : Fin 10 => L (ix2 g k) := funext fun k => congrArg L (lift_classes h g k)
  show FloatOps.hostUnary (F := Ideal) (φ := .f32) .exp _ = _
  rw [Ideal.hostUnary_exp_def, subf_apply, spread_apply, maximumf_apply, val_main_v102_apply, val_main_cst_20_apply,
    Ideal.ofBits_def, ofBits_neg_inf_f32,
    Host.reduce_eq_fold_single (FloatOps.maximumf (F := Ideal) (φ := .f32)) L _ reducesTo_S128x10_S128_d1 h h_S_,
    val_main_cst_19_apply, Ideal.ofBits_def, ofBits_neg_inf_f32]
  congr 2
  refine (congrArg (fun m : EReal => max ⊥ m) ?_).trans (max_eq_right bot_le)
  refine (congrArg (fun f => Finset.fold max (⊥ : EReal) f (Finset.univ : Finset (Fin 10))) hf).trans ?_
  unfold Finset.sup
  congr 1

theorem softmax_apply (L : (⟨S128x10, .f32⟩ : BufTy).Contents (Elt Ideal)) (g : Fin 128) (k : Fin 10) :
    softmax (F := Ideal) L (ix2 g k)
      = Ideal.div (expShift (F := Ideal) L (ix2 g k)) (∑ k' : Fin 10, expShift (F := Ideal) L (ix2 g k')) := by
  unfold softmax
  generalize expShift (F := Ideal) L = E
  rw [hostDivf_apply, spread_apply]
  simp only [Host.reduceAdd, Ideal.hostReduceAdd_def]
  rw [Ideal.hostReduceAdd_single reducesTo_S128x10_S128_d1 (by decide), val_main_cst_21_apply, Ideal.ofBits_def,
    Ideal.ofBits_zero_f32, zero_add]
  congr 1
  refine Finset.sum_congr rfl fun k' _ => ?_
  exact congrArg E (funext fun a => Fin.ext (by match a with | ⟨0, _⟩ => rfl | ⟨1, _⟩ => rfl))

variable (y1 y2 y3 : (⟨S100000x64, .f32⟩ : BufTy).Contents (Elt Ideal)) (bt : (⟨S100000, .i32⟩ : BufTy).Contents (Elt Ideal))
  (wf : (⟨S192x10, .f32⟩ : BufTy).Contents (Elt Ideal)) (bf : (⟨S10, .f32⟩ : BufTy).Contents (Elt Ideal))

theorem dot_apply (M : (⟨S128x192, .f32⟩ : BufTy).Contents (Elt Ideal)) (g : Fin 128) (k : Fin 10) :
    Host.dotGeneral (F := Ideal) (φ₁ := .f32) (φ₂ := .f32) dot_S128x192_S192x10_S128x10_1_0_0_1_n_n none M wf (ix2 g k)
      = ∑ c : Fin 192, M (ix2 g c) * wf (ix2 c k) := by
  simp only [Host.dotGeneral]
  rw [Ideal.dotGeneral_apply, ← Equiv.sum_comp (ValueIdx.contrEquiv1 dot_S128x192_S192x10_S128x10_1_0_0_1_n_n 192 rfl rfl).symm]
  refine Finset.sum_congr rfl fun c _ => ?_
  have hk := ValueIdx.contrEquiv1_symm_val dot_S128x192_S192x10_S128x10_1_0_0_1_n_n 192 rfl rfl c
  have el : dot_S128x192_S192x10_S128x10_1_0_0_1_n_n.lhsIdx (ix2 g k) ((ValueIdx.contrEquiv1 dot_S128x192_S192x10_S128x10_1_0_0_1_n_n 192 rfl rfl).symm c) = ix2 g c := funext fun a => Fin.ext (by
    match a with
    | ⟨0, _⟩ => exact lhs_main_v97_0 _ _
    | ⟨1, _⟩ => exact (lhs_main_v97_1 _ _).trans hk)
  have er : dot_S128x192_S192x10_S128x10_1_0_0_1_n_n.rhsIdx (ix2 g k) ((ValueIdx.contrEquiv1 dot_S128x192_S192x10_S128x10_1_0_0_1_n_n 192 rfl rfl).symm c) = ix2 c k := funext fun a => Fin.ext (by
    match a with
    | ⟨0, _⟩ => exact (rhs_main_v97_0 _ _).trans hk
    | ⟨1, _⟩ => exact rhs_main_v97_1 _ _)
  rw [el, er]

-- Column block t of the joined array is the t-th layer's output.
theorem join_block (t : Fin 3) (i : Fin 100000) (f : Fin 64) :
    join (F := Ideal) y1 y2 y3 (ix2 i (⟨f.val + 64 * t.val, by omega⟩ : Fin 192)) = ![y1, y2, y3] t (ix2 i f) := by
  unfold join
  refine concatenate_apply_piece (1 : Fin S100000x192.rank) [⟨S100000x64, y1⟩, ⟨S100000x64, y2⟩, ⟨S100000x64, y3⟩] _ _
    t.val t.isLt S100000x64 (![y1, y2, y3] t) ?_ rfl (64 * t.val) ?_ (ix2 i f) (fun b hb => ?_) (Nat.add_comm _ _)
  · fin_cases t <;> rfl
  · fin_cases t <;> rfl
  · match b with
    | ⟨0, _⟩ => rfl
    | ⟨1, _⟩ => exact absurd rfl hb

variable (btc : (⟨2, ![100000, 1]⟩ : Shape).Idx → BitVec 32) (hbt : ∀ e : Fin 100000, btc (ix2 e (0 : Fin 1)) = bt (ix1 e))
include hbt

theorem ind_eq_hot (v : (⟨2, ![100000, 1]⟩ : Shape).Idx → BitVec 32) (hv : ∀ i, v i = bt (ix1 (i 0))) (e : Fin 100000) (g : Fin 128) :
    (if (v (ix2 e (0 : Fin 1))).toInt = (g.val : ℤ) then (1 : EReal) else 0) = hot btc e g := by
  unfold hot
  rw [hbt e, hv]
  exact if_congr (toInt_eq_iff _ _) rfl rfl

-- A graph's row of sums over max(count, 1), the ids read signed and an id outside [0, 128) landing nowhere.
theorem means_apply (J : (⟨S100000x192, .f32⟩ : BufTy).Contents (Elt Ideal)) (g : Fin 128) (c : Fin 192) :
    means (F := Ideal) bt J (ix2 g c)
      = Ideal.div (∑ i : Fin 100000, hot btc i g * J (ix2 i c)) (max (segCnt btc g) 1) := by
  have hd : scatter_S128x192_S100000x1_S100000x192_1_0_0_1
      = Idealize.ShloMosaic.ScatterSum.rowScatterDims 128 192 100000 scatter_S128x192_S100000x1_S100000x192_1_0_0_1_wf := rfl
  have hd' : scatter_S128_S100000x1_S100000_n_0_0_1
      = Idealize.ShloMosaic.ScatterSum.vecScatterDims 128 100000 scatter_S128_S100000x1_S100000_n_0_0_1_wf := rfl
  have hi : idx_main_v94 (idx_main_v95 (ix2 g c)) = ix1 g := funext fun a => match a with | ⟨0, _⟩ => rfl
  have h86 : ∀ i, val_main_v86 (F := Ideal) bt i = bt (ix1 (i 0)) := fun i => by
    rw [val_main_v86_apply]; exact congrArg bt (funext fun a => match a with | ⟨0, _⟩ => rfl)
  have h90 : ∀ i, val_main_v90 (F := Ideal) bt i = bt (ix1 (i 0)) := fun i => by
    rw [val_main_v90_apply]; exact congrArg bt (funext fun a => match a with | ⟨0, _⟩ => rfl)
  unfold means segCnt
  rw [hostDivf_apply, val_main_v95_apply, val_main_v94_apply, val_main_v93_apply, val_main_v92_apply,
    val_main_cst_18_apply, Ideal.maximumf_def, Ideal.ofBits_def, Ideal.ofBits_one_f32, hi]
  unfold val_main_v91
  rw [hd, hd', Idealize.ShloMosaic.ScatterSum.rowScatterAdd_apply, Idealize.ShloMosaic.ScatterSum.vecScatterAdd_apply, sum_filter_ind, sum_filter_ind,
    val_main_v85_apply, val_main_cst_15_apply, val_main_v89_apply, val_main_cst_17_apply, Ideal.ofBits_def,
    Ideal.ofBits_zero_f32, zero_add, zero_add]
  simp only [ind_eq_hot bt btc hbt _ h86, ind_eq_hot bt btc hbt _ h90, val_main_v88_apply, val_main_cst_16_apply,
    Ideal.ofBits_def, Ideal.ofBits_one_f32]

variable (w : Fin 3 → (⟨2, ![64, 10]⟩ : Shape).Idx → EReal) (brow : (⟨2, ![1, 10]⟩ : Shape).Idx → EReal)
  (hw : ∀ (t : Fin 3) (f : Fin 64) (k : Fin 10), w t (ix2 f k) = wf (ix2 (⟨f.val + 64 * t.val, by omega⟩ : Fin 192) k))
  (hb : ∀ k : Fin 10, brow (ix2 (0 : Fin 1) k) = bf (ix1 k))
include hw hb

-- The product over 192 columns splits into the three layers' means against the three row blocks of the weights.
theorem scores_apply (g : Fin 128) (k : Fin 10) :
    scores (F := Ideal) wf bf (means (F := Ideal) bt (join (F := Ideal) y1 y2 y3)) (ix2 g k)
      = logitAt y1 y2 y3 btc (w 0) (w 1) (w 2) brow g k := by
  have hv : val_main_v99 (F := Ideal) bf (ix2 g k) = bf (ix1 k) := by
    rw [val_main_v99_apply, val_main_v98_apply]
    exact congrArg bf (funext fun a => match a with | ⟨0, _⟩ => rfl)
  have hblk : ∀ t : Fin 3,
      ∑ f : Fin 64, means (F := Ideal) bt (join (F := Ideal) y1 y2 y3) (ix2 g (⟨f.val + 64 * t.val, by omega⟩ : Fin 192))
          * wf (ix2 (⟨f.val + 64 * t.val, by omega⟩ : Fin 192) k)
        = ∑ f : Fin 64, meanAt (![y1, y2, y3] t) btc g f * w t (ix2 f k) := fun t =>
    Finset.sum_congr rfl fun f _ => by
      rw [means_apply bt btc hbt, ← hw]
      unfold meanAt segSum
      simp only [join_block]
  unfold scores logitAt
  rw [addf_apply, hv, hb, dot_apply, sum_fin192, Finset.sum_congr rfl fun t _ => hblk t, Fin.sum_univ_three]
  rfl

theorem pool_eq_of : PR (F := Ideal) y1 y2 y3 bt wf bf = poolArr y1 y2 y3 btc (w 0) (w 1) (w 2) brow := by
  funext i
  obtain ⟨g, k, rfl⟩ : ∃ (g : Fin 128) (k : Fin 10), i = ix2 g k := ⟨i 0, i 1, eq_ix2 i⟩
  rw [poolArr_apply]
  unfold PR poolAt
  rw [softmax_apply]
  simp only [expShift_apply, scores_apply y1 y2 y3 bt wf bf btc hbt w brow hw hb]

end Exact

theorem slice_apply (wf : (⟨S192x10, .f32⟩ : BufTy).Contents (Elt Ideal)) (o : Nat)
    (hs : S192x10.Slices ![o, 0] (⟨2, ![64, 10]⟩ : Shape)) (f : Fin 64) (k : Fin 10) (h : f.val + o < 192) :
    extractStridedSlice (⟨2, ![64, 10]⟩ : Shape) ![o, 0] wf hs (ix2 f k) = wf (ix2 (⟨f.val + o, h⟩ : Fin 192) k) :=
  extractStridedSlice_apply ![o, 0] wf hs (ix2 f k) (ix2 (⟨f.val + o, h⟩ : Fin 192) k) (fun a => match a with
    | ⟨0, _⟩ => by show f.val + o = o + f.val; omega
    | ⟨1, _⟩ => by show k.val = 0 + k.val; omega)

theorem pool_eq (y1 y2 y3 : (⟨S100000x64, .f32⟩ : BufTy).Contents (Elt Ideal)) (bt : (⟨S100000, .i32⟩ : BufTy).Contents (Elt Ideal))
    (wf : (⟨S192x10, .f32⟩ : BufTy).Contents (Elt Ideal)) (bf : (⟨S10, .f32⟩ : BufTy).Contents (Elt Ideal))
    (hc : S100000.ShapeCasts (⟨2, ![100000, 1]⟩ : Shape))
    (hs0 : S192x10.Slices ![0, 0] (⟨2, ![64, 10]⟩ : Shape)) (hs1 : S192x10.Slices ![64, 0] (⟨2, ![64, 10]⟩ : Shape))
    (hs2 : S192x10.Slices ![128, 0] (⟨2, ![64, 10]⟩ : Shape)) (hr : S10.ShapeCasts (⟨2, ![1, 10]⟩ : Shape)) :
    PR (F := Ideal) y1 y2 y3 bt wf bf
      = poolArr y1 y2 y3 (shapeCast (⟨2, ![100000, 1]⟩ : Shape) bt hc)
          (extractStridedSlice (⟨2, ![64, 10]⟩ : Shape) ![0, 0] wf hs0) (extractStridedSlice (⟨2, ![64, 10]⟩ : Shape) ![64, 0] wf hs1)
          (extractStridedSlice (⟨2, ![64, 10]⟩ : Shape) ![128, 0] wf hs2) (shapeCast (⟨2, ![1, 10]⟩ : Shape) bf hr) := by
  refine pool_eq_of y1 y2 y3 bt wf bf _ (fun e => ?_) ![_, _, _] _ (fun t f k => ?_) (fun k => ?_)
  · exact shapeCast_apply bt hc (ix2 e (0 : Fin 1)) (ix1 e)
      (by rewrite [Shape.rowMajor_val_two, Shape.rowMajor_val_one]; show e.val = e.val * 1 + 0; omega)
  · fin_cases t
    · exact slice_apply wf 0 hs0 f k _
    · exact slice_apply wf 64 hs1 f k _
    · exact slice_apply wf 128 hs2 f k _
  · exact shapeCast_apply bf hr (ix2 (0 : Fin 1) k) (ix1 k)
      (by rewrite [Shape.rowMajor_val_one, Shape.rowMajor_val_two]; show k.val = 0 * 10 + k.val; omega)

end Cert.Bridge

end
-- ==== Proof.RefRunHand.lean ====
import proofs.«416900_j23630910063028_3_alg».proof.Proof.Gen.ReferenceIdeal
import proofs.«416900_j23630910063028_3_alg».proof.Proof.RefRead
import Idealize.ShloMosaic.Lib.Pipeline.Frame

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

abbrev opsA : List (HloOp τ sig (Elt F)) :=
  [ nullary main_v0 (iotaInDim S100000 32 0),
    unary main_arg1 main_v1 (extractStridedSlice S1x1600000 ![0, 0] · slices_S2x1600000_S1x1600000_0_0),
    reshape main_v1 main_v2 rfl shapeCasts_S1x1600000_S1600000 ]

abbrev opsB : List (HloOp τ sig (Elt F)) :=
  [ binary main_v2 main_v0 main_v3 (fun a b => concatenate S1700000 0 [⟨S1600000, a⟩, ⟨S100000, b⟩] concatenates_S1600000_S100000_S1700000_d0),
    unary main_arg1 main_v4 (extractStridedSlice S1x1600000 ![1, 0] · slices_S2x1600000_S1x1600000_1_0),
    reshape main_v4 main_v5 rfl shapeCasts_S1x1600000_S1600000 ]

abbrev opsC : List (HloOp τ sig (Elt F)) :=
  [ binary main_v5 main_v0 main_v6 (fun a b => concatenate S1700000 0 [⟨S1600000, a⟩, ⟨S100000, b⟩] concatenates_S1600000_S100000_S1700000_d0),
    nullary main_cst (constant S_ .f32 0x3F800000#32),
    unary main_cst main_v7 (broadcastInDim S1700000 ![] bcast_S_S1700000),
    nullary main_cst_0 (constant S_ .f32 0x00000000#32),
    unary main_cst_0 main_v8 (broadcastInDim S100000 ![] bcast_S_S100000),
    unary main_v6 main_v9 (broadcastInDim S1700000x1 ![0] bcast_S1700000_S1700000x1_0),
    ternary main_v8 main_v9 main_v7 main_v10 (Host.scatterAdd scatter_S100000_S1700000x1_S1700000_n_0_0_1),
    nullary main_cst_1 (constant S_ .f32 0x00000000#32),
    unary main_cst_1 main_v11 (broadcastInDim S100000 ![] bcast_S_S100000),
    binary main_v10 main_v11 main_v12 (cmpf (F := F) .ogt),
    unary main_v10 main_v13 Host.rsqrt,
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000),
    binary main_v3 main_v15 main_v16 (cmpi .slt),
    nullary main_c_3 (constantI S_ 32 100000#32),
    unary main_c_3 main_v17 (broadcastInDim S1700000 ![] bcast_S_S1700000),
    binary main_v3 main_v17 main_v18 addi,
    ternary main_v16 main_v18 main_v3 main_v19 select,
    unary main_v19 main_v20 (broadcastInDim S1700000x1 ![0] bcast_S1700000_S1700000x1_0),
    binary main_v14 main_v20 main_v21 (Host.gather gather_S100000_S1700000x1_S1700000_n_0_n_n_0_1_1),
    nullary main_c_4 (constantI S_ 32 0#32),
    unary main_c_4 main_v22 (broadcastInDim S1700000 ![] bcast_S_S1700000),
    binary main_v6 main_v22 main_v23 (cmpi .slt),
    nullary main_c_5 (constantI S_ 32 100000#32),
    unary main_c_5 main_v24 (broadcastInDim S1700000 ![] bcast_S_S1700000),
    binary main_v6 main_v24 main_v25 addi,
    ternary main_v23 main_v25 main_v6 main_v26 select,
    unary main_v26 main_v27 (broadcastInDim S1700000x1 ![0] bcast_S1700000_S1700000x1_0),
    binary main_v14 main_v27 main_v28 (Host.gather gather_S100000_S1700000x1_S1700000_n_0_n_n_0_1_1),
    binary main_v21 main_v28 main_v29 mulf ]

abbrev opsD : List (HloOp τ sig (Elt F)) :=
  [ binary main_arg0 main_arg3 main_v30 (Host.dotGeneral dot_S100000x64_S64x64_S100000x64_1_0_0_1_n_n none),
    nullary main_c_6 (constantI S_ 32 0#32),
    unary main_c_6 main_v31 (broadcastInDim S1700000 ![] bcast_S_S1700000),
    binary main_v3 main_v31 main_v32 (cmpi .slt),
    nullary main_c_7 (constantI S_ 32 100000#32),
    unary main_c_7 main_v33 (broadcastInDim S1700000 ![] bcast_S_S1700000),
    binary main_v3 main_v33 main_v34 addi,
    ternary main_v32 main_v34 main_v3 main_v35 select,
    unary main_v35 main_v36 (broadcastInDim S1700000x1 ![0] bcast_S1700000_S1700000x1_0),
    binary main_v30 main_v36 main_v37 (Host.gather gather_S100000x64_S1700000x1_S1700000x64_1_0_n_n_0_1_164),
    unary main_v29 main_v38 (broadcastInDim S1700000x1 ![0] bcast_S1700000_S1700000x1_0),
    unary main_v38 main_v39 (broadcastInDim S1700000x64 ![0, 1] bcast_S1700000x1_S1700000x64_0_1),
    binary main_v37 main_v39 main_v40 mulf,
    nullary main_cst_8 (constant S_ .f32 0x00000000#32),
    unary main_cst_8 main_v41 (broadcastInDim S100000x64 ![] bcast_S_S100000x64),
    unary main_v6 main_v42 (broadcastInDim S1700000x1 ![0] bcast_S1700000_S1700000x1_0),
    ternary main_v41 main_v42 main_v40 main_v43 (Host.scatterAdd scatter_S100000x64_S1700000x1_S1700000x64_1_0_0_1),
    unary main_arg4 main_v44 (broadcastInDim S1x64 ![1] bcast_S64_S1x64_1),
    unary main_v44 main_v45 (broadcastInDim S100000x64 ![0, 1] bcast_S1x64_S100000x64_0_1),
    binary main_v43 main_v45 main_v46 addf,
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf,
    binary main_v47 main_arg5 main_v48 (Host.dotGeneral dot_S100000x64_S64x64_S100000x64_1_0_0_1_n_n none) ]

abbrev opsE : List (HloOp τ sig (Elt F)) :=
  [ nullary main_c_9 (constantI S_ 32 0#32),
    unary main_c_9 main_v49 (broadcastInDim S1700000 ![] bcast_S_S1700000),
    binary main_v3 main_v49 main_v50 (cmpi .slt),
    nullary main_c_10 (constantI S_ 32 100000#32),
    unary main_c_10 main_v51 (broadcastInDim S1700000 ![] bcast_S_S1700000),
    binary main_v3 main_v51 main_v52 addi,
    ternary main_v50 main_v52 main_v3 main_v53 select,
    unary main_v53 main_v54 (broadcastInDim S1700000x1 ![0] bcast_S1700000_S1700000x1_0),
    binary main_v48 main_v54 main_v55 (Host.gather gather_S100000x64_S1700000x1_S1700000x64_1_0_n_n_0_1_164),
    unary main_v29 main_v56 (broadcastInDim S1700000x1 ![0] bcast_S1700000_S1700000x1_0),
    unary main_v56 main_v57 (broadcastInDim S1700000x64 ![0, 1] bcast_S1700000x1_S1700000x64_0_1),
    binary main_v55 main_v57 main_v58 mulf,
    nullary main_cst_11 (constant S_ .f32 0x00000000#32),
    unary main_cst_11 main_v59 (broadcastInDim S100000x64 ![] bcast_S_S100000x64),
    unary main_v6 main_v60 (broadcastInDim S1700000x1 ![0] bcast_S1700000_S1700000x1_0),
    ternary main_v59 main_v60 main_v58 main_v61 (Host.scatterAdd scatter_S100000x64_S1700000x1_S1700000x64_1_0_0_1),
    unary main_arg6 main_v62 (broadcastInDim S1x64 ![1] bcast_S64_S1x64_1),
    unary main_v62 main_v63 (broadcastInDim S100000x64 ![0, 1] bcast_S1x64_S100000x64_0_1),
    binary main_v61 main_v63 main_v64 addf,
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v64) (TRef.of (T := ⟨S100000x64, .f32⟩) main_call2_v0) (TRef.of (T := ⟨S100000x64, .f32⟩) main_v65) maximumf ]

abbrev opsG : List (HloOp τ sig (Elt F)) :=
  [ binary main_v65 main_arg7 main_v66 (Host.dotGeneral dot_S100000x64_S64x64_S100000x64_1_0_0_1_n_n none),
    nullary main_c_12 (constantI S_ 32 0#32),
    unary main_c_12 main_v67 (broadcastInDim S1700000 ![] bcast_S_S1700000),
    binary main_v3 main_v67 main_v68 (cmpi .slt),
    nullary main_c_13 (constantI S_ 32 100000#32),
    unary main_c_13 main_v69 (broadcastInDim S1700000 ![] bcast_S_S1700000),
    binary main_v3 main_v69 main_v70 addi,
    ternary main_v68 main_v70 main_v3 main_v71 select,
    unary main_v71 main_v72 (broadcastInDim S1700000x1 ![0] bcast_S1700000_S1700000x1_0),
    binary main_v66 main_v72 main_v73 (Host.gather gather_S100000x64_S1700000x1_S1700000x64_1_0_n_n_0_1_164),
    unary main_v29 main_v74 (broadcastInDim S1700000x1 ![0] bcast_S1700000_S1700000x1_0),
    unary main_v74 main_v75 (broadcastInDim S1700000x64 ![0, 1] bcast_S1700000x1_S1700000x64_0_1),
    binary main_v73 main_v75 main_v76 mulf,
    nullary main_cst_14 (constant S_ .f32 0x00000000#32),
    unary main_cst_14 main_v77 (broadcastInDim S100000x64 ![] bcast_S_S100000x64),
    unary main_v6 main_v78 (broadcastInDim S1700000x1 ![0] bcast_S1700000_S1700000x1_0),
    ternary main_v77 main_v78 main_v76 main_v79 (Host.scatterAdd scatter_S100000x64_S1700000x1_S1700000x64_1_0_0_1),
    unary main_arg8 main_v80 (broadcastInDim S1x64 ![1] bcast_S64_S1x64_1),
    unary main_v80 main_v81 (broadcastInDim S100000x64 ![0, 1] bcast_S1x64_S100000x64_0_1),
    binary main_v79 main_v81 main_v82 addf,
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v82) (TRef.of (T := ⟨S100000x64, .f32⟩) main_call3_v0) (TRef.of (T := ⟨S100000x64, .f32⟩) main_v83) maximumf ]

abbrev opsH0 : List (HloOp τ sig (Elt F)) :=
  [ nary ![main_v47, main_v65, main_v83] main_v84 (fun u => concatenate S100000x192 1 [⟨S100000x64, u 0⟩, ⟨S100000x64, u 1⟩, ⟨S100000x64, u 2⟩] concatenates_S100000x64_S100000x64_S100000x64_S100000x192_d1) ]

abbrev opsH1 : List (HloOp τ sig (Elt F)) :=
  [ nullary main_cst_15 (constant S_ .f32 0x00000000#32),
    unary main_cst_15 main_v85 (broadcastInDim S128x192 ![] bcast_S_S128x192),
    unary main_arg2 main_v86 (broadcastInDim S100000x1 ![0] bcast_S100000_S100000x1_0),
    ternary main_v85 main_v86 main_v84 main_v87 (Host.scatterAdd scatter_S128x192_S100000x1_S100000x192_1_0_0_1),
    nullary main_cst_16 (constant S_ .f32 0x3F800000#32),
    unary main_cst_16 main_v88 (broadcastInDim S100000 ![] bcast_S_S100000),
    nullary main_cst_17 (constant S_ .f32 0x00000000#32),
    unary main_cst_17 main_v89 (broadcastInDim S128 ![] bcast_S_S128),
    unary main_arg2 main_v90 (broadcastInDim S100000x1 ![0] bcast_S100000_S100000x1_0),
    ternary main_v89 main_v90 main_v88 main_v91 (Host.scatterAdd scatter_S128_S100000x1_S100000_n_0_0_1),
    nullary main_cst_18 (constant S_ .f32 0x3F800000#32),
    unary main_cst_18 main_v92 (broadcastInDim S128 ![] bcast_S_S128),
    binary main_v91 main_v92 main_v93 maximumf,
    unary main_v93 main_v94 (broadcastInDim S128x1 ![0] bcast_S128_S128x1_0),
    unary main_v94 main_v95 (broadcastInDim S128x192 ![0, 1] bcast_S128x1_S128x192_0_1),
    binary main_v87 main_v95 main_v96 Host.divf,
    binary main_v96 main_arg9 main_v97 (Host.dotGeneral dot_S128x192_S192x10_S128x10_1_0_0_1_n_n none),
    unary main_arg10 main_v98 (broadcastInDim S1x10 ![1] bcast_S10_S1x10_1) ]

abbrev opsH2 : List (HloOp τ sig (Elt F)) :=
  [ unary main_v98 main_v99 (broadcastInDim S128x10 ![0, 1] bcast_S1x10_S128x10_0_1),
    binary main_v97 main_v99 main_v100 addf,
    nullary main_cst_19 (constant S_ .f32 0xFF800000#32),
    binary main_v100 main_cst_19 main_v101 (fun x v => Host.reduce FloatOps.maximumf x v reducesTo_S128x10_S128_d1 h_S_),
    nullary main_cst_20 (constant S_ .f32 0xFF800000#32),
    unary main_cst_20 main_v102 (broadcastInDim S128 ![] bcast_S_S128),
    binary main_v102 main_v101 main_v103 maximumf,
    unary main_v103 main_v104 (broadcastInDim S128x1 ![0] bcast_S128_S128x1_0),
    unary main_v104 main_v105 (broadcastInDim S128x10 ![0, 1] bcast_S128x1_S128x10_0_1),
    binary main_v100 main_v105 main_v106 subf,
    unary main_v106 main_v107 Host.exp,
    nullary main_cst_21 (constant S_ .f32 0x00000000#32),
    binary main_v107 main_cst_21 main_v108 (fun x v => Host.reduceAdd x v reducesTo_S128x10_S128_d1 h_S_),
    unary main_v108 main_v109 (broadcastInDim S128x1 ![0] bcast_S128_S128x1_0),
    unary main_v109 main_v110 (broadcastInDim S128x10 ![0, 1] bcast_S128x1_S128x10_0_1),
    binary main_v107 main_v110 main_v111 Host.divf ]

abbrev ops : List (HloOp τ sig (Elt F)) := opsA ++ (opsB ++ (opsC ++ (opsD ++ (opsE ++ (opsG ++ (opsH0 ++ (opsH1 ++ opsH2)))))))

theorem main_eq (c : Dev nD) : main (F := F) c = seq ops := by chain_rfl

abbrev arg : Fin 11 → Ref sig .tc := ![main_arg0, main_arg1, main_arg2, main_arg3, main_arg4, main_arg5, main_arg6, main_arg7, main_arg8, main_arg9, main_arg10]

abbrev Ok (op : HloOp τ sig (Elt F)) : Prop := op.bufs ⊆ tcRefs τ sig ∧ op.fresh = ∅ ∧ ∀ k, (arg k : DevRef τ sig) ∉ op.writes

theorem arg_idx (k : Fin 11) : (arg k).idx.val < 11 := by fin_cases k <;> decide

-- The arguments are the first eleven buffers: an operation whose one written buffer comes later writes none of them.
theorem nw {op : HloOp τ sig (Elt F)} {y : Ref sig .tc} (hw : op.writes = {(y : DevRef τ sig)}) (hy : 11 ≤ y.idx.val) (k : Fin 11) :
    (arg k : DevRef τ sig) ∉ op.writes := by
  rw [hw, Finset.mem_singleton]
  exact devRef_ne_of_ne fun e => absurd (e ▸ arg_idx k) (Nat.not_lt.mpr hy)

theorem ops_ok : (ops : List (HloOp τ sig (Elt F))).Forall Ok := by
  repeat' apply And.intro
  all_goals first | exact rfl | exact nw rfl (by decide) | with_reducible exact unary_bufs_sub .. | with_reducible exact binary_bufs_sub .. | with_reducible exact nullary_bufs_sub .. | with_reducible exact ternary_bufs_sub .. | with_reducible exact reshape_bufs_sub .. | with_reducible exact nary_bufs_sub ..

def Args (V : Valuation τ sig (Elt F)) (X : (k : Fin 11) → (arg k : DevRef τ sig).ty.Contents (Elt F)) : Prop := ∀ k, V (arg k) = X k

variable {V : Valuation τ sig (Elt F)} {X : (k : Fin 11) → (arg k : DevRef τ sig).ty.Contents (Elt F)}

-- A line that writes no argument leaves the arguments where they were.
theorem keep {l : List (HloOp τ sig (Elt F))} (hl : l.Forall Ok) (h : Args V X) : Args (after l V) X :=
  fun k => (after_of_forall_not_mem l V fun op ho => (List.forall_iff_forall_mem.mp hl op ho).2.2 k).trans (h k)

theorem stepA (h : Args V X)  :
    after opsA V main_v0 = val_main_v0 (F := F)
    ∧ after opsA V main_v2 = val_main_v2 (X 1) := by
  have a1 : V main_arg1 = X 1 := h 1
  refine ⟨?_, ?_⟩ <;> after_results_simp <;> (try rw [a1]) <;> rfl

theorem stepB (h : Args V X) (h0 : V main_v0 = val_main_v0 (F := F)) (h2 : V main_v2 = val_main_v2 (X 1)) :
    after opsB V main_v0 = val_main_v0 (F := F)
    ∧ after opsB V main_v3 = val_main_v3 (X 1)
    ∧ after opsB V main_v5 = val_main_v5 (X 1) := by
  have a1 : V main_arg1 = X 1 := h 1
  refine ⟨?_, ?_, ?_⟩ <;> after_results_simp <;> (repeat (first | rw [h0] | rw [h2] | rw [a1])) <;> rfl

theorem stepC (h0 : V main_v0 = val_main_v0 (F := F)) (h5 : V main_v5 = val_main_v5 (X 1)) (h3 : V main_v3 = val_main_v3 (X 1)) :
    after opsC V main_v3 = val_main_v3 (X 1)
    ∧ after opsC V main_v6 = val_main_v6 (X 1)
    ∧ after opsC V main_v29 = val_main_v29 (X 1) := by
  refine ⟨?_, ?_, ?_⟩ <;> after_results_simp <;> (repeat (first | rw [h0] | rw [h5] | rw [h3])) <;> (try simp only [TRef.ofBuf, TRef.toBuf, cast_eq]) <;> rfl

theorem stepD (h : Args V X) (h3 : V main_v3 = val_main_v3 (X 1)) (h6 : V main_v6 = val_main_v6 (X 1)) (h29 : V main_v29 = val_main_v29 (X 1)) :
    after opsD V main_v3 = val_main_v3 (X 1)
    ∧ after opsD V main_v6 = val_main_v6 (X 1)
    ∧ after opsD V main_v29 = val_main_v29 (X 1)
    ∧ after opsD V main_v47 = val_main_v47 (X 0) (X 1) (X 3) (X 4)
    ∧ after opsD V main_v48 = val_main_v48 (X 0) (X 1) (X 3) (X 4) (X 5) := by
  have a0 : V main_arg0 = X 0 := h 0
  have a3 : V main_arg3 = X 3 := h 3
  have a4 : V main_arg4 = X 4 := h 4
  have a5 : V main_arg5 = X 5 := h 5
  refine ⟨?_, ?_, ?_, ?_, ?_⟩ <;> after_results_simp <;> (repeat (first | rw [h3] | rw [h6] | rw [h29] | rw [a0] | rw [a3] | rw [a4] | rw [a5])) <;> (try simp only [TRef.ofBuf, TRef.toBuf, cast_eq]) <;> rfl

theorem stepE (h : Args V X) (h3 : V main_v3 = val_main_v3 (X 1)) (h6 : V main_v6 = val_main_v6 (X 1)) (h29 : V main_v29 = val_main_v29 (X 1)) (h47 : V main_v47 = val_main_v47 (X 0) (X 1) (X 3) (X 4)) (h48 : V main_v48 = val_main_v48 (X 0) (X 1) (X 3) (X 4) (X 5)) :
    after opsE V main_v3 = val_main_v3 (X 1)
    ∧ after opsE V main_v6 = val_main_v6 (X 1)
    ∧ after opsE V main_v29 = val_main_v29 (X 1)
    ∧ after opsE V main_v47 = val_main_v47 (X 0) (X 1) (X 3) (X 4)
    ∧ after opsE V main_v65 = val_main_v65 (X 0) (X 1) (X 3) (X 4) (X 5) (X 6) := by
  have a6 : V main_arg6 = X 6 := h 6
  refine ⟨?_, ?_, ?_, ?_, ?_⟩ <;> after_results_simp <;> (repeat (first | rw [h3] | rw [h6] | rw [h29] | rw [h47] | rw [h48] | rw [a6])) <;> (try simp only [TRef.ofBuf, TRef.toBuf, cast_eq]) <;> rfl

theorem stepG (h : Args V X) (h3 : V main_v3 = val_main_v3 (X 1)) (h6 : V main_v6 = val_main_v6 (X 1)) (h29 : V main_v29 = val_main_v29 (X 1)) (h47 : V main_v47 = val_main_v47 (X 0) (X 1) (X 3) (X 4)) (h65 : V main_v65 = val_main_v65 (X 0) (X 1) (X 3) (X 4) (X 5) (X 6)) :
    after opsG V main_v47 = val_main_v47 (X 0) (X 1) (X 3) (X 4)
    ∧ after opsG V main_v65 = val_main_v65 (X 0) (X 1) (X 3) (X 4) (X 5) (X 6)
    ∧ after opsG V main_v83 = val_main_v83 (X 0) (X 1) (X 3) (X 4) (X 5) (X 6) (X 7) (X 8) := by
  have a7 : V main_arg7 = X 7 := h 7
  have a8 : V main_arg8 = X 8 := h 8
  refine ⟨?_, ?_, ?_⟩ <;> after_results_simp <;> (repeat (first | rw [h3] | rw [h6] | rw [h29] | rw [h47] | rw [h65] | rw [a7] | rw [a8])) <;> (try simp only [TRef.ofBuf, TRef.toBuf, cast_eq]) <;> rfl

theorem stepH0 (h47 : V main_v47 = val_main_v47 (X 0) (X 1) (X 3) (X 4)) (h65 : V main_v65 = val_main_v65 (X 0) (X 1) (X 3) (X 4) (X 5) (X 6)) (h83 : V main_v83 = val_main_v83 (X 0) (X 1) (X 3) (X 4) (X 5) (X 6) (X 7) (X 8)) :
    after opsH0 V main_v84 = val_main_v84 (X 0) (X 1) (X 3) (X 4) (X 5) (X 6) (X 7) (X 8) := by
  simp only [after_cons, after_nil]
  rw [nary_result]
  unfold val_main_v84
  rw [← h47, ← h65, ← h83]
  rfl

theorem stepH1 (h : Args V X) (h84 : V main_v84 = val_main_v84 (X 0) (X 1) (X 3) (X 4) (X 5) (X 6) (X 7) (X 8)) :
    after opsH1 V main_v97 = val_main_v97 (X 0) (X 1) (X 2) (X 3) (X 4) (X 5) (X 6) (X 7) (X 8) (X 9)
    ∧ after opsH1 V main_v98 = val_main_v98 (X 10) := by
  have a2 : V main_arg2 = X 2 := h 2
  have a9 : V main_arg9 = X 9 := h 9
  have a10 : V main_arg10 = X 10 := h 10
  refine ⟨?_, ?_⟩ <;> after_results_simp <;> (repeat (first | rw [h84] | rw [a2] | rw [a9] | rw [a10])) <;> rfl

theorem stepH2 (h97 : V main_v97 = val_main_v97 (X 0) (X 1) (X 2) (X 3) (X 4) (X 5) (X 6) (X 7) (X 8) (X 9)) (h98 : V main_v98 = val_main_v98 (X 10)) :
    after opsH2 V main_v111 = val_main_v111 (X 0) (X 1) (X 2) (X 3) (X 4) (X 5) (X 6) (X 7) (X 8) (X 9) (X 10) := by
  after_results_simp <;> (repeat (first | rw [h97] | rw [h98])) <;> rfl

-- The stretches one after the other, each from what the ones before it left.
theorem after_ops_of (h : Args V X) :
    after ops V main_v111 = val_main_v111 (X 0) (X 1) (X 2) (X 3) (X 4) (X 5) (X 6) (X 7) (X 8) (X 9) (X 10) ∧ Args (after ops V) X := by
  have k := ops_ok (F := F)
  simp only [ops, List.forall_append] at k
  obtain ⟨kA, kB, kC, kD, kE, kG, kH0, kH1, kH2⟩ := k
  simp only [ops, after_append]
  have hA := keep kA h
  obtain ⟨a0, a2⟩ := stepA h
  have hB := keep kB hA
  obtain ⟨b0, b3, b5⟩ := stepB hA a0 a2
  have hC := keep kC hB
  obtain ⟨c3, c6, c29⟩ := stepC b0 b5 b3
  have hD := keep kD hC
  obtain ⟨d3, d6, d29, d47, d48⟩ := stepD hC c3 c6 c29
  have hE := keep kE hD
  obtain ⟨e3, e6, e29, e47, e65⟩ := stepE hD d3 d6 d29 d47 d48
  have hG := keep kG hE
  obtain ⟨g47, g65, g83⟩ := stepG hE e3 e6 e29 e47 e65
  have hH0 := keep kH0 hG
  obtain ⟨i97, i98⟩ := stepH1 hH0 (stepH0 g47 g65 g83)
  exact ⟨stepH2 i97 i98, keep kH2 (keep kH1 hH0)⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v111) = val_main_v111 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
      obtain ⟨h111, hA⟩ := after_ops_of (V := launchContents m c) (X := fun k => launchContents m c (arg k)) fun _ => rfl
      exact ⟨(h c main_v111).trans h111, (h c main_arg0).trans (hA 0), (h c main_arg1).trans (hA 1), (h c main_arg2).trans (hA 2), (h c main_arg3).trans (hA 3), (h c main_arg4).trans (hA 4), (h c main_arg5).trans (hA 5), (h c main_arg6).trans (hA 6), (h c main_arg7).trans (hA 7), (h c main_arg8).trans (hA 8), (h c main_arg9).trans (hA 9), (h c main_arg10).trans (hA 10)⟩)
    (run_seq (by decide) (by decide) defs main (fun _ => ops) main_eq (fun _ => ops_ok.imp fun _ h => h.1) m ρ
      (fun _ => List.forall_iff_forall_mem.mp (ops_ok.imp fun _ h => h.2.1)))

end Cert.ReferenceIdeal.HandRun

end
-- ==== Proof.lean ====
import proofs.«416900_j23630910063028_3_alg».proof.Defs
import proofs.«416900_j23630910063028_3_alg».proof.Proof.Gen.Kernel
import proofs.«416900_j23630910063028_3_alg».proof.Proof.Gen.KernelIdeal
import proofs.«416900_j23630910063028_3_alg».proof.Proof.Gen.ReferenceIdeal
import proofs.«416900_j23630910063028_3_alg».proof.Proof.Gen.Pre_finite_inputs
import proofs.«416900_j23630910063028_3_alg».proof.Proof.K.Regs
import proofs.«416900_j23630910063028_3_alg».proof.Proof.KI.Regs
import proofs.«416900_j23630910063028_3_alg».proof.Proof.KI.KValue
import proofs.«416900_j23630910063028_3_alg».proof.Proof.BridgeLayer
import proofs.«416900_j23630910063028_3_alg».proof.Proof.BridgePool
import proofs.«416900_j23630910063028_3_alg».proof.Proof.RefRunHand
import Idealize.ShloMosaic.Adequacy
import Idealize.ShloMosaic.Init

set_option maxRecDepth 16384

noncomputable section

namespace Cert.Proof

open Idealize.ShloMosaic Idealize.ShloMosaic.TcCoe Idealize.SL.Sem

section KernelSide

open Cert.KernelIdeal Cert.KernelIdeal.Gen Cert.KernelIdeal.Frame

variable (m : (ℓ : Loc nD τ sig) → Buf (Elt Ideal) ℓ)

-- No item of the program writes an argument: the last contents agree with the launch contents there.
theorem U14_arg (c : Dev nD) (b : Ref sig .tc) (hb : decide (b ∉ (Cert.KernelIdeal.Val.t0 m c).S) = true) :
    U14 m c b = m ((c : Thread nD τ).loc b) :=
  (Cert.KernelIdeal.Val.t0 m c).eq b (of_decide_eq_true hb)

end KernelSide

theorem value_eq (m : (ℓ : Loc Cert.KernelIdeal.nD Cert.KernelIdeal.τ Cert.KernelIdeal.sig) → Buf (Elt Ideal) ℓ) (c : Dev Cert.KernelIdeal.nD)
    (a0 : (⟨Cert.ReferenceIdeal.S100000x64, .f32⟩ : BufTy).Contents (Elt Ideal)) (a1 : (⟨Cert.ReferenceIdeal.S2x1600000, .i32⟩ : BufTy).Contents (Elt Ideal))
    (a2 : (⟨Cert.ReferenceIdeal.S100000, .i32⟩ : BufTy).Contents (Elt Ideal)) (a3 : (⟨Cert.ReferenceIdeal.S64x64, .f32⟩ : BufTy).Contents (Elt Ideal))
    (a4 : (⟨Cert.ReferenceIdeal.S64, .f32⟩ : BufTy).Contents (Elt Ideal)) (a5 : (⟨Cert.ReferenceIdeal.S64x64, .f32⟩ : BufTy).Contents (Elt Ideal))
    (a6 : (⟨Cert.ReferenceIdeal.S64, .f32⟩ : BufTy).Contents (Elt Ideal)) (a7 : (⟨Cert.ReferenceIdeal.S64x64, .f32⟩ : BufTy).Contents (Elt Ideal))
    (a8 : (⟨Cert.ReferenceIdeal.S64, .f32⟩ : BufTy).Contents (Elt Ideal)) (a9 : (⟨Cert.ReferenceIdeal.S192x10, .f32⟩ : BufTy).Contents (Elt Ideal))
    (a10 : (⟨Cert.ReferenceIdeal.S10, .f32⟩ : BufTy).Contents (Elt Ideal))
    (h0 : a0 = m ((c.tc : Thread Cert.KernelIdeal.nD Cert.KernelIdeal.τ).loc Cert.KernelIdeal.main_arg0))
    (h1 : a1 = m ((c.tc : Thread Cert.KernelIdeal.nD Cert.KernelIdeal.τ).loc Cert.KernelIdeal.main_arg1))
    (h2 : a2 = m ((c.tc : Thread Cert.KernelIdeal.nD Cert.KernelIdeal.τ).loc Cert.KernelIdeal.main_arg2))
    (h3 : a3 = m ((c.tc : Thread Cert.KernelIdeal.nD Cert.KernelIdeal.τ).loc Cert.KernelIdeal.main_arg3))
    (h4 : a4 = m ((c.tc : Thread Cert.KernelIdeal.nD Cert.KernelIdeal.τ).loc Cert.KernelIdeal.main_arg4))
    (h5 : a5 = m ((c.tc : Thread Cert.KernelIdeal.nD Cert.KernelIdeal.τ).loc Cert.KernelIdeal.main_arg5))
    (h6 : a6 = m ((c.tc : Thread Cert.KernelIdeal.nD Cert.KernelIdeal.τ).loc Cert.KernelIdeal.main_arg6))
    (h7 : a7 = m ((c.tc : Thread Cert.KernelIdeal.nD Cert.KernelIdeal.τ).loc Cert.KernelIdeal.main_arg7))
    (h8 : a8 = m ((c.tc : Thread Cert.KernelIdeal.nD Cert.KernelIdeal.τ).loc Cert.KernelIdeal.main_arg8))
    (h9 : a9 = m ((c.tc : Thread Cert.KernelIdeal.nD Cert.KernelIdeal.τ).loc Cert.KernelIdeal.main_arg9))
    (h10 : a10 = m ((c.tc : Thread Cert.KernelIdeal.nD Cert.KernelIdeal.τ).loc Cert.KernelIdeal.main_arg10)) :
    Cert.ReferenceIdeal.Read.val_main_v111 (F := Ideal) a0 a1 a2 a3 a4 a5 a6 a7 a8 a9 a10
      = Cert.KernelIdeal.Frame.U14 m c Cert.KernelIdeal.main_v63 := by
  subst h0 h1 h2 h3 h4 h5 h6 h7 h8 h9 h10
  rw [Cert.Bridge.tail_eq, Cert.Bridge.layer3_eq, Cert.Bridge.layer2_eq]
  rw [Cert.KernelIdeal.Val.result, Cert.KernelIdeal.Val.layer3, Cert.KernelIdeal.Val.layer2, Cert.KernelIdeal.Val.layer1]
  simp only [Cert.Bridge.layer_eq]
  exact Cert.Bridge.pool_eq _ _ _ _ _ _ _ _ _ _ _

theorem frame_p : Cert.frame_Kernel := fun m ρ _ => Cert.Kernel.Frame.frame m ρ

theorem frame_pi : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.HandRun.run (F := Ideal) m ρ)

theorem algebraic : Cert.algebraic_KernelIdeal_ReferenceIdeal := by
  intro m ρ m' ρ' _ hagree
  refine ⟨fun c => Cert.KernelIdeal.Frame.U14 m c Cert.KernelIdeal.main_v63, ?_, ?_⟩
  · refine (θ_run Cert.KernelIdeal.defs _ _).mono (fun r h c => ?_) (Cert.KernelIdeal.Frame.run_all (F := Ideal) m ρ)
    exact ⟨h c _ (Cert.KernelIdeal.Frame.mem_uc Cert.KernelIdeal.main_v63 (by decide)),
      (h c _ (Cert.KernelIdeal.Frame.mem_uc Cert.KernelIdeal.main_arg0 (by decide))).trans (U14_arg m c Cert.KernelIdeal.main_arg0 rfl),
      (h c _ (Cert.KernelIdeal.Frame.mem_uc Cert.KernelIdeal.main_arg1 (by decide))).trans (U14_arg m c Cert.KernelIdeal.main_arg1 rfl),
      (h c _ (Cert.KernelIdeal.Frame.mem_uc Cert.KernelIdeal.main_arg2 (by decide))).trans (U14_arg m c Cert.KernelIdeal.main_arg2 rfl),
      (h c _ (Cert.KernelIdeal.Frame.mem_uc Cert.KernelIdeal.main_arg3 (by decide))).trans (U14_arg m c Cert.KernelIdeal.main_arg3 rfl),
      (h c _ (Cert.KernelIdeal.Frame.mem_uc Cert.KernelIdeal.main_arg4 (by decide))).trans (U14_arg m c Cert.KernelIdeal.main_arg4 rfl),
      (h c _ (Cert.KernelIdeal.Frame.mem_uc Cert.KernelIdeal.main_arg5 (by decide))).trans (U14_arg m c Cert.KernelIdeal.main_arg5 rfl),
      (h c _ (Cert.KernelIdeal.Frame.mem_uc Cert.KernelIdeal.main_arg6 (by decide))).trans (U14_arg m c Cert.KernelIdeal.main_arg6 rfl),
      (h c _ (Cert.KernelIdeal.Frame.mem_uc Cert.KernelIdeal.main_arg7 (by decide))).trans (U14_arg m c Cert.KernelIdeal.main_arg7 rfl),
      (h c _ (Cert.KernelIdeal.Frame.mem_uc Cert.KernelIdeal.main_arg8 (by decide))).trans (U14_arg m c Cert.KernelIdeal.main_arg8 rfl),
      (h c _ (Cert.KernelIdeal.Frame.mem_uc Cert.KernelIdeal.main_arg9 (by decide))).trans (U14_arg m c Cert.KernelIdeal.main_arg9 rfl),
      (h c _ (Cert.KernelIdeal.Frame.mem_uc Cert.KernelIdeal.main_arg10 (by decide))).trans (U14_arg m c Cert.KernelIdeal.main_arg10 rfl)⟩
  · refine (θ_run Cert.ReferenceIdeal.defs _ _).mono (fun r h c => ⟨(h c).1.trans ?_, (h c).2⟩)
      (Cert.ReferenceIdeal.HandRun.run (F := Ideal) m' ρ')
    exact value_eq m c _ _ _ _ _ _ _ _ _ _ _ (hagree c).1 (hagree c).2.1 (hagree c).2.2.1 (hagree c).2.2.2.1
      (hagree c).2.2.2.2.1 (hagree c).2.2.2.2.2.1 (hagree c).2.2.2.2.2.2.1 (hagree c).2.2.2.2.2.2.2.1
      (hagree c).2.2.2.2.2.2.2.2.1 (hagree c).2.2.2.2.2.2.2.2.2.1 (hagree c).2.2.2.2.2.2.2.2.2.2

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
